-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S16 : S_.BroadcastsInDim S16 (![] : Fin 0 → Fin S16.rank)
  reducesTo_S16_S_d0 : S16.ReducesTo [0] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg23 : FVec F S128 .f32) (main_arg24 : FVec F S128 .f32) (main_arg25 : FVec F S128 .f32) (main_arg26 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S16 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x10 .f32) (main_arg14 : FVec F S10 .f32) (main_arg15 : FVec F S16 .f32) (main_arg16 : FVec F S16 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg13
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x10 .f32) (main_arg14 : FVec F S10 .f32) (main_arg15 : FVec F S16 .f32) (main_arg16 : FVec F S16 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x10 .f32) (main_arg14 : FVec F S10 .f32) (main_arg15 : FVec F S16 .f32) (main_arg16 : FVec F S16 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x16 .f32) (main_arg1 : IVec S2x1600000 32) (main_arg2 : IVec S100000 32) (main_arg3 : FVec F S16x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x10 .f32) (main_arg14 : FVec F S10 .f32) (main_arg15 : FVec F S16 .f32) (main_arg16 : FVec F S16 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) (main_arg26 : FVec F S128 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x16 : Shape := ⟨2, ![1, 16]⟩
abbrev S1700000x16 : Shape := ⟨2, ![1700000, 16]⟩
abbrev S100000x128 : Shape := ⟨2, ![100000, 128]⟩
abbrev S1x128 : Shape := ⟨2, ![1, 128]⟩
abbrev S5000x16 : Shape := ⟨2, ![5000, 16]⟩
abbrev S5000x128 : Shape := ⟨2, ![5000, 128]⟩
abbrev S1700000x128 : Shape := ⟨2, ![1700000, 128]⟩
abbrev S100000x1 : Shape := ⟨2, ![100000, 1]⟩
abbrev S16x1 : Shape := ⟨2, ![16, 1]⟩
abbrev S16x10 : Shape := ⟨2, ![16, 10]⟩
abbrev S1x10 : Shape := ⟨2, ![1, 10]⟩

abbrev nBuf : Space → Nat
  | .hbm => 371
  | .vmem => 32
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S16x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x10, .f32⟩
  | 14 => ⟨S10, .f32⟩
  | 15 => ⟨S16, .f32⟩
  | 16 => ⟨S16, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S100000, .i32⟩
  | 28 => ⟨S1x1600000, .i32⟩
  | 29 => ⟨S1600000, .i32⟩
  | 30 => ⟨S1700000, .i32⟩
  | 31 => ⟨S1x1600000, .i32⟩
  | 32 => ⟨S1600000, .i32⟩
  | 33 => ⟨S1700000, .i32⟩
  | 34 => ⟨S_, .f32⟩
  | 35 => ⟨S1700000, .f32⟩
  | 36 => ⟨S_, .f32⟩
  | 37 => ⟨S100000, .f32⟩
  | 38 => ⟨S1700000x1, .i32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .f32⟩
  | 61 => ⟨S16, .f32⟩
  | 62 => ⟨S_, .f32⟩
  | 63 => ⟨S16, .f32⟩
  | 64 => ⟨S16, .f32⟩
  | 65 => ⟨S_, .i32⟩
  | 66 => ⟨S_, .f32⟩
  | 67 => ⟨S16, .f32⟩
  | 68 => ⟨S1x16, .f32⟩
  | 69 => ⟨S_, .f32⟩
  | 70 => ⟨S1x16, .f32⟩
  | 71 => ⟨S1x16, .f32⟩
  | 72 => ⟨S100000x16, .f32⟩
  | 73 => ⟨S100000x16, .f32⟩
  | 74 => ⟨S100000x16, .f32⟩
  | 75 => ⟨S_, .f32⟩
  | 76 => ⟨S_, .f32⟩
  | 77 => ⟨S_, .f32⟩
  | 78 => ⟨S_, .f32⟩
  | 79 => ⟨S16, .f32⟩
  | 80 => ⟨S16, .f32⟩
  | 81 => ⟨S16, .f32⟩
  | 82 => ⟨S_, .f32⟩
  | 83 => ⟨S_, .i1⟩
  | 84 => ⟨S_, .f32⟩
  | 85 => ⟨S_, .f32⟩
  | 86 => ⟨S16, .f32⟩
  | 87 => ⟨S16, .f32⟩
  | 88 => ⟨S1x16, .f32⟩
  | 89 => ⟨S100000x16, .f32⟩
  | 90 => ⟨S100000x16, .f32⟩
  | 91 => ⟨S1x16, .f32⟩
  | 92 => ⟨S100000x16, .f32⟩
  | 93 => ⟨S100000x16, .f32⟩
  | 94 => ⟨S_, .f32⟩
  | 95 => ⟨S16, .f32⟩
  | 96 => ⟨S16, .f32⟩
  | 97 => ⟨S16, .f32⟩
  | 98 => ⟨S1x16, .f32⟩
  | 99 => ⟨S100000x16, .f32⟩
  | 100 => ⟨S100000x16, .f32⟩
  | 101 => ⟨S1x16, .f32⟩
  | 102 => ⟨S100000x16, .f32⟩
  | 103 => ⟨S100000x16, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x16, .f32⟩
  | 113 => ⟨S1700000x1, .f32⟩
  | 114 => ⟨S1700000x16, .f32⟩
  | 115 => ⟨S1700000x16, .f32⟩
  | 116 => ⟨S_, .f32⟩
  | 117 => ⟨S100000x16, .f32⟩
  | 118 => ⟨S1700000x1, .i32⟩
  | 119 => ⟨S100000x16, .f32⟩
  | 120 => ⟨S16x128, .bf16⟩
  | 121 => ⟨S100000x128, .f32⟩
  | 122 => ⟨S1x128, .f32⟩
  | 123 => ⟨S1x128, .f32⟩
  | 124 => ⟨S128, .f32⟩
  | 125 => ⟨S_, .f32⟩
  | 126 => ⟨S128, .f32⟩
  | 127 => ⟨S128, .f32⟩
  | _ => ⟨S100000x16, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000x128, .f32⟩
  | 34 => ⟨S1700000x1, .f32⟩
  | 35 => ⟨S1700000x128, .f32⟩
  | 36 => ⟨S1700000x128, .f32⟩
  | 37 => ⟨S_, .f32⟩
  | 38 => ⟨S100000x128, .f32⟩
  | 39 => ⟨S1700000x1, .i32⟩
  | 40 => ⟨S100000x128, .f32⟩
  | 41 => ⟨S128x128, .bf16⟩
  | 42 => ⟨S100000x128, .f32⟩
  | 43 => ⟨S1x128, .f32⟩
  | 44 => ⟨S1x128, .f32⟩
  | 45 => ⟨S128, .f32⟩
  | 46 => ⟨S_, .f32⟩
  | 47 => ⟨S128, .f32⟩
  | 48 => ⟨S128, .f32⟩
  | 49 => ⟨S128, .f32⟩
  | 50 => ⟨S_, .f32⟩
  | 51 => ⟨S128, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x1, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S128x128, .bf16⟩
  | 91 => ⟨S100000x128, .f32⟩
  | 92 => ⟨S1x128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S128, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x16, .f32⟩

abbrev hbmTy0_2 (i : Nat) : BufTy := match i % 128 with
  | 0 => ⟨S1700000, .i32⟩
  | 1 => ⟨S1700000, .i32⟩
  | 2 => ⟨S1700000x1, .i32⟩
  | 3 => ⟨S1700000x128, .f32⟩
  | 4 => ⟨S1700000x1, .f32⟩
  | 5 => ⟨S1700000x128, .f32⟩
  | 6 => ⟨S1700000x128, .f32⟩
  | 7 => ⟨S_, .f32⟩
  | 8 => ⟨S100000x128, .f32⟩
  | 9 => ⟨S1700000x1, .i32⟩
  | 10 => ⟨S100000x128, .f32⟩
  | 11 => ⟨S128x128, .bf16⟩
  | 12 => ⟨S100000x128, .f32⟩
  | 13 => ⟨S1x128, .f32⟩
  | 14 => ⟨S1x128, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S128, .f32⟩
  | 24 => ⟨S128, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000, .f32⟩
  | 46 => ⟨S_, .f32⟩
  | 47 => ⟨S16, .f32⟩
  | 48 => ⟨S100000x1, .i32⟩
  | 49 => ⟨S16, .f32⟩
  | 50 => ⟨S_, .f32⟩
  | 51 => ⟨S16, .f32⟩
  | 52 => ⟨S16, .f32⟩
  | 53 => ⟨S_, .f32⟩
  | 54 => ⟨S16x128, .f32⟩
  | 55 => ⟨S100000x1, .i32⟩
  | 56 => ⟨S16x128, .f32⟩
  | 57 => ⟨S16x1, .f32⟩
  | 58 => ⟨S16x128, .f32⟩
  | 59 => ⟨S16x128, .f32⟩
  | 60 => ⟨S16x128, .f32⟩
  | 61 => ⟨S1x128, .f32⟩
  | 62 => ⟨S16x128, .f32⟩
  | 63 => ⟨S16x128, .f32⟩
  | 64 => ⟨S_, .f32⟩
  | 65 => ⟨S16x128, .f32⟩
  | 66 => ⟨S16x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S16x128, .f32⟩
  | 80 => ⟨S16x128, .f32⟩
  | 81 => ⟨S16x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S16x128, .f32⟩
  | 97 => ⟨S16x128, .f32⟩
  | 98 => ⟨S1x128, .f32⟩
  | 99 => ⟨S16x128, .f32⟩
  | 100 => ⟨S16x128, .f32⟩
  | 101 => ⟨S_, .f32⟩
  | 102 => ⟨S128, .f32⟩
  | 103 => ⟨S128, .f32⟩
  | 104 => ⟨S128, .f32⟩
  | 105 => ⟨S1x128, .f32⟩
  | 106 => ⟨S16x128, .f32⟩
  | 107 => ⟨S16x128, .f32⟩
  | 108 => ⟨S1x128, .f32⟩
  | 109 => ⟨S16x128, .f32⟩
  | 110 => ⟨S16x128, .f32⟩
  | 111 => ⟨S16x10, .f32⟩
  | 112 => ⟨S1x10, .f32⟩
  | 113 => ⟨S16x10, .f32⟩
  | 114 => ⟨S16x10, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x128, .bf16⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S128x128, .bf16⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S128x128, .bf16⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S128x128, .bf16⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_c_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_v29 : Ref sig .tc := ⟨.hbm, 64, rfl⟩
abbrev main_c_6 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_cst_7 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_c_8 : Ref sig .tc := ⟨.hbm, 104, rfl⟩
abbrev main_v46 : Ref sig .tc := ⟨.hbm, 105, rfl⟩
abbrev main_v47 : Ref sig .tc := ⟨.hbm, 106, rfl⟩
abbrev main_c_9 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_10 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60_0 : Ref sig .tc := ⟨.hbm, 121, rfl⟩
abbrev main_v60_1 : Ref sig .tc := ⟨.hbm, 122, rfl⟩
abbrev main_v60_2 : Ref sig .tc := ⟨.hbm, 123, rfl⟩
abbrev main_v61 : Ref sig .tc := ⟨.hbm, 124, rfl⟩
abbrev main_cst_11 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_12 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_13 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_14 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_c_15 : Ref sig .tc := ⟨.hbm, 153, rfl⟩
abbrev main_v86 : Ref sig .tc := ⟨.hbm, 154, rfl⟩
abbrev main_v87 : Ref sig .tc := ⟨.hbm, 155, rfl⟩
abbrev main_c_16 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_17 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100_0 : Ref sig .tc := ⟨.hbm, 170, rfl⟩
abbrev main_v100_1 : Ref sig .tc := ⟨.hbm, 171, rfl⟩
abbrev main_v100_2 : Ref sig .tc := ⟨.hbm, 172, rfl⟩
abbrev main_v101 : Ref sig .tc := ⟨.hbm, 173, rfl⟩
abbrev main_cst_18 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_19 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_cst_20 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_cst_21 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_c_22 : Ref sig .tc := ⟨.hbm, 202, rfl⟩
abbrev main_v126 : Ref sig .tc := ⟨.hbm, 203, rfl⟩
abbrev main_v127 : Ref sig .tc := ⟨.hbm, 204, rfl⟩
abbrev main_c_23 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_cst_24 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140_0 : Ref sig .tc := ⟨.hbm, 219, rfl⟩
abbrev main_v140_1 : Ref sig .tc := ⟨.hbm, 220, rfl⟩
abbrev main_v140_2 : Ref sig .tc := ⟨.hbm, 221, rfl⟩
abbrev main_v141 : Ref sig .tc := ⟨.hbm, 222, rfl⟩
abbrev main_cst_25 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_cst_26 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_27 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_cst_28 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_c_29 : Ref sig .tc := ⟨.hbm, 251, rfl⟩
abbrev main_v166 : Ref sig .tc := ⟨.hbm, 252, rfl⟩
abbrev main_v167 : Ref sig .tc := ⟨.hbm, 253, rfl⟩
abbrev main_c_30 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_cst_31 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180_0 : Ref sig .tc := ⟨.hbm, 268, rfl⟩
abbrev main_v180_1 : Ref sig .tc := ⟨.hbm, 269, rfl⟩
abbrev main_v180_2 : Ref sig .tc := ⟨.hbm, 270, rfl⟩
abbrev main_v181 : Ref sig .tc := ⟨.hbm, 271, rfl⟩
abbrev main_cst_32 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_cst_33 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_34 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_cst_35 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_cst_36 : Ref sig .tc := ⟨.hbm, 300, rfl⟩
abbrev main_v206 : Ref sig .tc := ⟨.hbm, 301, rfl⟩
abbrev main_cst_37 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_cst_38 : Ref sig .tc := ⟨.hbm, 306, rfl⟩
abbrev main_v210 : Ref sig .tc := ⟨.hbm, 307, rfl⟩
abbrev main_v211 : Ref sig .tc := ⟨.hbm, 308, rfl⟩
abbrev main_cst_39 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_call1_cst : Ref sig .tc := ⟨.hbm, 320, rfl⟩
abbrev main_call1_v0 : Ref sig .tc := ⟨.hbm, 321, rfl⟩
abbrev main_v222 : Ref sig .tc := ⟨.hbm, 322, rfl⟩
abbrev main_cst_40 : Ref sig .tc := ⟨.hbm, 323, rfl⟩
abbrev main_v223 : Ref sig .tc := ⟨.hbm, 324, rfl⟩
abbrev main_cst_41 : Ref sig .tc := ⟨.hbm, 325, rfl⟩
abbrev main_v224 : Ref sig .tc := ⟨.hbm, 326, rfl⟩
abbrev main_v225 : Ref sig .tc := ⟨.hbm, 327, rfl⟩
abbrev main_c_42 : Ref sig .tc := ⟨.hbm, 328, rfl⟩
abbrev main_call2_cst : Ref sig .tc := ⟨.hbm, 329, rfl⟩
abbrev main_call2_v0 : Ref sig .tc := ⟨.hbm, 330, rfl⟩
abbrev main_call2_v1 : Ref sig .tc := ⟨.hbm, 331, rfl⟩
abbrev main_call2_cst_0 : Ref sig .tc := ⟨.hbm, 332, rfl⟩
abbrev main_call2_v2 : Ref sig .tc := ⟨.hbm, 333, rfl⟩
abbrev main_call2_v3 : Ref sig .tc := ⟨.hbm, 334, rfl⟩
abbrev main_call2_v4 : Ref sig .tc := ⟨.hbm, 335, rfl⟩
abbrev main_call2_v5 : Ref sig .tc := ⟨.hbm, 336, rfl⟩
abbrev main_call2_v6 : Ref sig .tc := ⟨.hbm, 337, rfl⟩
abbrev main_call2_v7 : Ref sig .tc := ⟨.hbm, 338, rfl⟩
abbrev main_call2_cst_1 : Ref sig .tc := ⟨.hbm, 339, rfl⟩
abbrev main_call2_v8 : Ref sig .tc := ⟨.hbm, 340, rfl⟩
abbrev main_call2_cst_2 : Ref sig .tc := ⟨.hbm, 341, rfl⟩
abbrev main_call2_v9 : Ref sig .tc := ⟨.hbm, 342, rfl⟩
abbrev main_call2_v10 : Ref sig .tc := ⟨.hbm, 343, rfl⟩
abbrev main_call2_v11 : Ref sig .tc := ⟨.hbm, 344, rfl⟩
abbrev main_call2_cst_3 : Ref sig .tc := ⟨.hbm, 345, rfl⟩
abbrev main_call2_v12 : Ref sig .tc := ⟨.hbm, 346, rfl⟩
abbrev main_call2_cst_4 : Ref sig .tc := ⟨.hbm, 347, rfl⟩
abbrev main_call2_call0_v0 : Ref sig .tc := ⟨.hbm, 348, rfl⟩
abbrev main_call2_call0_v1 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_v229 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_cst_43 : Ref sig .tc := ⟨.hbm, 357, rfl⟩
abbrev main_v233 : Ref sig .tc := ⟨.hbm, 358, rfl⟩
abbrev main_v234 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_v245 : Ref sig .tc := ⟨.hbm, 370, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  reducesTo_S100000x16_S16_d0 : S100000x16.ReducesTo [0] S16
  h_S_ : 0 < S_.numel
  bcast_S_S16 : S_.BroadcastsInDim S16 (![] : Fin 0 → Fin S16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S100000x16_0_1 : S1x16.BroadcastsInDim S100000x16 (![0, 1] : Fin 2 → Fin S100000x16.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S1x128_S1x128 : S1x128.ShapeCasts S1x128
  reduces_S5000x128_S128 : S5000x128.Reduces [0] S128
  shapeCasts_S1x128_S128 : S1x128.ShapeCasts S128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S100000_S100000x1_0 : S100000.BroadcastsInDim S100000x1 (![0] : Fin 1 → Fin S100000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  reducesTo_S16x128_S128_d0 : S16x128.ReducesTo [0] S128
  bcast_S_S1x128 : S_.BroadcastsInDim S1x128 (![] : Fin 0 → Fin S1x128.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x128_S5000x128_1_0_0_1_n_n_wf : DotDims.WF S5000x16 S16x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S16_S100000x1_S100000_n_0_0_1_wf : ScatterDims.WF S16 S100000x1 S100000 [] [0] [0] 1
  scatter_S16x128_S100000x1_S100000x128_1_0_0_1_wf : ScatterDims.WF S16x128 S100000x1 S100000x128 [1] [0] [0] 1
  dot_S16x128_S128x128_S16x128_1_0_0_1_n_n_wf : DotDims.WF S16x128 S128x128 S16x128 [1] [0] [0] [1] [] []
  dot_S16x128_S128x10_S16x10_1_0_0_1_n_n_wf : DotDims.WF S16x128 S128x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .bf16 = 32 ∨ (Rect.block (s := S16x128) S16x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

abbrev win0_0 : Pipeline.Window sig grid0 :=
  Pipeline.Window.ofSpec (Memref.whole main_v58) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v60_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v98) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v100_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v100_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v100_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v138) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v139) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v140_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v140_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v140_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v178) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v179) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v180_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v180_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v180_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x16 : Shape := ⟨2, ![1, 16]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S16x1 : Shape := ⟨2, ![16, 1]⟩
abbrev S16x10 : Shape := ⟨2, ![16, 10]⟩
abbrev S1x10 : Shape := ⟨2, ![1, 10]⟩

abbrev nBuf : Space → Nat
  | .hbm => 440
  | .vmem => 0
  | .smem => 0
  | _ => 0

abbrev hbmTy0_0 (i : Nat) : BufTy := match i % 128 with
  | 0 => ⟨S100000x16, .f32⟩
  | 1 => ⟨S2x1600000, .i32⟩
  | 2 => ⟨S100000, .i32⟩
  | 3 => ⟨S16x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x10, .f32⟩
  | 14 => ⟨S10, .f32⟩
  | 15 => ⟨S16, .f32⟩
  | 16 => ⟨S16, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S100000, .i32⟩
  | 28 => ⟨S1x1600000, .i32⟩
  | 29 => ⟨S1600000, .i32⟩
  | 30 => ⟨S1700000, .i32⟩
  | 31 => ⟨S1x1600000, .i32⟩
  | 32 => ⟨S1600000, .i32⟩
  | 33 => ⟨S1700000, .i32⟩
  | 34 => ⟨S_, .f32⟩
  | 35 => ⟨S1700000, .f32⟩
  | 36 => ⟨S_, .f32⟩
  | 37 => ⟨S100000, .f32⟩
  | 38 => ⟨S1700000x1, .i32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1700000x1, .f32⟩
  | 61 => ⟨S_, .f32⟩
  | 62 => ⟨S16, .f32⟩
  | 63 => ⟨S_, .f32⟩
  | 64 => ⟨S16, .f32⟩
  | 65 => ⟨S16, .f32⟩
  | 66 => ⟨S_, .i32⟩
  | 67 => ⟨S_, .f32⟩
  | 68 => ⟨S16, .f32⟩
  | 69 => ⟨S1x16, .f32⟩
  | 70 => ⟨S_, .f32⟩
  | 71 => ⟨S1x16, .f32⟩
  | 72 => ⟨S1x16, .f32⟩
  | 73 => ⟨S100000x16, .f32⟩
  | 74 => ⟨S100000x16, .f32⟩
  | 75 => ⟨S100000x16, .f32⟩
  | 76 => ⟨S_, .f32⟩
  | 77 => ⟨S_, .f32⟩
  | 78 => ⟨S_, .f32⟩
  | 79 => ⟨S_, .f32⟩
  | 80 => ⟨S16, .f32⟩
  | 81 => ⟨S16, .f32⟩
  | 82 => ⟨S16, .f32⟩
  | 83 => ⟨S_, .f32⟩
  | 84 => ⟨S_, .i1⟩
  | 85 => ⟨S_, .f32⟩
  | 86 => ⟨S_, .f32⟩
  | 87 => ⟨S16, .f32⟩
  | 88 => ⟨S16, .f32⟩
  | 89 => ⟨S1x16, .f32⟩
  | 90 => ⟨S100000x16, .f32⟩
  | 91 => ⟨S100000x16, .f32⟩
  | 92 => ⟨S1x16, .f32⟩
  | 93 => ⟨S100000x16, .f32⟩
  | 94 => ⟨S100000x16, .f32⟩
  | 95 => ⟨S_, .f32⟩
  | 96 => ⟨S16, .f32⟩
  | 97 => ⟨S16, .f32⟩
  | 98 => ⟨S16, .f32⟩
  | 99 => ⟨S1x16, .f32⟩
  | 100 => ⟨S100000x16, .f32⟩
  | 101 => ⟨S100000x16, .f32⟩
  | 102 => ⟨S1x16, .f32⟩
  | 103 => ⟨S100000x16, .f32⟩
  | 104 => ⟨S100000x16, .f32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x16, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S128, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x128, .f32⟩
  | 54 => ⟨S1700000x128, .f32⟩
  | 55 => ⟨S_, .f32⟩
  | 56 => ⟨S100000x128, .f32⟩
  | 57 => ⟨S1700000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S100000x128, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x16, .f32⟩

abbrev hbmTy0_2 (i : Nat) : BufTy := match i % 128 with
  | 0 => ⟨S_, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000, .f32⟩
  | 115 => ⟨S_, .f32⟩
  | 116 => ⟨S16, .f32⟩
  | 117 => ⟨S100000x1, .i32⟩
  | 118 => ⟨S16, .f32⟩
  | 119 => ⟨S_, .f32⟩
  | 120 => ⟨S16, .f32⟩
  | 121 => ⟨S16, .f32⟩
  | 122 => ⟨S_, .f32⟩
  | 123 => ⟨S16x128, .f32⟩
  | 124 => ⟨S100000x1, .i32⟩
  | 125 => ⟨S16x128, .f32⟩
  | 126 => ⟨S16x1, .f32⟩
  | 127 => ⟨S16x128, .f32⟩
  | _ => ⟨S100000x16, .f32⟩

abbrev hbmTy0_3 (i : Nat) : BufTy := match i % 128 with
  | 0 => ⟨S16x128, .f32⟩
  | 1 => ⟨S16x128, .f32⟩
  | 2 => ⟨S1x128, .f32⟩
  | 3 => ⟨S16x128, .f32⟩
  | 4 => ⟨S16x128, .f32⟩
  | 5 => ⟨S_, .f32⟩
  | 6 => ⟨S16x128, .f32⟩
  | 7 => ⟨S16x128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S16x128, .f32⟩
  | 21 => ⟨S16x128, .f32⟩
  | 22 => ⟨S16x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S16x128, .f32⟩
  | 38 => ⟨S16x128, .f32⟩
  | 39 => ⟨S1x128, .f32⟩
  | 40 => ⟨S16x128, .f32⟩
  | 41 => ⟨S16x128, .f32⟩
  | 42 => ⟨S_, .f32⟩
  | 43 => ⟨S128, .f32⟩
  | 44 => ⟨S128, .f32⟩
  | 45 => ⟨S128, .f32⟩
  | 46 => ⟨S1x128, .f32⟩
  | 47 => ⟨S16x128, .f32⟩
  | 48 => ⟨S16x128, .f32⟩
  | 49 => ⟨S1x128, .f32⟩
  | 50 => ⟨S16x128, .f32⟩
  | 51 => ⟨S16x128, .f32⟩
  | 52 => ⟨S16x10, .f32⟩
  | 53 => ⟨S1x10, .f32⟩
  | 54 => ⟨S16x10, .f32⟩
  | 55 => ⟨S16x10, .f32⟩
  | _ => ⟨S100000x16, .f32⟩

abbrev hbmTy (i : Nat) : BufTy := match i / 128 with
  | 0 => hbmTy0_0 i
  | 1 => hbmTy0_1 i
  | 2 => hbmTy0_2 i
  | 3 => hbmTy0_3 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_c_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_cst_7 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_c_8 : Ref sig .tc := ⟨.hbm, 106, rfl⟩
abbrev main_v48 : Ref sig .tc := ⟨.hbm, 107, rfl⟩
abbrev main_v49 : Ref sig .tc := ⟨.hbm, 108, rfl⟩
abbrev main_c_9 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_cst_10 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_call1_cst : Ref sig .tc := ⟨.hbm, 124, rfl⟩
abbrev main_call1_v0 : Ref sig .tc := ⟨.hbm, 125, rfl⟩
abbrev main_v63 : Ref sig .tc := ⟨.hbm, 126, rfl⟩
abbrev main_cst_11 : Ref sig .tc := ⟨.hbm, 127, rfl⟩
abbrev main_v64 : Ref sig .tc := ⟨.hbm, 128, rfl⟩
abbrev main_cst_12 : Ref sig .tc := ⟨.hbm, 129, rfl⟩
abbrev main_v65 : Ref sig .tc := ⟨.hbm, 130, rfl⟩
abbrev main_v66 : Ref sig .tc := ⟨.hbm, 131, rfl⟩
abbrev main_c_13 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_cst_1 : Ref sig .tc := ⟨.hbm, 143, rfl⟩
abbrev main_call2_v8 : Ref sig .tc := ⟨.hbm, 144, rfl⟩
abbrev main_call2_cst_2 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_cst_3 : Ref sig .tc := ⟨.hbm, 149, rfl⟩
abbrev main_call2_v12 : Ref sig .tc := ⟨.hbm, 150, rfl⟩
abbrev main_call2_cst_4 : Ref sig .tc := ⟨.hbm, 151, rfl⟩
abbrev main_call2_call0_v0 : Ref sig .tc := ⟨.hbm, 152, rfl⟩
abbrev main_call2_call0_v1 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_cst_14 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_c_15 : Ref sig .tc := ⟨.hbm, 172, rfl⟩
abbrev main_v84 : Ref sig .tc := ⟨.hbm, 173, rfl⟩
abbrev main_v85 : Ref sig .tc := ⟨.hbm, 174, rfl⟩
abbrev main_c_16 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_cst_17 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_call3_cst : Ref sig .tc := ⟨.hbm, 190, rfl⟩
abbrev main_call3_v0 : Ref sig .tc := ⟨.hbm, 191, rfl⟩
abbrev main_v99 : Ref sig .tc := ⟨.hbm, 192, rfl⟩
abbrev main_cst_18 : Ref sig .tc := ⟨.hbm, 193, rfl⟩
abbrev main_v100 : Ref sig .tc := ⟨.hbm, 194, rfl⟩
abbrev main_cst_19 : Ref sig .tc := ⟨.hbm, 195, rfl⟩
abbrev main_v101 : Ref sig .tc := ⟨.hbm, 196, rfl⟩
abbrev main_v102 : Ref sig .tc := ⟨.hbm, 197, rfl⟩
abbrev main_c_20 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_cst_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_v7 : Ref sig .tc := ⟨.hbm, 208, rfl⟩
abbrev main_call4_cst_1 : Ref sig .tc := ⟨.hbm, 209, rfl⟩
abbrev main_call4_v8 : Ref sig .tc := ⟨.hbm, 210, rfl⟩
abbrev main_call4_cst_2 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_cst_3 : Ref sig .tc := ⟨.hbm, 215, rfl⟩
abbrev main_call4_v12 : Ref sig .tc := ⟨.hbm, 216, rfl⟩
abbrev main_call4_cst_4 : Ref sig .tc := ⟨.hbm, 217, rfl⟩
abbrev main_call4_call0_v0 : Ref sig .tc := ⟨.hbm, 218, rfl⟩
abbrev main_call4_call0_v1 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_cst_21 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_c_22 : Ref sig .tc := ⟨.hbm, 238, rfl⟩
abbrev main_v120 : Ref sig .tc := ⟨.hbm, 239, rfl⟩
abbrev main_v121 : Ref sig .tc := ⟨.hbm, 240, rfl⟩
abbrev main_c_23 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_cst_24 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_call5_cst : Ref sig .tc := ⟨.hbm, 256, rfl⟩
abbrev main_call5_v0 : Ref sig .tc := ⟨.hbm, 257, rfl⟩
abbrev main_v135 : Ref sig .tc := ⟨.hbm, 258, rfl⟩
abbrev main_cst_25 : Ref sig .tc := ⟨.hbm, 259, rfl⟩
abbrev main_v136 : Ref sig .tc := ⟨.hbm, 260, rfl⟩
abbrev main_cst_26 : Ref sig .tc := ⟨.hbm, 261, rfl⟩
abbrev main_v137 : Ref sig .tc := ⟨.hbm, 262, rfl⟩
abbrev main_v138 : Ref sig .tc := ⟨.hbm, 263, rfl⟩
abbrev main_c_27 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_cst_0 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_cst_1 : Ref sig .tc := ⟨.hbm, 275, rfl⟩
abbrev main_call6_v8 : Ref sig .tc := ⟨.hbm, 276, rfl⟩
abbrev main_call6_cst_2 : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_cst_3 : Ref sig .tc := ⟨.hbm, 281, rfl⟩
abbrev main_call6_v12 : Ref sig .tc := ⟨.hbm, 282, rfl⟩
abbrev main_call6_cst_4 : Ref sig .tc := ⟨.hbm, 283, rfl⟩
abbrev main_call6_call0_v0 : Ref sig .tc := ⟨.hbm, 284, rfl⟩
abbrev main_call6_call0_v1 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_cst_28 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_c_29 : Ref sig .tc := ⟨.hbm, 304, rfl⟩
abbrev main_v156 : Ref sig .tc := ⟨.hbm, 305, rfl⟩
abbrev main_v157 : Ref sig .tc := ⟨.hbm, 306, rfl⟩
abbrev main_c_30 : Ref sig .tc := ⟨.hbm, 307, rfl⟩
abbrev main_v158 : Ref sig .tc := ⟨.hbm, 308, rfl⟩
abbrev main_v159 : Ref sig .tc := ⟨.hbm, 309, rfl⟩
abbrev main_v160 : Ref sig .tc := ⟨.hbm, 310, rfl⟩
abbrev main_v161 : Ref sig .tc := ⟨.hbm, 311, rfl⟩
abbrev main_v162 : Ref sig .tc := ⟨.hbm, 312, rfl⟩
abbrev main_v163 : Ref sig .tc := ⟨.hbm, 313, rfl⟩
abbrev main_v164 : Ref sig .tc := ⟨.hbm, 314, rfl⟩
abbrev main_cst_31 : Ref sig .tc := ⟨.hbm, 315, rfl⟩
abbrev main_v165 : Ref sig .tc := ⟨.hbm, 316, rfl⟩
abbrev main_v166 : Ref sig .tc := ⟨.hbm, 317, rfl⟩
abbrev main_v167 : Ref sig .tc := ⟨.hbm, 318, rfl⟩
abbrev main_v168 : Ref sig .tc := ⟨.hbm, 319, rfl⟩
abbrev main_v169 : Ref sig .tc := ⟨.hbm, 320, rfl⟩
abbrev main_v170 : Ref sig .tc := ⟨.hbm, 321, rfl⟩
abbrev main_call7_cst : Ref sig .tc := ⟨.hbm, 322, rfl⟩
abbrev main_call7_v0 : Ref sig .tc := ⟨.hbm, 323, rfl⟩
abbrev main_v171 : Ref sig .tc := ⟨.hbm, 324, rfl⟩
abbrev main_cst_32 : Ref sig .tc := ⟨.hbm, 325, rfl⟩
abbrev main_v172 : Ref sig .tc := ⟨.hbm, 326, rfl⟩
abbrev main_cst_33 : Ref sig .tc := ⟨.hbm, 327, rfl⟩
abbrev main_v173 : Ref sig .tc := ⟨.hbm, 328, rfl⟩
abbrev main_v174 : Ref sig .tc := ⟨.hbm, 329, rfl⟩
abbrev main_c_34 : Ref sig .tc := ⟨.hbm, 330, rfl⟩
abbrev main_call8_cst : Ref sig .tc := ⟨.hbm, 331, rfl⟩
abbrev main_call8_v0 : Ref sig .tc := ⟨.hbm, 332, rfl⟩
abbrev main_call8_v1 : Ref sig .tc := ⟨.hbm, 333, rfl⟩
abbrev main_call8_cst_0 : Ref sig .tc := ⟨.hbm, 334, rfl⟩
abbrev main_call8_v2 : Ref sig .tc := ⟨.hbm, 335, rfl⟩
abbrev main_call8_v3 : Ref sig .tc := ⟨.hbm, 336, rfl⟩
abbrev main_call8_v4 : Ref sig .tc := ⟨.hbm, 337, rfl⟩
abbrev main_call8_v5 : Ref sig .tc := ⟨.hbm, 338, rfl⟩
abbrev main_call8_v6 : Ref sig .tc := ⟨.hbm, 339, rfl⟩
abbrev main_call8_v7 : Ref sig .tc := ⟨.hbm, 340, rfl⟩
abbrev main_call8_cst_1 : Ref sig .tc := ⟨.hbm, 341, rfl⟩
abbrev main_call8_v8 : Ref sig .tc := ⟨.hbm, 342, rfl⟩
abbrev main_call8_cst_2 : Ref sig .tc := ⟨.hbm, 343, rfl⟩
abbrev main_call8_v9 : Ref sig .tc := ⟨.hbm, 344, rfl⟩
abbrev main_call8_v10 : Ref sig .tc := ⟨.hbm, 345, rfl⟩
abbrev main_call8_v11 : Ref sig .tc := ⟨.hbm, 346, rfl⟩
abbrev main_call8_cst_3 : Ref sig .tc := ⟨.hbm, 347, rfl⟩
abbrev main_call8_v12 : Ref sig .tc := ⟨.hbm, 348, rfl⟩
abbrev main_call8_cst_4 : Ref sig .tc := ⟨.hbm, 349, rfl⟩
abbrev main_call8_call0_v0 : Ref sig .tc := ⟨.hbm, 350, rfl⟩
abbrev main_call8_call0_v1 : Ref sig .tc := ⟨.hbm, 351, rfl⟩
abbrev main_v175 : Ref sig .tc := ⟨.hbm, 352, rfl⟩
abbrev main_v176 : Ref sig .tc := ⟨.hbm, 353, rfl⟩
abbrev main_v177 : Ref sig .tc := ⟨.hbm, 354, rfl⟩
abbrev main_v178 : Ref sig .tc := ⟨.hbm, 355, rfl⟩
abbrev main_v179 : Ref sig .tc := ⟨.hbm, 356, rfl⟩
abbrev main_v180 : Ref sig .tc := ⟨.hbm, 357, rfl⟩
abbrev main_v181 : Ref sig .tc := ⟨.hbm, 358, rfl⟩
abbrev main_cst_35 : Ref sig .tc := ⟨.hbm, 359, rfl⟩
abbrev main_v182 : Ref sig .tc := ⟨.hbm, 360, rfl⟩
abbrev main_v183 : Ref sig .tc := ⟨.hbm, 361, rfl⟩
abbrev main_v184 : Ref sig .tc := ⟨.hbm, 362, rfl⟩
abbrev main_v185 : Ref sig .tc := ⟨.hbm, 363, rfl⟩
abbrev main_v186 : Ref sig .tc := ⟨.hbm, 364, rfl⟩
abbrev main_v187 : Ref sig .tc := ⟨.hbm, 365, rfl⟩
abbrev main_v188 : Ref sig .tc := ⟨.hbm, 366, rfl⟩
abbrev main_v189 : Ref sig .tc := ⟨.hbm, 367, rfl⟩
abbrev main_v190 : Ref sig .tc := ⟨.hbm, 368, rfl⟩
abbrev main_cst_36 : Ref sig .tc := ⟨.hbm, 369, rfl⟩
abbrev main_v191 : Ref sig .tc := ⟨.hbm, 370, rfl⟩
abbrev main_cst_37 : Ref sig .tc := ⟨.hbm, 371, rfl⟩
abbrev main_v192 : Ref sig .tc := ⟨.hbm, 372, rfl⟩
abbrev main_v193 : Ref sig .tc := ⟨.hbm, 373, rfl⟩
abbrev main_v194 : Ref sig .tc := ⟨.hbm, 374, rfl⟩
abbrev main_cst_38 : Ref sig .tc := ⟨.hbm, 375, rfl⟩
abbrev main_v195 : Ref sig .tc := ⟨.hbm, 376, rfl⟩
abbrev main_v196 : Ref sig .tc := ⟨.hbm, 377, rfl⟩
abbrev main_cst_39 : Ref sig .tc := ⟨.hbm, 378, rfl⟩
abbrev main_v197 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_v205 : Ref sig .tc := ⟨.hbm, 387, rfl⟩
abbrev main_v206 : Ref sig .tc := ⟨.hbm, 388, rfl⟩
abbrev main_call9_cst : Ref sig .tc := ⟨.hbm, 389, rfl⟩
abbrev main_call9_v0 : Ref sig .tc := ⟨.hbm, 390, rfl⟩
abbrev main_v207 : Ref sig .tc := ⟨.hbm, 391, rfl⟩
abbrev main_cst_40 : Ref sig .tc := ⟨.hbm, 392, rfl⟩
abbrev main_v208 : Ref sig .tc := ⟨.hbm, 393, rfl⟩
abbrev main_cst_41 : Ref sig .tc := ⟨.hbm, 394, rfl⟩
abbrev main_v209 : Ref sig .tc := ⟨.hbm, 395, rfl⟩
abbrev main_v210 : Ref sig .tc := ⟨.hbm, 396, rfl⟩
abbrev main_c_42 : Ref sig .tc := ⟨.hbm, 397, rfl⟩
abbrev main_call10_cst : Ref sig .tc := ⟨.hbm, 398, rfl⟩
abbrev main_call10_v0 : Ref sig .tc := ⟨.hbm, 399, rfl⟩
abbrev main_call10_v1 : Ref sig .tc := ⟨.hbm, 400, rfl⟩
abbrev main_call10_cst_0 : Ref sig .tc := ⟨.hbm, 401, rfl⟩
abbrev main_call10_v2 : Ref sig .tc := ⟨.hbm, 402, rfl⟩
abbrev main_call10_v3 : Ref sig .tc := ⟨.hbm, 403, rfl⟩
abbrev main_call10_v4 : Ref sig .tc := ⟨.hbm, 404, rfl⟩
abbrev main_call10_v5 : Ref sig .tc := ⟨.hbm, 405, rfl⟩
abbrev main_call10_v6 : Ref sig .tc := ⟨.hbm, 406, rfl⟩
abbrev main_call10_v7 : Ref sig .tc := ⟨.hbm, 407, rfl⟩
abbrev main_call10_cst_1 : Ref sig .tc := ⟨.hbm, 408, rfl⟩
abbrev main_call10_v8 : Ref sig .tc := ⟨.hbm, 409, rfl⟩
abbrev main_call10_cst_2 : Ref sig .tc := ⟨.hbm, 410, rfl⟩
abbrev main_call10_v9 : Ref sig .tc := ⟨.hbm, 411, rfl⟩
abbrev main_call10_v10 : Ref sig .tc := ⟨.hbm, 412, rfl⟩
abbrev main_call10_v11 : Ref sig .tc := ⟨.hbm, 413, rfl⟩
abbrev main_call10_cst_3 : Ref sig .tc := ⟨.hbm, 414, rfl⟩
abbrev main_call10_v12 : Ref sig .tc := ⟨.hbm, 415, rfl⟩
abbrev main_call10_cst_4 : Ref sig .tc := ⟨.hbm, 416, rfl⟩
abbrev main_call10_call0_v0 : Ref sig .tc := ⟨.hbm, 417, rfl⟩
abbrev main_call10_call0_v1 : Ref sig .tc := ⟨.hbm, 418, rfl⟩
abbrev main_v211 : Ref sig .tc := ⟨.hbm, 419, rfl⟩
abbrev main_v212 : Ref sig .tc := ⟨.hbm, 420, rfl⟩
abbrev main_v213 : Ref sig .tc := ⟨.hbm, 421, rfl⟩
abbrev main_v214 : Ref sig .tc := ⟨.hbm, 422, rfl⟩
abbrev main_v215 : Ref sig .tc := ⟨.hbm, 423, rfl⟩
abbrev main_v216 : Ref sig .tc := ⟨.hbm, 424, rfl⟩
abbrev main_v217 : Ref sig .tc := ⟨.hbm, 425, rfl⟩
abbrev main_cst_43 : Ref sig .tc := ⟨.hbm, 426, rfl⟩
abbrev main_v218 : Ref sig .tc := ⟨.hbm, 427, rfl⟩
abbrev main_v219 : Ref sig .tc := ⟨.hbm, 428, rfl⟩
abbrev main_v220 : Ref sig .tc := ⟨.hbm, 429, rfl⟩
abbrev main_v221 : Ref sig .tc := ⟨.hbm, 430, rfl⟩
abbrev main_v222 : Ref sig .tc := ⟨.hbm, 431, rfl⟩
abbrev main_v223 : Ref sig .tc := ⟨.hbm, 432, rfl⟩
abbrev main_v224 : Ref sig .tc := ⟨.hbm, 433, rfl⟩
abbrev main_v225 : Ref sig .tc := ⟨.hbm, 434, rfl⟩
abbrev main_v226 : Ref sig .tc := ⟨.hbm, 435, rfl⟩
abbrev main_v227 : Ref sig .tc := ⟨.hbm, 436, rfl⟩
abbrev main_v228 : Ref sig .tc := ⟨.hbm, 437, rfl⟩
abbrev main_v229 : Ref sig .tc := ⟨.hbm, 438, rfl⟩
abbrev main_v230 : Ref sig .tc := ⟨.hbm, 439, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  reducesTo_S100000x16_S16_d0 : S100000x16.ReducesTo [0] S16
  h_S_ : 0 < S_.numel
  bcast_S_S16 : S_.BroadcastsInDim S16 (![] : Fin 0 → Fin S16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S100000x16_0_1 : S1x16.BroadcastsInDim S100000x16 (![0, 1] : Fin 2 → Fin S100000x16.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S100000_S100000x1_0 : S100000.BroadcastsInDim S100000x1 (![0] : Fin 1 → Fin S100000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  reducesTo_S16x128_S128_d0 : S16x128.ReducesTo [0] S128
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x128_S100000x128_1_0_0_1_n_n_wf : DotDims.WF S100000x16 S16x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S16_S100000x1_S100000_n_0_0_1_wf : ScatterDims.WF S16 S100000x1 S100000 [] [0] [0] 1
  scatter_S16x128_S100000x1_S100000x128_1_0_0_1_wf : ScatterDims.WF S16x128 S100000x1 S100000x128 [1] [0] [0] 1
  dot_S16x128_S128x128_S16x128_1_0_0_1_n_n_wf : DotDims.WF S16x128 S128x128 S16x128 [1] [0] [0] [1] [] []
  dot_S16x128_S128x10_S16x10_1_0_0_1_n_n_wf : DotDims.WF S16x128 S128x10 S16x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

class Facts : Prop extends Facts₀ where

variable [Facts]
-- ==== Proof.SpecK.lean ====
/- The host stretches of the kernel program as functions of the arrays they read: each definition lists a range of the
   printed operations, one `have` per operation in the printed order. -/
import proofs.«402048_j34643206209888_3_alg».proof.Proof.Gen.KernelIdeal

noncomputable section

namespace Cert.SpecK

open Idealize.ShloMosaic Cert.KernelIdeal Cert.KernelIdeal.Gen

variable {F : FTy → Type} [FloatOps F]

/-- The source word of every edge: row 0 of the edge list, then one self loop per node. -/
noncomputable def srcWords (main_arg1 : (⟨S2x1600000, .i32⟩ : BufTy).Contents (Elt F)) :
    (⟨S1700000, .i32⟩ : BufTy).Contents (Elt F) :=
  have main_v0 : (⟨S100000, .i32⟩ : BufTy).Contents (Elt F) := (iotaInDim S100000 32 0)
  have main_v1 : (⟨S1x1600000, .i32⟩ : BufTy).Contents (Elt F) := ((extractStridedSlice S1x1600000 ![0, 0] · slices_S2x1600000_S1x1600000_0_0) : (⟨S2x1600000, .i32⟩ : BufTy).Contents (Elt F) → (⟨S1x1600000, .i32⟩ : BufTy).Contents (Elt F)) main_arg1
  have main_v2 : (⟨S1600000, .i32⟩ : BufTy).Contents (Elt F) := fun i => shapeCast S1600000 main_v1 shapeCasts_S1x1600000_S1600000 i
  have main_v3 : (⟨S1700000, .i32⟩ : BufTy).Contents (Elt F) := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) main_v2 main_v0
  main_v3

/-- The destination word of every edge: row 1 of the edge list, then one self loop per node. -/
noncomputable def dstWords (main_arg1 : (⟨S2x1600000, .i32⟩ : BufTy).Contents (Elt F)) :
    (⟨S1700000, .i32⟩ : BufTy).Contents (Elt F) :=
  have main_v0 : (⟨S100000, .i32⟩ : BufTy).Contents (Elt F) := (iotaInDim S100000 32 0)
  have main_v4 : (⟨S1x1600000, .i32⟩ : BufTy).Contents (Elt F) := ((extractStridedSlice S1x1600000 ![1, 0] · slices_S2x1600000_S1x1600000_1_0) : (⟨S2x1600000, .i32⟩ : BufTy).Contents (Elt F) → (⟨S1x1600000, .i32⟩ : BufTy).Contents (Elt F)) main_arg1
  have main_v5 : (⟨S1600000, .i32⟩ : BufTy).Contents (Elt F) := fun i => shapeCast S1600000 main_v4 shapeCasts_S1x1600000_S1600000 i
  have main_v6 : (⟨S1700000, .i32⟩ : BufTy).Contents (Elt F) := ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) main_v5 main_v0
  main_v6

/-- The symmetric normalisation of every edge: the in-degrees by an accumulating scatter of ones, their inverse square roots, and the product of the two gathered at the edge's ends. -/
noncomputable def edgeNorm (main_v6 : (⟨S1700000, .i32⟩ : BufTy).Contents (Elt F)) (main_v3 : (⟨S1700000, .i32⟩ : BufTy).Contents (Elt F)) :
    (⟨S1700000, .f32⟩ : BufTy).Contents (Elt F) :=
  have main_cst : (⟨S_, .f32⟩ : BufTy).Contents (Elt F) := (constant S_ .f32 0x3F800000#32)
  have main_v7 : (⟨S1700000, .f32⟩ : BufTy).Contents (Elt F) := (broadcastInDim S1700000 ![] bcast_S_S1700000 : (⟨S_, .f32⟩ : BufTy).Contents (Elt F) → (⟨S1700000, .f32⟩ : BufTy).Contents (Elt F)) main_cst
  have main_cst_0 : (⟨S_, .f32⟩ : BufTy).Contents (Elt F) := (constant S_ .f32 0x00000000#32)
  have main_v8 : (⟨S100000, .f32⟩ : BufTy).Contents (Elt F) := (broadcastInDim S100000 ![] bcast_S_S100000 : (⟨S_, .f32⟩ : BufTy).Contents (Elt F) → (⟨S100000, .f32⟩ : BufTy).Contents (Elt F)) main_cst_0
  have main_v9 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v6
  have main_v10 : (⟨S100000, .f32⟩ : BufTy).Contents (Elt F) := ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) main_v8 main_v9 main_v7
  have main_v11 : (⟨S100000, .f32⟩ : BufTy).Contents (Elt F) := (Host.rsqrt : (⟨S100000, .f32⟩ : BufTy).Contents (Elt F) → (⟨S100000, .f32⟩ : BufTy).Contents (Elt F)) main_v10
  have main_c : (⟨S_, .i32⟩ : BufTy).Contents (Elt F) := (constantI S_ 32 0#32)
  have main_v12 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c
  have main_v13 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v3 main_v12
  have main_c_1 : (⟨S_, .i32⟩ : BufTy).Contents (Elt F) := (constantI S_ 32 100000#32)
  have main_v14 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_1
  have main_v15 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v3 main_v14
  have main_v16 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v13 main_v15 main_v3
  have main_v17 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v16
  have main_v18 : (⟨S1700000, .f32⟩ : BufTy).Contents (Elt F) := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) main_v11 main_v17
  have main_c_2 : (⟨S_, .i32⟩ : BufTy).Contents (Elt F) := (constantI S_ 32 0#32)
  have main_v19 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_2
  have main_v20 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v6 main_v19
  have main_c_3 : (⟨S_, .i32⟩ : BufTy).Contents (Elt F) := (constantI S_ 32 100000#32)
  have main_v21 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_3
  have main_v22 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v6 main_v21
  have main_v23 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v20 main_v22 main_v6
  have main_v24 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v23
  have main_v25 : (⟨S1700000, .f32⟩ : BufTy).Contents (Elt F) := ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) main_v11 main_v24
  have main_v26 : (⟨S1700000, .f32⟩ : BufTy).Contents (Elt F) := (mulf : (⟨S1700000, .f32⟩ : BufTy).Contents (Elt F) → (⟨S1700000, .f32⟩ : BufTy).Contents (Elt F) → (⟨S1700000, .f32⟩ : BufTy).Contents (Elt F)) main_v18 main_v25
  main_v26

/-- Batch normalisation of the input features over the nodes: mean, biased variance, scale and shift. -/
noncomputable def inputNorm (main_arg0 : (⟨S100000x16, .f32⟩ : BufTy).Contents (Elt F)) (main_arg15 : (⟨S16, .f32⟩ : BufTy).Contents (Elt F)) (main_arg16 : (⟨S16, .f32⟩ : BufTy).Contents (Elt F)) :
    (⟨S100000x16, .f32⟩ : BufTy).Contents (Elt F) :=
  have main_cst_4 : (⟨S_, .f32⟩ : BufTy).Contents (Elt F) := (constant S_ .f32 0x00000000#32)
  have main_v27 : (⟨S16, .f32⟩ : BufTy).Contents (Elt F) := ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)) main_arg0 main_cst_4
  have main_cst_5 : (⟨S_, .f32⟩ : BufTy).Contents (Elt F) := (constant S_ .f32 0x47C35000#32)
  have main_v28 : (⟨S16, .f32⟩ : BufTy).Contents (Elt F) := (broadcastInDim S16 ![] bcast_S_S16 : (⟨S_, .f32⟩ : BufTy).Contents (Elt F) → (⟨S16, .f32⟩ : BufTy).Contents (Elt F)) main_cst_5
  have main_v29 : (⟨S16, .f32⟩ : BufTy).Contents (Elt F) := (Host.divf : (⟨S16, .f32⟩ : BufTy).Contents (Elt F) → (⟨S16, .f32⟩ : BufTy).Contents (Elt F) → (⟨S16, .f32⟩ : BufTy).Contents (Elt F)) main_v27 main_v28
  have main_c_6 : (⟨S_, .i32⟩ : BufTy).Contents (Elt F) := (constantI S_ 32 0#32)
  have main_call0_cst : (⟨S_, .f32⟩ : BufTy).Contents (Elt F) := (constant S_ .f32 0x00000000#32)
  have main_call0_v0 : (⟨S16, .f32⟩ : BufTy).Contents (Elt F) := (fun x v => Host.reduceAdd x v reducesTo_S100000x16_S16_d0 h_S_) main_arg0 main_call0_cst
  have main_call0_v1 : (⟨S1x16, .f32⟩ : BufTy).Contents (Elt F) := (broadcastInDim S1x16 ![1] bcast_S16_S1x16_1) main_call0_v0
  have main_call0_cst_0 : (⟨S_, .f32⟩ : BufTy).Contents (Elt F) := (constant S_ .f32 0x47C35000#32)
  have main_call0_v2 : (⟨S1x16, .f32⟩ : BufTy).Contents (Elt F) := (broadcastInDim S1x16 ![] bcast_S_S1x16) main_call0_cst_0
  have main_call0_v3 : (⟨S1x16, .f32⟩ : BufTy).Contents (Elt F) := Host.divf main_call0_v1 main_call0_v2
  have main_call0_v4 : (⟨S100000x16, .f32⟩ : BufTy).Contents (Elt F) := (broadcastInDim S100000x16 ![0, 1] bcast_S1x16_S100000x16_0_1) main_call0_v3
  have main_call0_v5 : (⟨S100000x16, .f32⟩ : BufTy).Contents (Elt F) := subf main_arg0 main_call0_v4
  have main_call0_v6 : (⟨S100000x16, .f32⟩ : BufTy).Contents (Elt F) := mulf main_call0_v5 main_call0_v5
  have main_call0_v7 : (⟨S_, .f32⟩ : BufTy).Contents (Elt F) := (sitofp .f32) main_c_6
  have main_call0_cst_1 : (⟨S_, .f32⟩ : BufTy).Contents (Elt F) := (constant S_ .f32 0x47C35000#32)
  have main_call0_v8 : (⟨S_, .f32⟩ : BufTy).Contents (Elt F) := subf main_call0_cst_1 main_call0_v7
  have main_call0_cst_2 : (⟨S_, .f32⟩ : BufTy).Contents (Elt F) := (constant S_ .f32 0x00000000#32)
  have main_call0_v9 : (⟨S16, .f32⟩ : BufTy).Contents (Elt F) := (fun x v => Host.reduceAdd x v reducesTo_S100000x16_S16_d0 h_S_) main_call0_v6 main_call0_cst_2
  have main_call0_v10 : (⟨S16, .f32⟩ : BufTy).Contents (Elt F) := (broadcastInDim S16 ![] bcast_S_S16) main_call0_v8
  have main_call0_v11 : (⟨S16, .f32⟩ : BufTy).Contents (Elt F) := Host.divf main_call0_v9 main_call0_v10
  have main_call0_cst_3 : (⟨S_, .f32⟩ : BufTy).Contents (Elt F) := (constant S_ .f32 0x00000000#32)
  have main_call0_v12 : (⟨S_, .i1⟩ : BufTy).Contents (Elt F) := (cmpf .ogt) main_call0_v8 main_call0_cst_3
  have main_call0_cst_4 : (⟨S_, .f32⟩ : BufTy).Contents (Elt F) := (constant S_ .f32 0x7FC00000#32)
  have main_call0_call0_v0 : (⟨S_, .f32⟩ : BufTy).Contents (Elt F) := id main_call0_cst_4
  have main_call0_call0_v1 : (⟨S16, .f32⟩ : BufTy).Contents (Elt F) := (broadcastInDim S16 ![] bcast_S_S16) main_call0_call0_v0
  have main_v30 : (⟨S16, .f32⟩ : BufTy).Contents (Elt F) := (fun p a b => select (broadcastInDim S16 ![] bcast_S_S16 p) a b) main_call0_v12 main_call0_v11 main_call0_call0_v1
  have main_v31 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_v29
  have main_v32 : (⟨S100000x16, .f32⟩ : BufTy).Contents (Elt F) := (broadcastInDim S100000x16 ![0, 1] bcast_S1x16_S100000x16_0_1 : (⟨S1x16, .f32⟩ : BufTy).Contents (Elt F) → (⟨S100000x16, .f32⟩ : BufTy).Contents (Elt F)) main_v31
  have main_v33 : (⟨S100000x16, .f32⟩ : BufTy).Contents (Elt F) := (subf : (⟨S100000x16, .f32⟩ : BufTy).Contents (Elt F) → (⟨S100000x16, .f32⟩ : BufTy).Contents (Elt F) → (⟨S100000x16, .f32⟩ : BufTy).Contents (Elt F)) main_arg0 main_v32
  have main_v34 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg15
  have main_v35 : (⟨S100000x16, .f32⟩ : BufTy).Contents (Elt F) := (broadcastInDim S100000x16 ![0, 1] bcast_S1x16_S100000x16_0_1 : (⟨S1x16, .f32⟩ : BufTy).Contents (Elt F) → (⟨S100000x16, .f32⟩ : BufTy).Contents (Elt F)) main_v34
  have main_v36 : (⟨S100000x16, .f32⟩ : BufTy).Contents (Elt F) := (mulf : (⟨S100000x16, .f32⟩ : BufTy).Contents (Elt F) → (⟨S100000x16, .f32⟩ : BufTy).Contents (Elt F) → (⟨S100000x16, .f32⟩ : BufTy).Contents (Elt F)) main_v35 main_v33
  have main_cst_7 : (⟨S_, .f32⟩ : BufTy).Contents (Elt F) := (constant S_ .f32 0x3727C5AC#32)
  have main_v37 : (⟨S16, .f32⟩ : BufTy).Contents (Elt F) := (broadcastInDim S16 ![] bcast_S_S16 : (⟨S_, .f32⟩ : BufTy).Contents (Elt F) → (⟨S16, .f32⟩ : BufTy).Contents (Elt F)) main_cst_7
  have main_v38 : (⟨S16, .f32⟩ : BufTy).Contents (Elt F) := (addf : (⟨S16, .f32⟩ : BufTy).Contents (Elt F) → (⟨S16, .f32⟩ : BufTy).Contents (Elt F) → (⟨S16, .f32⟩ : BufTy).Contents (Elt F)) main_v30 main_v37
  have main_v39 : (⟨S16, .f32⟩ : BufTy).Contents (Elt F) := (Host.rsqrt : (⟨S16, .f32⟩ : BufTy).Contents (Elt F) → (⟨S16, .f32⟩ : BufTy).Contents (Elt F)) main_v38
  have main_v40 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_v39
  have main_v41 : (⟨S100000x16, .f32⟩ : BufTy).Contents (Elt F) := (broadcastInDim S100000x16 ![0, 1] bcast_S1x16_S100000x16_0_1 : (⟨S1x16, .f32⟩ : BufTy).Contents (Elt F) → (⟨S100000x16, .f32⟩ : BufTy).Contents (Elt F)) main_v40
  have main_v42 : (⟨S100000x16, .f32⟩ : BufTy).Contents (Elt F) := (mulf : (⟨S100000x16, .f32⟩ : BufTy).Contents (Elt F) → (⟨S100000x16, .f32⟩ : BufTy).Contents (Elt F) → (⟨S100000x16, .f32⟩ : BufTy).Contents (Elt F)) main_v36 main_v41
  have main_v43 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg16
  have main_v44 : (⟨S100000x16, .f32⟩ : BufTy).Contents (Elt F) := (broadcastInDim S100000x16 ![0, 1] bcast_S1x16_S100000x16_0_1 : (⟨S1x16, .f32⟩ : BufTy).Contents (Elt F) → (⟨S100000x16, .f32⟩ : BufTy).Contents (Elt F)) main_v43
  have main_v45 : (⟨S100000x16, .f32⟩ : BufTy).Contents (Elt F) := (addf : (⟨S100000x16, .f32⟩ : BufTy).Contents (Elt F) → (⟨S100000x16, .f32⟩ : BufTy).Contents (Elt F) → (⟨S100000x16, .f32⟩ : BufTy).Contents (Elt F)) main_v42 main_v44
  main_v45

/-- An edge end's word as a row index, one per row of a column: a negative word is wrapped by the number of rows. -/
noncomputable def wrapCol (main_v3 : (⟨S1700000, .i32⟩ : BufTy).Contents (Elt F)) :
    (⟨S1700000x1, .i32⟩ : BufTy).Contents (Elt F) :=
  have main_c_8 : (⟨S_, .i32⟩ : BufTy).Contents (Elt F) := (constantI S_ 32 0#32)
  have main_v46 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_8
  have main_v47 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v3 main_v46
  have main_c_9 : (⟨S_, .i32⟩ : BufTy).Contents (Elt F) := (constantI S_ 32 100000#32)
  have main_v48 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_9
  have main_v49 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v3 main_v48
  have main_v50 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v47 main_v49 main_v3
  have main_v51 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v50
  main_v51

/-- Neighbourhood aggregation of 16 features: gather the source rows, weight them, add them into the destination rows. -/
noncomputable def aggregate16 (main_v3 : (⟨S1700000, .i32⟩ : BufTy).Contents (Elt F)) (main_v45 : (⟨S100000x16, .f32⟩ : BufTy).Contents (Elt F)) (main_v26 : (⟨S1700000, .f32⟩ : BufTy).Contents (Elt F)) (main_v6 : (⟨S1700000, .i32⟩ : BufTy).Contents (Elt F)) :
    (⟨S100000x16, .f32⟩ : BufTy).Contents (Elt F) :=
  have main_c_8 : (⟨S_, .i32⟩ : BufTy).Contents (Elt F) := (constantI S_ 32 0#32)
  have main_v46 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_8
  have main_v47 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v3 main_v46
  have main_c_9 : (⟨S_, .i32⟩ : BufTy).Contents (Elt F) := (constantI S_ 32 100000#32)
  have main_v48 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_9
  have main_v49 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v3 main_v48
  have main_v50 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v47 main_v49 main_v3
  have main_v51 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v50
  have main_v52 : (⟨S1700000x16, .f32⟩ : BufTy).Contents (Elt F) := ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)) main_v45 main_v51
  have main_v53 : (⟨S1700000x1, .f32⟩ : BufTy).Contents (Elt F) := (broadcastInDim S1700000x1 ![0] bcast_S1700000_S1700000x1_0 : (⟨S1700000, .f32⟩ : BufTy).Contents (Elt F) → (⟨S1700000x1, .f32⟩ : BufTy).Contents (Elt F)) main_v26
  have main_v54 : (⟨S1700000x16, .f32⟩ : BufTy).Contents (Elt F) := (broadcastInDim S1700000x16 ![0, 1] bcast_S1700000x1_S1700000x16_0_1 : (⟨S1700000x1, .f32⟩ : BufTy).Contents (Elt F) → (⟨S1700000x16, .f32⟩ : BufTy).Contents (Elt F)) main_v53
  have main_v55 : (⟨S1700000x16, .f32⟩ : BufTy).Contents (Elt F) := (mulf : (⟨S1700000x16, .f32⟩ : BufTy).Contents (Elt F) → (⟨S1700000x16, .f32⟩ : BufTy).Contents (Elt F) → (⟨S1700000x16, .f32⟩ : BufTy).Contents (Elt F)) main_v52 main_v54
  have main_cst_10 : (⟨S_, .f32⟩ : BufTy).Contents (Elt F) := (constant S_ .f32 0x00000000#32)
  have main_v56 : (⟨S100000x16, .f32⟩ : BufTy).Contents (Elt F) := (broadcastInDim S100000x16 ![] bcast_S_S100000x16 : (⟨S_, .f32⟩ : BufTy).Contents (Elt F) → (⟨S100000x16, .f32⟩ : BufTy).Contents (Elt F)) main_cst_10
  have main_v57 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v6
  have main_v58 : (⟨S100000x16, .f32⟩ : BufTy).Contents (Elt F) := ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) main_v56 main_v57 main_v55
  main_v58

/-- The first layer's weights as handed to the matrix unit. -/
noncomputable def castW16 (main_arg3 : (⟨S16x128, .f32⟩ : BufTy).Contents (Elt F)) :
    (⟨S16x128, .bf16⟩ : BufTy).Contents (Elt F) :=
  have main_v59 : (⟨S16x128, .bf16⟩ : BufTy).Contents (Elt F) := ((truncf .bf16 · bitsLt_bf16_f32) : (⟨S16x128, .f32⟩ : BufTy).Contents (Elt F) → (⟨S16x128, .bf16⟩ : BufTy).Contents (Elt F)) main_arg3
  main_v59

/-- Batch normalisation of a layer's output from its column sums and column sums of squares: mean, variance as mean of squares minus squared mean cut below at zero, scale and shift. -/
noncomputable def normFromSums (main_v60_1 : (⟨S1x128, .f32⟩ : BufTy).Contents (Elt F)) (main_v60_2 : (⟨S1x128, .f32⟩ : BufTy).Contents (Elt F)) (main_v60_0 : (⟨S100000x128, .f32⟩ : BufTy).Contents (Elt F)) (main_arg17 : (⟨S128, .f32⟩ : BufTy).Contents (Elt F)) (main_arg18 : (⟨S128, .f32⟩ : BufTy).Contents (Elt F)) :
    (⟨S100000x128, .f32⟩ : BufTy).Contents (Elt F) :=
  have main_v61 : (⟨S128, .f32⟩ : BufTy).Contents (Elt F) := fun i => shapeCast S128 main_v60_1 shapeCasts_S1x128_S128 i
  have main_cst_11 : (⟨S_, .f32⟩ : BufTy).Contents (Elt F) := (constant S_ .f32 0x47C35000#32)
  have main_v62 : (⟨S128, .f32⟩ : BufTy).Contents (Elt F) := (broadcastInDim S128 ![] bcast_S_S128 : (⟨S_, .f32⟩ : BufTy).Contents (Elt F) → (⟨S128, .f32⟩ : BufTy).Contents (Elt F)) main_cst_11
  have main_v63 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) main_v61 main_v62
  have main_v64 : (⟨S128, .f32⟩ : BufTy).Contents (Elt F) := fun i => shapeCast S128 main_v60_2 shapeCasts_S1x128_S128 i
  have main_cst_12 : (⟨S_, .f32⟩ : BufTy).Contents (Elt F) := (constant S_ .f32 0x47C35000#32)
  have main_v65 : (⟨S128, .f32⟩ : BufTy).Contents (Elt F) := (broadcastInDim S128 ![] bcast_S_S128 : (⟨S_, .f32⟩ : BufTy).Contents (Elt F) → (⟨S128, .f32⟩ : BufTy).Contents (Elt F)) main_cst_12
  have main_v66 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) main_v64 main_v65
  have main_v67 : (⟨S128, .f32⟩ : BufTy).Contents (Elt F) := (mulf : (⟨S128, .f32⟩ : BufTy).Contents (Elt F) → (⟨S128, .f32⟩ : BufTy).Contents (Elt F) → (⟨S128, .f32⟩ : BufTy).Contents (Elt F)) main_v63 main_v63
  have main_v68 : (⟨S128, .f32⟩ : BufTy).Contents (Elt F) := (subf : (⟨S128, .f32⟩ : BufTy).Contents (Elt F) → (⟨S128, .f32⟩ : BufTy).Contents (Elt F) → (⟨S128, .f32⟩ : BufTy).Contents (Elt F)) main_v66 main_v67
  have main_cst_13 : (⟨S_, .f32⟩ : BufTy).Contents (Elt F) := (constant S_ .f32 0x00000000#32)
  have main_v69 : (⟨S128, .f32⟩ : BufTy).Contents (Elt F) := (broadcastInDim S128 ![] bcast_S_S128 : (⟨S_, .f32⟩ : BufTy).Contents (Elt F) → (⟨S128, .f32⟩ : BufTy).Contents (Elt F)) main_cst_13
  have main_v70 : (⟨S128, .f32⟩ : BufTy).Contents (Elt F) := (maximumf : (⟨S128, .f32⟩ : BufTy).Contents (Elt F) → (⟨S128, .f32⟩ : BufTy).Contents (Elt F) → (⟨S128, .f32⟩ : BufTy).Contents (Elt F)) main_v68 main_v69
  have main_v71 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v63
  have main_v72 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v71
  have main_v73 : (⟨S100000x128, .f32⟩ : BufTy).Contents (Elt F) := (subf : (⟨S100000x128, .f32⟩ : BufTy).Contents (Elt F) → (⟨S100000x128, .f32⟩ : BufTy).Contents (Elt F) → (⟨S100000x128, .f32⟩ : BufTy).Contents (Elt F)) main_v60_0 main_v72
  have main_v74 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg17
  have main_v75 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v74
  have main_v76 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) main_v75 main_v73
  have main_cst_14 : (⟨S_, .f32⟩ : BufTy).Contents (Elt F) := (constant S_ .f32 0x3727C5AC#32)
  have main_v77 : (⟨S128, .f32⟩ : BufTy).Contents (Elt F) := (broadcastInDim S128 ![] bcast_S_S128 : (⟨S_, .f32⟩ : BufTy).Contents (Elt F) → (⟨S128, .f32⟩ : BufTy).Contents (Elt F)) main_cst_14
  have main_v78 : (⟨S128, .f32⟩ : BufTy).Contents (Elt F) := (addf : (⟨S128, .f32⟩ : BufTy).Contents (Elt F) → (⟨S128, .f32⟩ : BufTy).Contents (Elt F) → (⟨S128, .f32⟩ : BufTy).Contents (Elt F)) main_v70 main_v77
  have main_v79 : (⟨S128, .f32⟩ : BufTy).Contents (Elt F) := (Host.rsqrt : (⟨S128, .f32⟩ : BufTy).Contents (Elt F) → (⟨S128, .f32⟩ : BufTy).Contents (Elt F)) main_v78
  have main_v80 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v79
  have main_v81 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v80
  have main_v82 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) main_v76 main_v81
  have main_v83 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg18
  have main_v84 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v83
  have main_v85 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) main_v82 main_v84
  main_v85

/-- Neighbourhood aggregation of 128 features. -/
noncomputable def aggregate128 (main_v3 : (⟨S1700000, .i32⟩ : BufTy).Contents (Elt F)) (main_v85 : (⟨S100000x128, .f32⟩ : BufTy).Contents (Elt F)) (main_v26 : (⟨S1700000, .f32⟩ : BufTy).Contents (Elt F)) (main_v6 : (⟨S1700000, .i32⟩ : BufTy).Contents (Elt F)) :
    (⟨S100000x128, .f32⟩ : BufTy).Contents (Elt F) :=
  have main_c_15 : (⟨S_, .i32⟩ : BufTy).Contents (Elt F) := (constantI S_ 32 0#32)
  have main_v86 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_15
  have main_v87 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v3 main_v86
  have main_c_16 : (⟨S_, .i32⟩ : BufTy).Contents (Elt F) := (constantI S_ 32 100000#32)
  have main_v88 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_16
  have main_v89 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v3 main_v88
  have main_v90 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v87 main_v89 main_v3
  have main_v91 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v90
  have main_v92 : (⟨S1700000x128, .f32⟩ : BufTy).Contents (Elt F) := ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) main_v85 main_v91
  have main_v93 : (⟨S1700000x1, .f32⟩ : BufTy).Contents (Elt F) := (broadcastInDim S1700000x1 ![0] bcast_S1700000_S1700000x1_0 : (⟨S1700000, .f32⟩ : BufTy).Contents (Elt F) → (⟨S1700000x1, .f32⟩ : BufTy).Contents (Elt F)) main_v26
  have main_v94 : (⟨S1700000x128, .f32⟩ : BufTy).Contents (Elt F) := (broadcastInDim S1700000x128 ![0, 1] bcast_S1700000x1_S1700000x128_0_1 : (⟨S1700000x1, .f32⟩ : BufTy).Contents (Elt F) → (⟨S1700000x128, .f32⟩ : BufTy).Contents (Elt F)) main_v93
  have main_v95 : (⟨S1700000x128, .f32⟩ : BufTy).Contents (Elt F) := (mulf : (⟨S1700000x128, .f32⟩ : BufTy).Contents (Elt F) → (⟨S1700000x128, .f32⟩ : BufTy).Contents (Elt F) → (⟨S1700000x128, .f32⟩ : BufTy).Contents (Elt F)) main_v92 main_v94
  have main_cst_17 : (⟨S_, .f32⟩ : BufTy).Contents (Elt F) := (constant S_ .f32 0x00000000#32)
  have main_v96 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) main_cst_17
  have main_v97 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v6
  have main_v98 : (⟨S100000x128, .f32⟩ : BufTy).Contents (Elt F) := ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) main_v96 main_v97 main_v95
  main_v98

/-- A hidden layer's weights as handed to the matrix unit. -/
noncomputable def castW128 (main_arg5 : (⟨S128x128, .f32⟩ : BufTy).Contents (Elt F)) :
    (⟨S128x128, .bf16⟩ : BufTy).Contents (Elt F) :=
  have main_v99 : (⟨S128x128, .bf16⟩ : BufTy).Contents (Elt F) := ((truncf .bf16 · bitsLt_bf16_f32) : (⟨S128x128, .f32⟩ : BufTy).Contents (Elt F) → (⟨S128x128, .bf16⟩ : BufTy).Contents (Elt F)) main_arg5
  main_v99

/-- Mean pooling per graph, the dense layer with batch normalisation over the graphs, and the output layer. -/
noncomputable def readout (main_arg2 : (⟨S100000, .i32⟩ : BufTy).Contents (Elt F)) (main_v205 : (⟨S100000x128, .f32⟩ : BufTy).Contents (Elt F)) (main_arg11 : (⟨S128x128, .f32⟩ : BufTy).Contents (Elt F)) (main_arg12 : (⟨S128, .f32⟩ : BufTy).Contents (Elt F)) (main_arg25 : (⟨S128, .f32⟩ : BufTy).Contents (Elt F)) (main_arg26 : (⟨S128, .f32⟩ : BufTy).Contents (Elt F)) (main_arg13 : (⟨S128x10, .f32⟩ : BufTy).Contents (Elt F)) (main_arg14 : (⟨S10, .f32⟩ : BufTy).Contents (Elt F)) :
    (⟨S16x10, .f32⟩ : BufTy).Contents (Elt F) :=
  have main_cst_36 : (⟨S_, .f32⟩ : BufTy).Contents (Elt F) := (constant S_ .f32 0x3F800000#32)
  have main_v206 : (⟨S100000, .f32⟩ : BufTy).Contents (Elt F) := (broadcastInDim S100000 ![] bcast_S_S100000 : (⟨S_, .f32⟩ : BufTy).Contents (Elt F) → (⟨S100000, .f32⟩ : BufTy).Contents (Elt F)) main_cst_36
  have main_cst_37 : (⟨S_, .f32⟩ : BufTy).Contents (Elt F) := (constant S_ .f32 0x00000000#32)
  have main_v207 : (⟨S16, .f32⟩ : BufTy).Contents (Elt F) := (broadcastInDim S16 ![] bcast_S_S16 : (⟨S_, .f32⟩ : BufTy).Contents (Elt F) → (⟨S16, .f32⟩ : BufTy).Contents (Elt F)) main_cst_37
  have main_v208 : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) main_arg2
  have main_v209 : (⟨S16, .f32⟩ : BufTy).Contents (Elt F) := ((fun x i u => Host.scatterAdd scatter_S16_S100000x1_S100000_n_0_0_1 x i u) : (⟨S16, .f32⟩ : BufTy).Contents (Elt F) → (⟨S100000x1, .i32⟩ : BufTy).Contents (Elt F) → (⟨S100000, .f32⟩ : BufTy).Contents (Elt F) → (⟨S16, .f32⟩ : BufTy).Contents (Elt F)) main_v207 main_v208 main_v206
  have main_cst_38 : (⟨S_, .f32⟩ : BufTy).Contents (Elt F) := (constant S_ .f32 0x3F800000#32)
  have main_v210 : (⟨S16, .f32⟩ : BufTy).Contents (Elt F) := (broadcastInDim S16 ![] bcast_S_S16 : (⟨S_, .f32⟩ : BufTy).Contents (Elt F) → (⟨S16, .f32⟩ : BufTy).Contents (Elt F)) main_cst_38
  have main_v211 : (⟨S16, .f32⟩ : BufTy).Contents (Elt F) := (maximumf : (⟨S16, .f32⟩ : BufTy).Contents (Elt F) → (⟨S16, .f32⟩ : BufTy).Contents (Elt F) → (⟨S16, .f32⟩ : BufTy).Contents (Elt F)) main_v209 main_v210
  have main_cst_39 : (⟨S_, .f32⟩ : BufTy).Contents (Elt F) := (constant S_ .f32 0x00000000#32)
  have main_v212 : (⟨S16x128, .f32⟩ : BufTy).Contents (Elt F) := (broadcastInDim S16x128 ![] bcast_S_S16x128 : (⟨S_, .f32⟩ : BufTy).Contents (Elt F) → (⟨S16x128, .f32⟩ : BufTy).Contents (Elt F)) main_cst_39
  have main_v213 : (⟨S100000x1, .i32⟩ : BufTy).Contents (Elt F) := (broadcastInDim S100000x1 ![0] bcast_S100000_S100000x1_0 : (⟨S100000, .i32⟩ : BufTy).Contents (Elt F) → (⟨S100000x1, .i32⟩ : BufTy).Contents (Elt F)) main_arg2
  have main_v214 : (⟨S16x128, .f32⟩ : BufTy).Contents (Elt F) := ((fun x i u => Host.scatterAdd scatter_S16x128_S100000x1_S100000x128_1_0_0_1 x i u) : (⟨S16x128, .f32⟩ : BufTy).Contents (Elt F) → (⟨S100000x1, .i32⟩ : BufTy).Contents (Elt F) → (⟨S100000x128, .f32⟩ : BufTy).Contents (Elt F) → (⟨S16x128, .f32⟩ : BufTy).Contents (Elt F)) main_v212 main_v213 main_v205
  have main_v215 : (⟨S16x1, .f32⟩ : BufTy).Contents (Elt F) := (broadcastInDim S16x1 ![0] bcast_S16_S16x1_0 : (⟨S16, .f32⟩ : BufTy).Contents (Elt F) → (⟨S16x1, .f32⟩ : BufTy).Contents (Elt F)) main_v211
  have main_v216 : (⟨S16x128, .f32⟩ : BufTy).Contents (Elt F) := (broadcastInDim S16x128 ![0, 1] bcast_S16x1_S16x128_0_1 : (⟨S16x1, .f32⟩ : BufTy).Contents (Elt F) → (⟨S16x128, .f32⟩ : BufTy).Contents (Elt F)) main_v215
  have main_v217 : (⟨S16x128, .f32⟩ : BufTy).Contents (Elt F) := (Host.divf : (⟨S16x128, .f32⟩ : BufTy).Contents (Elt F) → (⟨S16x128, .f32⟩ : BufTy).Contents (Elt F) → (⟨S16x128, .f32⟩ : BufTy).Contents (Elt F)) main_v214 main_v216
  have main_v218 : (⟨S16x128, .f32⟩ : BufTy).Contents (Elt F) := ((fun l r => Host.dotGeneral dot_S16x128_S128x128_S16x128_1_0_0_1_n_n none l r) : (⟨S16x128, .f32⟩ : BufTy).Contents (Elt F) → (⟨S128x128, .f32⟩ : BufTy).Contents (Elt F) → (⟨S16x128, .f32⟩ : BufTy).Contents (Elt F)) main_v217 main_arg11
  have main_v219 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg12
  have main_v220 : (⟨S16x128, .f32⟩ : BufTy).Contents (Elt F) := (broadcastInDim S16x128 ![0, 1] bcast_S1x128_S16x128_0_1 : (⟨S1x128, .f32⟩ : BufTy).Contents (Elt F) → (⟨S16x128, .f32⟩ : BufTy).Contents (Elt F)) main_v219
  have main_v221 : (⟨S16x128, .f32⟩ : BufTy).Contents (Elt F) := (addf : (⟨S16x128, .f32⟩ : BufTy).Contents (Elt F) → (⟨S16x128, .f32⟩ : BufTy).Contents (Elt F) → (⟨S16x128, .f32⟩ : BufTy).Contents (Elt F)) main_v218 main_v220
  have main_call1_cst : (⟨S_, .f32⟩ : BufTy).Contents (Elt F) := (constant S_ .f32 0x00000000#32)
  have main_call1_v0 : (⟨S16x128, .f32⟩ : BufTy).Contents (Elt F) := (broadcastInDim S16x128 ![] bcast_S_S16x128) main_call1_cst
  have main_v222 : (⟨S16x128, .f32⟩ : BufTy).Contents (Elt F) := maximumf main_v221 main_call1_v0
  have main_cst_40 : (⟨S_, .f32⟩ : BufTy).Contents (Elt F) := (constant S_ .f32 0x00000000#32)
  have main_v223 : (⟨S128, .f32⟩ : BufTy).Contents (Elt F) := ((fun x v => Host.reduceAdd x v reducesTo_S16x128_S128_d0 h_S_) : (⟨S16x128, .f32⟩ : BufTy).Contents (Elt F) → (⟨S_, .f32⟩ : BufTy).Contents (Elt F) → (⟨S128, .f32⟩ : BufTy).Contents (Elt F)) main_v222 main_cst_40
  have main_cst_41 : (⟨S_, .f32⟩ : BufTy).Contents (Elt F) := (constant S_ .f32 0x41800000#32)
  have main_v224 : (⟨S128, .f32⟩ : BufTy).Contents (Elt F) := (broadcastInDim S128 ![] bcast_S_S128 : (⟨S_, .f32⟩ : BufTy).Contents (Elt F) → (⟨S128, .f32⟩ : BufTy).Contents (Elt F)) main_cst_41
  have main_v225 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) main_v223 main_v224
  have main_c_42 : (⟨S_, .i32⟩ : BufTy).Contents (Elt F) := (constantI S_ 32 0#32)
  have main_call2_cst : (⟨S_, .f32⟩ : BufTy).Contents (Elt F) := (constant S_ .f32 0x00000000#32)
  have main_call2_v0 : (⟨S128, .f32⟩ : BufTy).Contents (Elt F) := (fun x v => Host.reduceAdd x v reducesTo_S16x128_S128_d0 h_S_) main_v222 main_call2_cst
  have main_call2_v1 : (⟨S1x128, .f32⟩ : BufTy).Contents (Elt F) := (broadcastInDim S1x128 ![1] bcast_S128_S1x128_1) main_call2_v0
  have main_call2_cst_0 : (⟨S_, .f32⟩ : BufTy).Contents (Elt F) := (constant S_ .f32 0x41800000#32)
  have main_call2_v2 : (⟨S1x128, .f32⟩ : BufTy).Contents (Elt F) := (broadcastInDim S1x128 ![] bcast_S_S1x128) main_call2_cst_0
  have main_call2_v3 : (⟨S1x128, .f32⟩ : BufTy).Contents (Elt F) := Host.divf main_call2_v1 main_call2_v2
  have main_call2_v4 : (⟨S16x128, .f32⟩ : BufTy).Contents (Elt F) := (broadcastInDim S16x128 ![0, 1] bcast_S1x128_S16x128_0_1) main_call2_v3
  have main_call2_v5 : (⟨S16x128, .f32⟩ : BufTy).Contents (Elt F) := subf main_v222 main_call2_v4
  have main_call2_v6 : (⟨S16x128, .f32⟩ : BufTy).Contents (Elt F) := mulf main_call2_v5 main_call2_v5
  have main_call2_v7 : (⟨S_, .f32⟩ : BufTy).Contents (Elt F) := (sitofp .f32) main_c_42
  have main_call2_cst_1 : (⟨S_, .f32⟩ : BufTy).Contents (Elt F) := (constant S_ .f32 0x41800000#32)
  have main_call2_v8 : (⟨S_, .f32⟩ : BufTy).Contents (Elt F) := subf main_call2_cst_1 main_call2_v7
  have main_call2_cst_2 : (⟨S_, .f32⟩ : BufTy).Contents (Elt F) := (constant S_ .f32 0x00000000#32)
  have main_call2_v9 : (⟨S128, .f32⟩ : BufTy).Contents (Elt F) := (fun x v => Host.reduceAdd x v reducesTo_S16x128_S128_d0 h_S_) main_call2_v6 main_call2_cst_2
  have main_call2_v10 : (⟨S128, .f32⟩ : BufTy).Contents (Elt F) := (broadcastInDim S128 ![] bcast_S_S128) main_call2_v8
  have main_call2_v11 : (⟨S128, .f32⟩ : BufTy).Contents (Elt F) := Host.divf main_call2_v9 main_call2_v10
  have main_call2_cst_3 : (⟨S_, .f32⟩ : BufTy).Contents (Elt F) := (constant S_ .f32 0x00000000#32)
  have main_call2_v12 : (⟨S_, .i1⟩ : BufTy).Contents (Elt F) := (cmpf .ogt) main_call2_v8 main_call2_cst_3
  have main_call2_cst_4 : (⟨S_, .f32⟩ : BufTy).Contents (Elt F) := (constant S_ .f32 0x7FC00000#32)
  have main_call2_call0_v0 : (⟨S_, .f32⟩ : BufTy).Contents (Elt F) := id main_call2_cst_4
  have main_call2_call0_v1 : (⟨S128, .f32⟩ : BufTy).Contents (Elt F) := (broadcastInDim S128 ![] bcast_S_S128) main_call2_call0_v0
  have main_v226 : (⟨S128, .f32⟩ : BufTy).Contents (Elt F) := (fun p a b => select (broadcastInDim S128 ![] bcast_S_S128 p) a b) main_call2_v12 main_call2_v11 main_call2_call0_v1
  have main_v227 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v225
  have main_v228 : (⟨S16x128, .f32⟩ : BufTy).Contents (Elt F) := (broadcastInDim S16x128 ![0, 1] bcast_S1x128_S16x128_0_1 : (⟨S1x128, .f32⟩ : BufTy).Contents (Elt F) → (⟨S16x128, .f32⟩ : BufTy).Contents (Elt F)) main_v227
  have main_v229 : (⟨S16x128, .f32⟩ : BufTy).Contents (Elt F) := (subf : (⟨S16x128, .f32⟩ : BufTy).Contents (Elt F) → (⟨S16x128, .f32⟩ : BufTy).Contents (Elt F) → (⟨S16x128, .f32⟩ : BufTy).Contents (Elt F)) main_v222 main_v228
  have main_v230 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg25
  have main_v231 : (⟨S16x128, .f32⟩ : BufTy).Contents (Elt F) := (broadcastInDim S16x128 ![0, 1] bcast_S1x128_S16x128_0_1 : (⟨S1x128, .f32⟩ : BufTy).Contents (Elt F) → (⟨S16x128, .f32⟩ : BufTy).Contents (Elt F)) main_v230
  have main_v232 : (⟨S16x128, .f32⟩ : BufTy).Contents (Elt F) := (mulf : (⟨S16x128, .f32⟩ : BufTy).Contents (Elt F) → (⟨S16x128, .f32⟩ : BufTy).Contents (Elt F) → (⟨S16x128, .f32⟩ : BufTy).Contents (Elt F)) main_v231 main_v229
  have main_cst_43 : (⟨S_, .f32⟩ : BufTy).Contents (Elt F) := (constant S_ .f32 0x3727C5AC#32)
  have main_v233 : (⟨S128, .f32⟩ : BufTy).Contents (Elt F) := (broadcastInDim S128 ![] bcast_S_S128 : (⟨S_, .f32⟩ : BufTy).Contents (Elt F) → (⟨S128, .f32⟩ : BufTy).Contents (Elt F)) main_cst_43
  have main_v234 : (⟨S128, .f32⟩ : BufTy).Contents (Elt F) := (addf : (⟨S128, .f32⟩ : BufTy).Contents (Elt F) → (⟨S128, .f32⟩ : BufTy).Contents (Elt F) → (⟨S128, .f32⟩ : BufTy).Contents (Elt F)) main_v226 main_v233
  have main_v235 : (⟨S128, .f32⟩ : BufTy).Contents (Elt F) := (Host.rsqrt : (⟨S128, .f32⟩ : BufTy).Contents (Elt F) → (⟨S128, .f32⟩ : BufTy).Contents (Elt F)) main_v234
  have main_v236 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v235
  have main_v237 : (⟨S16x128, .f32⟩ : BufTy).Contents (Elt F) := (broadcastInDim S16x128 ![0, 1] bcast_S1x128_S16x128_0_1 : (⟨S1x128, .f32⟩ : BufTy).Contents (Elt F) → (⟨S16x128, .f32⟩ : BufTy).Contents (Elt F)) main_v236
  have main_v238 : (⟨S16x128, .f32⟩ : BufTy).Contents (Elt F) := (mulf : (⟨S16x128, .f32⟩ : BufTy).Contents (Elt F) → (⟨S16x128, .f32⟩ : BufTy).Contents (Elt F) → (⟨S16x128, .f32⟩ : BufTy).Contents (Elt F)) main_v232 main_v237
  have main_v239 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg26
  have main_v240 : (⟨S16x128, .f32⟩ : BufTy).Contents (Elt F) := (broadcastInDim S16x128 ![0, 1] bcast_S1x128_S16x128_0_1 : (⟨S1x128, .f32⟩ : BufTy).Contents (Elt F) → (⟨S16x128, .f32⟩ : BufTy).Contents (Elt F)) main_v239
  have main_v241 : (⟨S16x128, .f32⟩ : BufTy).Contents (Elt F) := (addf : (⟨S16x128, .f32⟩ : BufTy).Contents (Elt F) → (⟨S16x128, .f32⟩ : BufTy).Contents (Elt F) → (⟨S16x128, .f32⟩ : BufTy).Contents (Elt F)) main_v238 main_v240
  have main_v242 : (⟨S16x10, .f32⟩ : BufTy).Contents (Elt F) := ((fun l r => Host.dotGeneral dot_S16x128_S128x10_S16x10_1_0_0_1_n_n none l r) : (⟨S16x128, .f32⟩ : BufTy).Contents (Elt F) → (⟨S128x10, .f32⟩ : BufTy).Contents (Elt F) → (⟨S16x10, .f32⟩ : BufTy).Contents (Elt F)) main_v241 main_arg13
  have main_v243 : (⟨S1x10, .f32⟩ : BufTy).Contents (Elt F) := (broadcastInDim S1x10 ![1] bcast_S10_S1x10_1 : (⟨S10, .f32⟩ : BufTy).Contents (Elt F) → (⟨S1x10, .f32⟩ : BufTy).Contents (Elt F)) main_arg14
  have main_v244 : (⟨S16x10, .f32⟩ : BufTy).Contents (Elt F) := (broadcastInDim S16x10 ![0, 1] bcast_S1x10_S16x10_0_1 : (⟨S1x10, .f32⟩ : BufTy).Contents (Elt F) → (⟨S16x10, .f32⟩ : BufTy).Contents (Elt F)) main_v243
  have main_v245 : (⟨S16x10, .f32⟩ : BufTy).Contents (Elt F) := (addf : (⟨S16x10, .f32⟩ : BufTy).Contents (Elt F) → (⟨S16x10, .f32⟩ : BufTy).Contents (Elt F) → (⟨S16x10, .f32⟩ : BufTy).Contents (Elt F)) main_v242 main_v244
  main_v245

end Cert.SpecK

end
-- ==== Proof.SpecR.lean ====
/- The stretches of the reference program that differ from the kernel program's, as functions of the arrays they read:
   each definition lists a range of the program's operations, one `have` per operation in the program's order. -/
import proofs.«402048_j34643206209888_3_alg».proof.Proof.Gen.ReferenceIdeal

noncomputable section

namespace Cert.SpecR

open Idealize.ShloMosaic Cert.ReferenceIdeal Cert.ReferenceIdeal.Gen

variable {F : FTy → Type} [FloatOps F]

/-- The edge weights as a column. -/
noncomputable def normCol (main_v26 : (⟨S1700000, .f32⟩ : BufTy).Contents (Elt F)) :
    (⟨S1700000x1, .f32⟩ : BufTy).Contents (Elt F) :=
  have main_v27 : (⟨S1700000x1, .f32⟩ : BufTy).Contents (Elt F) := (broadcastInDim S1700000x1 ![0] bcast_S1700000_S1700000x1_0 : (⟨S1700000, .f32⟩ : BufTy).Contents (Elt F) → (⟨S1700000x1, .f32⟩ : BufTy).Contents (Elt F)) main_v26
  main_v27

/-- One graph convolution of 16 features: project, gather the source rows, weight them, add them into the destination rows, add the bias. -/
noncomputable def conv16 (main_v46 : (⟨S100000x16, .f32⟩ : BufTy).Contents (Elt F)) (main_arg3 : (⟨S16x128, .f32⟩ : BufTy).Contents (Elt F)) (main_v3 : (⟨S1700000, .i32⟩ : BufTy).Contents (Elt F)) (main_v27 : (⟨S1700000x1, .f32⟩ : BufTy).Contents (Elt F)) (main_v6 : (⟨S1700000, .i32⟩ : BufTy).Contents (Elt F)) (main_arg4 : (⟨S128, .f32⟩ : BufTy).Contents (Elt F)) :
    (⟨S100000x128, .f32⟩ : BufTy).Contents (Elt F) :=
  have main_v47 : (⟨S100000x128, .f32⟩ : BufTy).Contents (Elt F) := ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)) main_v46 main_arg3
  have main_c_8 : (⟨S_, .i32⟩ : BufTy).Contents (Elt F) := (constantI S_ 32 0#32)
  have main_v48 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_8
  have main_v49 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v3 main_v48
  have main_c_9 : (⟨S_, .i32⟩ : BufTy).Contents (Elt F) := (constantI S_ 32 100000#32)
  have main_v50 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_9
  have main_v51 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v3 main_v50
  have main_v52 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v49 main_v51 main_v3
  have main_v53 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v52
  have main_v54 : (⟨S1700000x128, .f32⟩ : BufTy).Contents (Elt F) := ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) main_v47 main_v53
  have main_v55 : (⟨S1700000x128, .f32⟩ : BufTy).Contents (Elt F) := (broadcastInDim S1700000x128 ![0, 1] bcast_S1700000x1_S1700000x128_0_1 : (⟨S1700000x1, .f32⟩ : BufTy).Contents (Elt F) → (⟨S1700000x128, .f32⟩ : BufTy).Contents (Elt F)) main_v27
  have main_v56 : (⟨S1700000x128, .f32⟩ : BufTy).Contents (Elt F) := (mulf : (⟨S1700000x128, .f32⟩ : BufTy).Contents (Elt F) → (⟨S1700000x128, .f32⟩ : BufTy).Contents (Elt F) → (⟨S1700000x128, .f32⟩ : BufTy).Contents (Elt F)) main_v54 main_v55
  have main_cst_10 : (⟨S_, .f32⟩ : BufTy).Contents (Elt F) := (constant S_ .f32 0x00000000#32)
  have main_v57 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) main_cst_10
  have main_v58 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v6
  have main_v59 : (⟨S100000x128, .f32⟩ : BufTy).Contents (Elt F) := ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) main_v57 main_v58 main_v56
  have main_v60 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg4
  have main_v61 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v60
  have main_v62 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) main_v59 main_v61
  main_v62

/-- Cut below at zero. -/
noncomputable def relu128 (main_v62 : (⟨S100000x128, .f32⟩ : BufTy).Contents (Elt F)) :
    (⟨S100000x128, .f32⟩ : BufTy).Contents (Elt F) :=
  have main_call1_cst : (⟨S_, .f32⟩ : BufTy).Contents (Elt F) := (constant S_ .f32 0x00000000#32)
  have main_call1_v0 : (⟨S100000x128, .f32⟩ : BufTy).Contents (Elt F) := (broadcastInDim S100000x128 ![] bcast_S_S100000x128) main_call1_cst
  have main_v63 : (⟨S100000x128, .f32⟩ : BufTy).Contents (Elt F) := maximumf main_v62 main_call1_v0
  main_v63

/-- Batch normalisation of a layer's output over the nodes: mean, biased variance as the mean squared deviation, scale and shift. -/
noncomputable def normFromData (main_v63 : (⟨S100000x128, .f32⟩ : BufTy).Contents (Elt F)) (main_arg17 : (⟨S128, .f32⟩ : BufTy).Contents (Elt F)) (main_arg18 : (⟨S128, .f32⟩ : BufTy).Contents (Elt F)) :
    (⟨S100000x128, .f32⟩ : BufTy).Contents (Elt F) :=
  have main_cst_11 : (⟨S_, .f32⟩ : BufTy).Contents (Elt F) := (constant S_ .f32 0x00000000#32)
  have main_v64 : (⟨S128, .f32⟩ : BufTy).Contents (Elt F) := ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) main_v63 main_cst_11
  have main_cst_12 : (⟨S_, .f32⟩ : BufTy).Contents (Elt F) := (constant S_ .f32 0x47C35000#32)
  have main_v65 : (⟨S128, .f32⟩ : BufTy).Contents (Elt F) := (broadcastInDim S128 ![] bcast_S_S128 : (⟨S_, .f32⟩ : BufTy).Contents (Elt F) → (⟨S128, .f32⟩ : BufTy).Contents (Elt F)) main_cst_12
  have main_v66 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) main_v64 main_v65
  have main_c_13 : (⟨S_, .i32⟩ : BufTy).Contents (Elt F) := (constantI S_ 32 0#32)
  have main_call2_cst : (⟨S_, .f32⟩ : BufTy).Contents (Elt F) := (constant S_ .f32 0x00000000#32)
  have main_call2_v0 : (⟨S128, .f32⟩ : BufTy).Contents (Elt F) := (fun x v => Host.reduceAdd x v reducesTo_S100000x128_S128_d0 h_S_) main_v63 main_call2_cst
  have main_call2_v1 : (⟨S1x128, .f32⟩ : BufTy).Contents (Elt F) := (broadcastInDim S1x128 ![1] bcast_S128_S1x128_1) main_call2_v0
  have main_call2_cst_0 : (⟨S_, .f32⟩ : BufTy).Contents (Elt F) := (constant S_ .f32 0x47C35000#32)
  have main_call2_v2 : (⟨S1x128, .f32⟩ : BufTy).Contents (Elt F) := (broadcastInDim S1x128 ![] bcast_S_S1x128) main_call2_cst_0
  have main_call2_v3 : (⟨S1x128, .f32⟩ : BufTy).Contents (Elt F) := Host.divf main_call2_v1 main_call2_v2
  have main_call2_v4 : (⟨S100000x128, .f32⟩ : BufTy).Contents (Elt F) := (broadcastInDim S100000x128 ![0, 1] bcast_S1x128_S100000x128_0_1) main_call2_v3
  have main_call2_v5 : (⟨S100000x128, .f32⟩ : BufTy).Contents (Elt F) := subf main_v63 main_call2_v4
  have main_call2_v6 : (⟨S100000x128, .f32⟩ : BufTy).Contents (Elt F) := mulf main_call2_v5 main_call2_v5
  have main_call2_v7 : (⟨S_, .f32⟩ : BufTy).Contents (Elt F) := (sitofp .f32) main_c_13
  have main_call2_cst_1 : (⟨S_, .f32⟩ : BufTy).Contents (Elt F) := (constant S_ .f32 0x47C35000#32)
  have main_call2_v8 : (⟨S_, .f32⟩ : BufTy).Contents (Elt F) := subf main_call2_cst_1 main_call2_v7
  have main_call2_cst_2 : (⟨S_, .f32⟩ : BufTy).Contents (Elt F) := (constant S_ .f32 0x00000000#32)
  have main_call2_v9 : (⟨S128, .f32⟩ : BufTy).Contents (Elt F) := (fun x v => Host.reduceAdd x v reducesTo_S100000x128_S128_d0 h_S_) main_call2_v6 main_call2_cst_2
  have main_call2_v10 : (⟨S128, .f32⟩ : BufTy).Contents (Elt F) := (broadcastInDim S128 ![] bcast_S_S128) main_call2_v8
  have main_call2_v11 : (⟨S128, .f32⟩ : BufTy).Contents (Elt F) := Host.divf main_call2_v9 main_call2_v10
  have main_call2_cst_3 : (⟨S_, .f32⟩ : BufTy).Contents (Elt F) := (constant S_ .f32 0x00000000#32)
  have main_call2_v12 : (⟨S_, .i1⟩ : BufTy).Contents (Elt F) := (cmpf .ogt) main_call2_v8 main_call2_cst_3
  have main_call2_cst_4 : (⟨S_, .f32⟩ : BufTy).Contents (Elt F) := (constant S_ .f32 0x7FC00000#32)
  have main_call2_call0_v0 : (⟨S_, .f32⟩ : BufTy).Contents (Elt F) := id main_call2_cst_4
  have main_call2_call0_v1 : (⟨S128, .f32⟩ : BufTy).Contents (Elt F) := (broadcastInDim S128 ![] bcast_S_S128) main_call2_call0_v0
  have main_v67 : (⟨S128, .f32⟩ : BufTy).Contents (Elt F) := (fun p a b => select (broadcastInDim S128 ![] bcast_S_S128 p) a b) main_call2_v12 main_call2_v11 main_call2_call0_v1
  have main_v68 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v66
  have main_v69 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v68
  have main_v70 : (⟨S100000x128, .f32⟩ : BufTy).Contents (Elt F) := (subf : (⟨S100000x128, .f32⟩ : BufTy).Contents (Elt F) → (⟨S100000x128, .f32⟩ : BufTy).Contents (Elt F) → (⟨S100000x128, .f32⟩ : BufTy).Contents (Elt F)) main_v63 main_v69
  have main_v71 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg17
  have main_v72 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v71
  have main_v73 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) main_v72 main_v70
  have main_cst_14 : (⟨S_, .f32⟩ : BufTy).Contents (Elt F) := (constant S_ .f32 0x3727C5AC#32)
  have main_v74 : (⟨S128, .f32⟩ : BufTy).Contents (Elt F) := (broadcastInDim S128 ![] bcast_S_S128 : (⟨S_, .f32⟩ : BufTy).Contents (Elt F) → (⟨S128, .f32⟩ : BufTy).Contents (Elt F)) main_cst_14
  have main_v75 : (⟨S128, .f32⟩ : BufTy).Contents (Elt F) := (addf : (⟨S128, .f32⟩ : BufTy).Contents (Elt F) → (⟨S128, .f32⟩ : BufTy).Contents (Elt F) → (⟨S128, .f32⟩ : BufTy).Contents (Elt F)) main_v67 main_v74
  have main_v76 : (⟨S128, .f32⟩ : BufTy).Contents (Elt F) := (Host.rsqrt : (⟨S128, .f32⟩ : BufTy).Contents (Elt F) → (⟨S128, .f32⟩ : BufTy).Contents (Elt F)) main_v75
  have main_v77 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v76
  have main_v78 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v77
  have main_v79 : (⟨S100000x128, .f32⟩ : BufTy).Contents (Elt F) := (mulf : (⟨S100000x128, .f32⟩ : BufTy).Contents (Elt F) → (⟨S100000x128, .f32⟩ : BufTy).Contents (Elt F) → (⟨S100000x128, .f32⟩ : BufTy).Contents (Elt F)) main_v73 main_v78
  have main_v80 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg18
  have main_v81 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v80
  have main_v82 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) main_v79 main_v81
  main_v82

/-- One graph convolution of 128 features. -/
noncomputable def conv128 (main_v82 : (⟨S100000x128, .f32⟩ : BufTy).Contents (Elt F)) (main_arg5 : (⟨S128x128, .f32⟩ : BufTy).Contents (Elt F)) (main_v3 : (⟨S1700000, .i32⟩ : BufTy).Contents (Elt F)) (main_v27 : (⟨S1700000x1, .f32⟩ : BufTy).Contents (Elt F)) (main_v6 : (⟨S1700000, .i32⟩ : BufTy).Contents (Elt F)) (main_arg6 : (⟨S128, .f32⟩ : BufTy).Contents (Elt F)) :
    (⟨S100000x128, .f32⟩ : BufTy).Contents (Elt F) :=
  have main_v83 : (⟨S100000x128, .f32⟩ : BufTy).Contents (Elt F) := ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) main_v82 main_arg5
  have main_c_15 : (⟨S_, .i32⟩ : BufTy).Contents (Elt F) := (constantI S_ 32 0#32)
  have main_v84 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_15
  have main_v85 : (⟨S1700000, .i1⟩ : BufTy).Contents (Elt F) := (cmpi .slt : (⟨S1700000, .i32⟩ : BufTy).Contents (Elt F) → (⟨S1700000, .i32⟩ : BufTy).Contents (Elt F) → (⟨S1700000, .i1⟩ : BufTy).Contents (Elt F)) main_v3 main_v84
  have main_c_16 : (⟨S_, .i32⟩ : BufTy).Contents (Elt F) := (constantI S_ 32 100000#32)
  have main_v86 : (⟨S1700000, .i32⟩ : BufTy).Contents (Elt F) := (broadcastInDim S1700000 ![] bcast_S_S1700000 : (⟨S_, .i32⟩ : BufTy).Contents (Elt F) → (⟨S1700000, .i32⟩ : BufTy).Contents (Elt F)) main_c_16
  have main_v87 : (⟨S1700000, .i32⟩ : BufTy).Contents (Elt F) := (addi : (⟨S1700000, .i32⟩ : BufTy).Contents (Elt F) → (⟨S1700000, .i32⟩ : BufTy).Contents (Elt F) → (⟨S1700000, .i32⟩ : BufTy).Contents (Elt F)) main_v3 main_v86
  have main_v88 : (⟨S1700000, .i32⟩ : BufTy).Contents (Elt F) := (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) main_v85 main_v87 main_v3
  have main_v89 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v88
  have main_v90 : (⟨S1700000x128, .f32⟩ : BufTy).Contents (Elt F) := ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) main_v83 main_v89
  have main_v91 : (⟨S1700000x128, .f32⟩ : BufTy).Contents (Elt F) := (broadcastInDim S1700000x128 ![0, 1] bcast_S1700000x1_S1700000x128_0_1 : (⟨S1700000x1, .f32⟩ : BufTy).Contents (Elt F) → (⟨S1700000x128, .f32⟩ : BufTy).Contents (Elt F)) main_v27
  have main_v92 : (⟨S1700000x128, .f32⟩ : BufTy).Contents (Elt F) := (mulf : (⟨S1700000x128, .f32⟩ : BufTy).Contents (Elt F) → (⟨S1700000x128, .f32⟩ : BufTy).Contents (Elt F) → (⟨S1700000x128, .f32⟩ : BufTy).Contents (Elt F)) main_v90 main_v91
  have main_cst_17 : (⟨S_, .f32⟩ : BufTy).Contents (Elt F) := (constant S_ .f32 0x00000000#32)
  have main_v93 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) main_cst_17
  have main_v94 : (⟨S1700000x1, .i32⟩ : BufTy).Contents (Elt F) := (broadcastInDim S1700000x1 ![0] bcast_S1700000_S1700000x1_0 : (⟨S1700000, .i32⟩ : BufTy).Contents (Elt F) → (⟨S1700000x1, .i32⟩ : BufTy).Contents (Elt F)) main_v6
  have main_v95 : (⟨S100000x128, .f32⟩ : BufTy).Contents (Elt F) := ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) main_v93 main_v94 main_v92
  have main_v96 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg6
  have main_v97 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) main_v96
  have main_v98 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) main_v95 main_v97
  main_v98

end Cert.SpecR

end
-- ==== Proof.RealArr.lean ====
import Idealize.ShloMosaic.PureOps.Ideal
import Idealize.ShloMosaic.Lib.ValueIdx

noncomputable section

namespace Cert.RealArr

open Idealize.ShloMosaic Idealize.ShloMosaic.ValueIdx

def IsReal {S : Shape} (v : S.Idx → EReal) : Prop := ∀ i, ∃ r : ℝ, v i = (r : EReal)

def projAt {N D H : Nat} (A : (⟨2, ![N, D]⟩ : Shape).Idx → EReal) (W : (⟨2, ![D, H]⟩ : Shape).Idx → EReal)
    (b : (⟨1, ![H]⟩ : Shape).Idx → EReal) (i : Fin N) (j : Fin H) : EReal :=
  max ((∑ k : Fin D, A (ix2 i k) * W (ix2 k j)) + b (ix1 j)) 0

end Cert.RealArr

end
-- ==== Proof.Tops.lean ====
import proofs.«402048_j34643206209888_3_alg».proof.Proof.SpecK
import proofs.«402048_j34643206209888_3_alg».proof.Proof.SpecR
import proofs.«402048_j34643206209888_3_alg».proof.Proof.RealArr

noncomputable section

namespace Cert.Tops

open Idealize.ShloMosaic Idealize.ShloMosaic.ValueIdx Cert.RealArr
open Cert.KernelIdeal (S100000x16 S2x1600000 S100000 S16x128 S128 S128x128 S128x10 S10 S16 S16x10 S100000x128 S1x128 S1700000)

def projArr {D : Nat} (A : (⟨2, ![100000, D]⟩ : Shape).Idx → EReal) (W : (⟨2, ![D, 128]⟩ : Shape).Idx → EReal)
    (b : (⟨1, ![128]⟩ : Shape).Idx → EReal) : (⟨2, ![100000, 128]⟩ : Shape).Idx → EReal :=
  fun y => projAt (N := 100000) (D := D) (H := 128) A W b (y 0) (y 1)

def sumArr {D : Nat} (A : (⟨2, ![100000, D]⟩ : Shape).Idx → EReal) (W : (⟨2, ![D, 128]⟩ : Shape).Idx → EReal)
    (b : (⟨1, ![128]⟩ : Shape).Idx → EReal) : (⟨2, ![1, 128]⟩ : Shape).Idx → EReal :=
  fun y => ∑ i : Fin 100000, projAt (N := 100000) (D := D) (H := 128) A W b i (y 1)

def sqArr {D : Nat} (A : (⟨2, ![100000, D]⟩ : Shape).Idx → EReal) (W : (⟨2, ![D, 128]⟩ : Shape).Idx → EReal)
    (b : (⟨1, ![128]⟩ : Shape).Idx → EReal) : (⟨2, ![1, 128]⟩ : Shape).Idx → EReal :=
  fun y => ∑ i : Fin 100000, projAt (N := 100000) (D := D) (H := 128) A W b i (y 1) * projAt (N := 100000) (D := D) (H := 128) A W b i (y 1)

def layerK {D : Nat} (agg : (⟨2, ![100000, D]⟩ : Shape).Idx → EReal) (W : (⟨2, ![D, 128]⟩ : Shape).Idx → EReal)
    (b g be : (⟨S128, .f32⟩ : BufTy).Contents (Elt Ideal)) : (⟨S100000x128, .f32⟩ : BufTy).Contents (Elt Ideal) :=
  Cert.SpecK.normFromSums (F := Ideal) (sumArr agg W b) (sqArr agg W b) (projArr agg W b) g be

def KTop (a0 : (⟨S100000x16, .f32⟩ : BufTy).Contents (Elt Ideal)) (a1 : (⟨S2x1600000, .i32⟩ : BufTy).Contents (Elt Ideal)) (a2 : (⟨S100000, .i32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x10, .f32⟩ : BufTy).Contents (Elt Ideal)) (a14 : (⟨S10, .f32⟩ : BufTy).Contents (Elt Ideal)) (a15 : (⟨S16, .f32⟩ : BufTy).Contents (Elt Ideal)) (a16 : (⟨S16, .f32⟩ : BufTy).Contents (Elt Ideal)) (a17 : (⟨S128, .f32⟩ : BufTy).Contents (Elt Ideal)) (a18 : (⟨S128, .f32⟩ : BufTy).Contents (Elt Ideal)) (a19 : (⟨S128, .f32⟩ : BufTy).Contents (Elt Ideal)) (a20 : (⟨S128, .f32⟩ : BufTy).Contents (Elt Ideal)) (a21 : (⟨S128, .f32⟩ : BufTy).Contents (Elt Ideal)) (a22 : (⟨S128, .f32⟩ : BufTy).Contents (Elt Ideal)) (a23 : (⟨S128, .f32⟩ : BufTy).Contents (Elt Ideal)) (a24 : (⟨S128, .f32⟩ : BufTy).Contents (Elt Ideal)) (a25 : (⟨S128, .f32⟩ : BufTy).Contents (Elt Ideal)) (a26 : (⟨S128, .f32⟩ : BufTy).Contents (Elt Ideal)) : (⟨S16x10, .f32⟩ : BufTy).Contents (Elt Ideal) :=
  let src := Cert.SpecK.srcWords (F := Ideal) a1
  let dst := Cert.SpecK.dstWords (F := Ideal) a1
  let nu := Cert.SpecK.edgeNorm (F := Ideal) dst src
  let h0 := Cert.SpecK.inputNorm (F := Ideal) a0 a15 a16
  let h1 := layerK (D := 16) (Cert.SpecK.aggregate16 (F := Ideal) src h0 nu dst) (Cert.SpecK.castW16 (F := Ideal) a3) a4 a17 a18
  let h2 := layerK (D := 128) (Cert.SpecK.aggregate128 (F := Ideal) src h1 nu dst) (Cert.SpecK.castW128 (F := Ideal) a5) a6 a19 a20
  let h3 := layerK (D := 128) (Cert.SpecK.aggregate128 (F := Ideal) src h2 nu dst) (Cert.SpecK.castW128 (F := Ideal) a7) a8 a21 a22
  let h4 := layerK (D := 128) (Cert.SpecK.aggregate128 (F := Ideal) src h3 nu dst) (Cert.SpecK.castW128 (F := Ideal) a9) a10 a23 a24
  Cert.SpecK.readout (F := Ideal) a2 h4 a11 a12 a25 a26 a13 a14

def RTop (a0 : (⟨S100000x16, .f32⟩ : BufTy).Contents (Elt Ideal)) (a1 : (⟨S2x1600000, .i32⟩ : BufTy).Contents (Elt Ideal)) (a2 : (⟨S100000, .i32⟩ : BufTy).Contents (Elt Ideal)) (a3 : (⟨S16x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S128x10, .f32⟩ : BufTy).Contents (Elt Ideal)) (a14 : (⟨S10, .f32⟩ : BufTy).Contents (Elt Ideal)) (a15 : (⟨S16, .f32⟩ : BufTy).Contents (Elt Ideal)) (a16 : (⟨S16, .f32⟩ : BufTy).Contents (Elt Ideal)) (a17 : (⟨S128, .f32⟩ : BufTy).Contents (Elt Ideal)) (a18 : (⟨S128, .f32⟩ : BufTy).Contents (Elt Ideal)) (a19 : (⟨S128, .f32⟩ : BufTy).Contents (Elt Ideal)) (a20 : (⟨S128, .f32⟩ : BufTy).Contents (Elt Ideal)) (a21 : (⟨S128, .f32⟩ : BufTy).Contents (Elt Ideal)) (a22 : (⟨S128, .f32⟩ : BufTy).Contents (Elt Ideal)) (a23 : (⟨S128, .f32⟩ : BufTy).Contents (Elt Ideal)) (a24 : (⟨S128, .f32⟩ : BufTy).Contents (Elt Ideal)) (a25 : (⟨S128, .f32⟩ : BufTy).Contents (Elt Ideal)) (a26 : (⟨S128, .f32⟩ : BufTy).Contents (Elt Ideal)) : (⟨S16x10, .f32⟩ : BufTy).Contents (Elt Ideal) :=
  let src := Cert.SpecK.srcWords (F := Ideal) a1
  let dst := Cert.SpecK.dstWords (F := Ideal) a1
  let nu := Cert.SpecK.edgeNorm (F := Ideal) dst src
  let nuc := Cert.SpecR.normCol (F := Ideal) nu
  let h0 := Cert.SpecK.inputNorm (F := Ideal) a0 a15 a16
  let h1 := Cert.SpecR.normFromData (F := Ideal) (Cert.SpecR.relu128 (F := Ideal) (Cert.SpecR.conv16 (F := Ideal) h0 a3 src nuc dst a4)) a17 a18
  let h2 := Cert.SpecR.normFromData (F := Ideal) (Cert.SpecR.relu128 (F := Ideal) (Cert.SpecR.conv128 (F := Ideal) h1 a5 src nuc dst a6)) a19 a20
  let h3 := Cert.SpecR.normFromData (F := Ideal) (Cert.SpecR.relu128 (F := Ideal) (Cert.SpecR.conv128 (F := Ideal) h2 a7 src nuc dst a8)) a21 a22
  let h4 := Cert.SpecR.normFromData (F := Ideal) (Cert.SpecR.relu128 (F := Ideal) (Cert.SpecR.conv128 (F := Ideal) h3 a9 src nuc dst a10)) a23 a24
  Cert.SpecK.readout (F := Ideal) a2 h4 a11 a12 a25 a26 a13 a14

end Cert.Tops

end
-- ==== Proof.LibRegion.lean ====
/-
  What the four projection calls share: sums over the 100000 rows taken 5000 rows at a time, a column sum of a
  5000-row block added to a [1, 128] row, and the two block-by-weights products read at an entry.
-/
import proofs.«402048_j34643206209888_3_alg».proof.Proof.Gen.KernelIdeal
import proofs.«402048_j34643206209888_3_alg».proof.Proof.RealArr
import Idealize.ShloMosaic.PureOps.Ideal.Laws
import Idealize.ShloMosaic.Lib.Pipeline.Value
import Idealize.ShloMosaic.Lib.ValueLayout

set_option maxRecDepth 16384

noncomputable section

open Idealize.ShloMosaic Idealize.ShloMosaic.TcCoe Idealize.ShloMosaic.ValueIdx

namespace Cert.KernelIdeal.Stats

open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a; rfl

theorem triple_ext {α β γ : Type} {a a' : α} {b b' : β} {c c' : γ} (h1 : a = a') (h2 : b = b') (h3 : c = c') :
    (a, b, c) = (a', b', c') := by subst h1 h2 h3; rfl

section Rows
variable {M : Type} [AddCommMonoid M]

-- A function of the row, continued by zero past the last row.
def rowFn (f : Fin 100000 → M) (i : ℕ) : M := if h : i < 100000 then f ⟨i, h⟩ else 0

theorem rowFn_of_eq (f : Fin 100000 → M) (i : Fin 100000) (n : ℕ) (h : n = i.val) : rowFn f n = f i := by
  subst h; exact dif_pos i.isLt

theorem sum_rowFn_all (f : Fin 100000 → M) : ∑ i ∈ Finset.range 100000, rowFn f i = ∑ i : Fin 100000, f i := by
  rw [← Fin.sum_univ_eq_sum_range]
  exact Finset.sum_congr rfl fun i _ => rowFn_of_eq f i _ rfl

-- The rows below 5000 (n + 1) are those below 5000 n and the 5000 rows of block n.
theorem sum_rowFn_succ (f : Fin 100000 → M) (n : ℕ) :
    ∑ i ∈ Finset.range (5000 * (n + 1)), rowFn f i
      = ∑ i ∈ Finset.range (5000 * n), rowFn f i + ∑ r : Fin 5000, rowFn f (5000 * n + r.val) := by
  rw [Nat.mul_succ, Finset.sum_range_add, Fin.sum_univ_eq_sum_range (fun r => rowFn f (5000 * n + r)) 5000]

end Rows

theorem lift_row (r : Fin 5000) (q : Fin 128) :
    reduces_S5000x128_S128.lift (ix1 q) r = (ix2 r q : S5000x128.Idx) := by
  funext a; apply Fin.ext
  match a with
  | ⟨0, _⟩ => rfl
  | ⟨1, _⟩ => rfl

-- A [1, 128] row plus the column sums of a 5000-row block, at column q.
theorem colsum_apply (P : FVec Ideal S5000x128 .f32) (v : Vec Ideal S1x128 .f32) (u : Fin 1) (q : Fin 128) :
    addf (shapeCast S1x128 v shapeCasts_S1x128_S1x128)
        (shapeCast S1x128 (multiReduction (F := Ideal) .add [0] S128 P 0x00000000#32 reduces_S5000x128_S128 (.inl rfl) rfl) shapeCasts_S128_S1x128) (ix2 u q)
      = v (ix2 u q) + ∑ r : Fin 5000, P (ix2 r q) := by
  refine congrArg₂ (· + ·) (congrFun (shapeCast_self v _) (ix2 u q)) ?_
  refine (shapeCast_a_1a_apply _ _ u q).trans ?_
  refine (Ideal.multiReduction_add_single P 0x00000000#32 reduces_S5000x128_S128 _ _ (ix1 q)).trans ?_
  exact Finset.sum_congr rfl fun r _ => congrArg P (lift_row r q)

-- Accumulated into zero, the product at (r, q) is row r of the block against column q of the weights.
theorem matmul_entry128 (L : FVec Ideal S5000x128 .bf16) (R : FVec Ideal S128x128 .bf16) (r : Fin 5000) (q : Fin 128) :
    matmul dot_S5000x128_S128x128_S5000x128_1_0_0_1_n_n none L R (constant (F := Ideal) S5000x128 .f32 0x00000000#32) (ix2 r q)
      = ∑ k : Fin 128, L (ix2 r k) * R (ix2 k q) := by
  show FloatOps.matmul _ none L R _ (ix2 r q) = _
  rw [Ideal.matmul_constant_zero_apply, ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have el : dot_S5000x128_S128x128_S5000x128_1_0_0_1_n_n.lhsIdx (ix2 r q) ((contrEquiv1 _ 128 rfl rfl).symm k) = ix2 r k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have er : dot_S5000x128_S128x128_S5000x128_1_0_0_1_n_n.rhsIdx (ix2 r q) ((contrEquiv1 _ 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [el, er]

theorem matmul_entry16 (L : FVec Ideal S5000x16 .bf16) (R : FVec Ideal S16x128 .bf16) (r : Fin 5000) (q : Fin 128) :
    matmul dot_S5000x16_S16x128_S5000x128_1_0_0_1_n_n none L R (constant (F := Ideal) S5000x128 .f32 0x00000000#32) (ix2 r q)
      = ∑ k : Fin 16, L (ix2 r k) * R (ix2 k q) := by
  show FloatOps.matmul _ none L R _ (ix2 r q) = _
  rw [Ideal.matmul_constant_zero_apply, ← Equiv.sum_comp (contrEquiv1 dot_S5000x16_S16x128_S5000x128_1_0_0_1_n_n 16 rfl rfl).symm]
  refine Finset.sum_congr rfl fun k _ => ?_
  have ck := contrEquiv1_symm_val dot_S5000x16_S16x128_S5000x128_1_0_0_1_n_n 16 rfl rfl k
  have el : dot_S5000x16_S16x128_S5000x128_1_0_0_1_n_n.lhsIdx (ix2 r q) ((contrEquiv1 _ 16 rfl rfl).symm k) = ix2 r k := by
    funext ax; apply Fin.ext
    match ax with
    | ⟨0, _⟩ => simp [DotDims.lhsIdx, dot_S5000x16_S16x128_S5000x128_1_0_0_1_n_n]; rfl
    | ⟨1, _⟩ => simp [DotDims.lhsIdx, dot_S5000x16_S16x128_S5000x128_1_0_0_1_n_n]; exact ck
  have er : dot_S5000x16_S16x128_S5000x128_1_0_0_1_n_n.rhsIdx (ix2 r q) ((contrEquiv1 _ 16 rfl rfl).symm k) = ix2 k q := by
    funext ax; apply Fin.ext
    match ax with
    | ⟨0, _⟩ => simp [DotDims.rhsIdx, dot_S5000x16_S16x128_S5000x128_1_0_0_1_n_n]; exact ck
    | ⟨1, _⟩ => simp [DotDims.rhsIdx, dot_S5000x16_S16x128_S5000x128_1_0_0_1_n_n]; rfl
  rw [el, er]

end Cert.KernelIdeal.Stats

end
-- ==== Proof.Region0.lean ====
import proofs.«402048_j34643206209888_3_alg».proof.Proof.Gen.KernelIdeal.Frame
import proofs.«402048_j34643206209888_3_alg».proof.Proof.LibRegion
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.RealArr Cert.KernelIdeal.Stats

section Pieces
variable {F : FTy → Type} [FloatOps F] (c : Dev nD) (i : grid0.Coords)
  (arg1 : Memref sig .tc .vmem S5000x16 .f32) (harg1 : arg1.IsWhole) (arg2 : Memref sig .tc .vmem S16x128 .bf16) (harg2 : arg2.IsWhole)
  (arg3 : Memref sig .tc .vmem S128 .f32) (harg3 : arg3.IsWhole) (arg4 : Memref sig .tc .vmem S5000x128 .f32) (harg4 : arg4.IsWhole)
  (arg5 : Memref sig .tc .vmem S1x128 .f32) (harg5 : arg5.IsWhole) (arg6 : Memref sig .tc .vmem S1x128 .f32) (harg6 : arg6.IsWhole)
  (x0 : Vec F S5000x16 .f32) (x1 : Vec F S16x128 .bf16) (x2 : Vec F S128 .f32)

-- The first point's three results: relu(A_blk W + b), and its column sums and those of its square added to zero rows.
theorem out_A (hc0 : cond0_0 i) :
    (out0_A_3 c i arg1 harg1 arg2 harg2 arg3 harg3 arg4 harg4 arg5 harg5 arg6 harg6 hc0 x0 x1 x2, out0_A_4 c i arg1 harg1 arg2 harg2 arg3 harg3 arg4 harg4 arg5 harg5 arg6 harg6 hc0 x0 x1 x2, out0_A_5 c i arg1 harg1 arg2 harg2 arg3 harg3 arg4 harg4 arg5 harg5 arg6 harg6 hc0 x0 x1 x2)
      = (k0_pay3 x0 x1 x2, k0_pay4 x0 x1 x2 k0_pay1, k0_pay5 x0 x1 x2 k0_pay2) := by
  refine triple_ext ?a ?b ?c
  case' a => unfold out0_A_3; rw [View.read_writes_eq_canon _ _ _ (cover0_A_3 c i arg1 harg1 arg2 harg2 arg3 harg3 arg4 harg4 arg5 harg5 arg6 harg6 hc0 x0 x1 x2)]
  case' b => unfold out0_A_4; rw [View.read_writes_eq_canon _ _ _ (cover0_A_4 c i arg1 harg1 arg2 harg2 arg3 harg3 arg4 harg4 arg5 harg5 arg6 harg6 hc0 x0 x1 x2)]
  case' c => unfold out0_A_5; rw [View.read_writes_eq_canon _ _ _ (cover0_A_5 c i arg1 harg1 arg2 harg2 arg3 harg3 arg4 harg4 arg5 harg5 arg6 harg6 hc0 x0 x1 x2)]
  all_goals
    unfold kernelRun0_A
    dsimp only
    sl_unfold_words
    first | rw [View.canon_unit_zero hz] | rw [View.canon_cons_unit_zero (S := S1x128) hz, View.readCov_unit_zero (S := S1x128) _ hz]
    simp only [View.readAt_eq_ld, harg1.read_unread, harg2.read_unread, harg3.read_unread, harg5.read_unread, harg6.read_unread, View.ld_unit_zero (S := S5000x16) hz, View.ld_unit_zero (S := S16x128) hz, View.ld_unit_zero (S := S128) hz1, View.ld_unit_zero (S := S1x128) hz]

-- A later point's: the same, added to the rows the point before left.
theorem out_B (hc0 : ¬cond0_0 i) (xo4 xo5 : Vec F S1x128 .f32) :
    (out0_B_3 c i arg1 harg1 arg2 harg2 arg3 harg3 arg4 harg4 arg5 harg5 arg6 harg6 hc0 x0 x1 x2 xo4 xo5, out0_B_4 c i arg1 harg1 arg2 harg2 arg3 harg3 arg4 harg4 arg5 harg5 arg6 harg6 hc0 x0 x1 x2 xo4 xo5, out0_B_5 c i arg1 harg1 arg2 harg2 arg3 harg3 arg4 harg4 arg5 harg5 arg6 harg6 hc0 x0 x1 x2 xo4 xo5)
      = (k0_pay3 x0 x1 x2, k0_pay4 x0 x1 x2 xo4, k0_pay5 x0 x1 x2 xo5) := by
  refine triple_ext ?a ?b ?c
  case' a => unfold out0_B_3; rw [View.read_writes_eq_canon _ _ _ (cover0_B_3 c i arg1 harg1 arg2 harg2 arg3 harg3 arg4 harg4 arg5 harg5 arg6 harg6 hc0 x0 x1 x2 xo4 xo5)]
  case' b => unfold out0_B_4; rw [View.read_writes_eq_canon _ _ _ (cover0_B_4 c i arg1 harg1 arg2 harg2 arg3 harg3 arg4 harg4 arg5 harg5 arg6 harg6 hc0 x0 x1 x2 xo4 xo5)]
  case' c => unfold out0_B_5; rw [View.read_writes_eq_canon _ _ _ (cover0_B_5 c i arg1 harg1 arg2 harg2 arg3 harg3 arg4 harg4 arg5 harg5 arg6 harg6 hc0 x0 x1 x2 xo4 xo5)]
  all_goals
    unfold kernelRun0_B
    dsimp only
    sl_unfold_words
    rw [View.canon_unit_zero hz]
    simp only [View.readAt_eq_ld, harg1.read_unread, harg2.read_unread, harg3.read_unread, harg5.read_unread, harg6.read_unread, View.ld_unit_zero (S := S5000x16) hz, View.ld_unit_zero (S := S16x128) hz, View.ld_unit_zero (S := S128) hz1, View.ld_unit_zero (S := S1x128) hz]

end Pieces

section AtIndex
variable (x0 : Vec Ideal S5000x16 .f32) (x1 : Vec Ideal S16x128 .bf16) (x2 : Vec Ideal S128 .f32) (v : Vec Ideal S1x128 .f32) (u : Fin 1) (q : Fin 128)

-- relu of row r of the block against column q of the weights, plus the bias.
theorem pay3_apply (r : Fin 5000) :
    k0_pay3 (F := Ideal) x0 x1 x2 (ix2 r q) = max ((∑ k : Fin 16, x0 (ix2 r k) * x1 (ix2 k q)) + x2 (ix1 q)) 0 := by
  unfold k0_pay3
  simp only [shapeCast_self]
  refine congrArg₂ max (congrArg₂ (· + ·) ?_ ?_) Ideal.ofBits_zero_f32
  · exact matmul_entry16 _ _ r q
  · exact (broadcastTo_1b_ab_apply _ _ r q).trans (shapeCast_a_1a_apply x2 _ (0 : Fin 1) q)

theorem pay1_apply : (k0_pay1 (F := Ideal)) (ix2 u q) = 0 := by
  unfold k0_pay1
  exact Ideal.ofBits_zero_f32

theorem pay2_apply : (k0_pay2 (F := Ideal)) (ix2 u q) = 0 := by
  unfold k0_pay2
  exact Ideal.ofBits_zero_f32

theorem pay4_apply :
    k0_pay4 (F := Ideal) x0 x1 x2 v (ix2 u q) = v (ix2 u q) + ∑ r : Fin 5000, k0_pay3 (F := Ideal) x0 x1 x2 (ix2 r q) :=
  colsum_apply _ v u q

theorem pay5_apply :
    k0_pay5 (F := Ideal) x0 x1 x2 v (ix2 u q)
      = v (ix2 u q) + ∑ r : Fin 5000, k0_pay3 (F := Ideal) x0 x1 x2 (ix2 r q) * k0_pay3 (F := Ideal) x0 x1 x2 (ix2 r q) :=
  colsum_apply (mulf (k0_pay3 (F := Ideal) x0 x1 x2) (k0_pay3 (F := Ideal) x0 x1 x2)) v u q

end AtIndex

section Region
variable (V : (c : Dev nD) → (b : Ref sig .tc) → Buf (Elt Ideal) ((c : Thread nD τ).loc b)) (c : Dev nD)

abbrev Aarr : S100000x16.Idx → EReal := V c (Pipeline.arrRef spec0 0)
abbrev Warr : S16x128.Idx → EReal := V c (Pipeline.arrRef spec0 1)
abbrev barr : S128.Idx → EReal := V c (Pipeline.arrRef spec0 2)
abbrev pAt : Fin 100000 → Fin 128 → EReal := projAt (N := 100000) (D := 16) (H := 128) (Aarr V c) (Warr V c) (barr V c)
abbrev ablk (t : Fin cfg0.N) : Vec Ideal S5000x16 .f32 := iblk0 (F := Ideal) V c 0 t
abbrev wblk (t : Fin cfg0.N) : Vec Ideal S16x128 .bf16 := iblk0 (F := Ideal) V c 1 t
abbrev bblk (t : Fin cfg0.N) : Vec Ideal S128 .f32 := iblk0 (F := Ideal) V c 2 t
abbrev prev (t : Fin cfg0.N) := outsAt0 V c (t.val - 1) (Nat.lt_of_le_of_lt (Nat.sub_le _ _) t.isLt)

theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem ablk_apply (t : Fin cfg0.N) (r : Fin 5000) (k : Fin 16) (i : Fin 100000) (hi : i.val = 5000 * t.val + r.val) :
    ablk V c t (ix2 r k) = Aarr V c (ix2 i k) := by
  obtain ⟨e0, e1, -⟩ := idx_facts t
  show iblk0 (F := Ideal) V c 0 t (ix2 r k) = _
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * r.val = i.val; rw [e0, hi]; omega
  | ⟨1, _⟩ => show win0_0.index t 1 * 16 + 1 * k.val = k.val; rw [e1]; omega

theorem wblk_apply (t : Fin cfg0.N) (k : Fin 16) (q : Fin 128) : wblk V c t (ix2 k q) = Warr V c (ix2 k q) := by
  obtain ⟨-, -, e2, e3, -⟩ := idx_facts t
  show iblk0 (F := Ideal) V c 1 t (ix2 k q) = _
  unfold iblk0
  rw [View.read_apply]
  show V c (Pipeline.arrRef spec0 1) _ = V c (Pipeline.arrRef spec0 1) _
  congr 1
  funext a
  apply Fin.ext
  match a with
  | ⟨0, _⟩ => show win0_1.index t 0 * 16 + 1 * k.val = k.val; rw [e2]; omega
  | ⟨1, _⟩ => show win0_1.index t 1 * 128 + 1 * q.val = q.val; rw [e3]; omega

theorem bblk_apply (t : Fin cfg0.N) (q : Fin 128) : bblk V c t (ix1 q) = barr V c (ix1 q) := by
  obtain ⟨-, -, -, -, e4, -⟩ := idx_facts t
  show iblk0 (F := Ideal) V c 2 t (ix1 q) = _
  unfold iblk0
  rw [View.read_apply]
  show V c (Pipeline.arrRef spec0 2) _ = V c (Pipeline.arrRef spec0 2) _
  congr 1
  funext a
  apply Fin.ext
  match a with
  | ⟨0, _⟩ => show win0_2.index t 0 * 128 + 1 * q.val = q.val; rw [e4]; omega

-- The projection block of point t at (r, q) is the layer's value at row 5000 t + r, column q.
theorem blk_proj (t : Fin cfg0.N) (r : Fin 5000) (q : Fin 128) (i : Fin 100000) (hi : i.val = 5000 * t.val + r.val) :
    k0_pay3 (F := Ideal) (ablk V c t) (wblk V c t) (bblk V c t) (ix2 r q) = pAt V c i q := by
  rw [pay3_apply]
  unfold pAt projAt
  rw [bblk_apply V c t q]
  refine congrArg₂ max (congrArg₂ (· + ·) (Finset.sum_congr rfl fun k _ => ?_) rfl) rfl
  rw [ablk_apply V c t r k i hi, wblk_apply V c t k q]

theorem blk_row {M : Type} [AddCommMonoid M] (φ : EReal → M) (t : Fin cfg0.N) (r : Fin 5000) (q : Fin 128) :
    φ (k0_pay3 (F := Ideal) (ablk V c t) (wblk V c t) (bblk V c t) (ix2 r q)) = rowFn (fun i => φ (pAt V c i q)) (5000 * t.val + r.val) := by
  have hN : cfg0.N = 20 := N_0
  have hr : 5000 * t.val + r.val < 100000 := by have := t.isLt; omega
  rw [rowFn_of_eq _ ⟨_, hr⟩ _ rfl, blk_proj V c t r q ⟨_, hr⟩ rfl]

theorem outs_A (t : Fin cfg0.N) (h0 : t.val % 20 = 0) :
    outsAt0 V c t.val t.isLt = (k0_pay3 (F := Ideal) (ablk V c t) (wblk V c t) (bblk V c t), k0_pay4 (F := Ideal) (ablk V c t) (wblk V c t) (bblk V c t) (k0_pay1 (F := Ideal)), k0_pay5 (F := Ideal) (ablk V c t) (wblk V c t) (bblk V c t) (k0_pay2 (F := Ideal))) :=
  (outsAt0_A V c t h0).trans (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ablk V c t) (wblk V c t) (bblk V c t) ((hcond0_0 t).mpr h0))

theorem outs_B (t : Fin cfg0.N) (h0 : ¬t.val % 20 = 0) :
    outsAt0 V c t.val t.isLt = (k0_pay3 (F := Ideal) (ablk V c t) (wblk V c t) (bblk V c t), k0_pay4 (F := Ideal) (ablk V c t) (wblk V c t) (bblk V c t) (prev V c t).2.1, k0_pay5 (F := Ideal) (ablk V c t) (wblk V c t) (bblk V c t) (prev V c t).2.2) :=
  (outsAt0_B V c t h0).trans (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ablk V c t) (wblk V c t) (bblk V c t) (fun h => h0 ((hcond0_0 t).mp h)) (prev V c t).2.1 (prev V c t).2.2)

theorem outsAt_3 (t : Fin cfg0.N) : (outsAt0 V c t.val t.isLt).1 = k0_pay3 (F := Ideal) (ablk V c t) (wblk V c t) (bblk V c t) := by
  by_cases h0 : t.val % 20 = 0
  · rw [outs_A V c t h0]
  · rw [outs_B V c t h0]

-- After point n the sum row holds, in column q, the layer's values summed over the rows below 5000 (n + 1).
theorem outsAt_4 : ∀ (n : ℕ) (h : n < cfg0.N) (u : Fin 1) (q : Fin 128),
    (outsAt0 V c n h).2.1 (ix2 u q) = ∑ i ∈ Finset.range (5000 * (n + 1)), rowFn (fun i => pAt V c i q) i
  | 0, h, u, q => by
    rw [outs_A V c ⟨0, h⟩ rfl]
    dsimp only
    rw [pay4_apply, pay1_apply, zero_add, sum_rowFn_succ, Finset.range_zero, Finset.sum_empty, zero_add]
    exact Finset.sum_congr rfl fun r _ => blk_row V c id ⟨0, h⟩ r q
  | n + 1, h, u, q => by
    have hN : cfg0.N = 20 := N_0
    rw [outs_B V c ⟨n + 1, h⟩ (by dsimp only; omega)]
    dsimp only
    rw [pay4_apply]
    show (outsAt0 V c n _).2.1 (ix2 u q) + _ = _
    rw [outsAt_4 n (Nat.lt_of_succ_lt h) u q, sum_rowFn_succ _ (n + 1)]
    exact congrArg (_ + ·) (Finset.sum_congr rfl fun r _ => blk_row V c id ⟨n + 1, h⟩ r q)

-- The same for the squares.
theorem outsAt_5 : ∀ (n : ℕ) (h : n < cfg0.N) (u : Fin 1) (q : Fin 128),
    (outsAt0 V c n h).2.2 (ix2 u q) = ∑ i ∈ Finset.range (5000 * (n + 1)), rowFn (fun i => pAt V c i q * pAt V c i q) i
  | 0, h, u, q => by
    rw [outs_A V c ⟨0, h⟩ rfl]
    dsimp only
    rw [pay5_apply, pay2_apply, zero_add, sum_rowFn_succ, Finset.range_zero, Finset.sum_empty, zero_add]
    exact Finset.sum_congr rfl fun r _ => blk_row V c (fun x => x * x) ⟨0, h⟩ r q
  | n + 1, h, u, q => by
    have hN : cfg0.N = 20 := N_0
    rw [outs_B V c ⟨n + 1, h⟩ (by dsimp only; omega)]
    dsimp only
    rw [pay5_apply]
    show (outsAt0 V c n _).2.2 (ix2 u q) + _ = _
    rw [outsAt_5 n (Nat.lt_of_succ_lt h) u q, sum_rowFn_succ _ (n + 1)]
    exact congrArg (_ + ·) (Finset.sum_congr rfl fun r _ => blk_row V c (fun x => x * x) ⟨n + 1, h⟩ r q)

end Region

section Final
variable (V : (c : Dev nD) → (b : Ref sig .tc) → Buf (Elt Ideal) ((c : Thread nD τ).loc b)) (c : Dev nD)

abbrev projG : S100000x128.Idx → EReal := fun y => pAt V c (y 0) (y 1)
abbrev sumG : S1x128.Idx → EReal := fun y => ∑ i : Fin 100000, pAt V c i (y 1)
abbrev sumsqG : S1x128.Idx → EReal := fun y => ∑ i : Fin 100000, pAt V c i (y 1) * pAt V c i (y 1)

theorem read_blk3 (t : Fin cfg0.N) (G : S100000x128.Idx → EReal) (X : Vec Ideal S5000x128 .f32)
    (h : ∀ (r : Fin 5000) (q : Fin 128) (i : Fin 100000), i.val = 5000 * t.val + r.val → X (ix2 r q) = G (ix2 i q)) :
    X = ((cfg0.win 3).blk t).view.read (Elt Ideal) G := by
  obtain ⟨-, -, -, -, -, e5, e6, -⟩ := idx_facts t
  have hN : cfg0.N = 20 := N_0
  refine funext fun (j : S5000x128.Idx) => ?_
  obtain ⟨r, q, rfl⟩ : ∃ (r : Fin 5000) (q : Fin 128), j = ix2 r q := ⟨j 0, j 1, eq_ix2 j⟩
  rw [View.read_apply]
  have hr : 5000 * t.val + r.val < 100000 := by have := t.isLt; omega
  refine (h r q ⟨5000 * t.val + r.val, hr⟩ rfl).trans ?_
  show G _ = G _
  congr 1
  funext a
  apply Fin.ext
  match a with
  | ⟨0, _⟩ => show 5000 * t.val + r.val = win0_3.index t 0 * 5000 + 1 * r.val; rw [e5]; omega
  | ⟨1, _⟩ => show q.val = win0_3.index t 1 * 128 + 1 * q.val; rw [e6]; omega

theorem read_blk4 (t : Fin cfg0.N) (G : S1x128.Idx → EReal) : ((cfg0.win 4).blk t).view.read (Elt Ideal) G = G := by
  obtain ⟨-, -, -, -, -, -, -, e7, e8, -⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win0_4.index t 0 * 1 + 1 * (j 0).val = (j 0).val; rw [e7]; omega
  | ⟨1, _⟩ => show win0_4.index t 1 * 128 + 1 * (j 1).val = (j 1).val; rw [e8]; omega

theorem read_blk5 (t : Fin cfg0.N) (G : S1x128.Idx → EReal) : ((cfg0.win 5).blk t).view.read (Elt Ideal) G = G := by
  obtain ⟨-, -, -, -, -, -, -, -, -, e9, e10⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win0_5.index t 0 * 1 + 1 * (j 0).val = (j 0).val; rw [e9]; omega
  | ⟨1, _⟩ => show win0_5.index t 1 * 128 + 1 * (j 1).val = (j 1).val; rw [e10]; omega

theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

theorem mem_blk4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole (Pipeline.arrRef spec0 4)).slice (win0_4.rect t)).set ↔ _
  rw [View.set_slice_whole, Rect.mem_set_unit]
  exact Iff.rfl

theorem mem_blk5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole (Pipeline.arrRef spec0 5)).slice (win0_5.rect t)).set ↔ _
  rw [View.set_slice_whole, Rect.mem_set_unit]
  exact Iff.rfl

theorem flushed3_eq (t : Fin cfg0.N) :
    (dat0 (F := Ideal) V c).flushed 3 t = ((cfg0.win 3).blk t).view.read (Elt Ideal) (projG V c) := by
  show (cfg0.win 3).cut (grid0.coords t) ((dat0 (F := Ideal) V c).after 3 t) = _
  rw [after0_3, outsAt_3]
  exact read_blk3 t _ _ fun r q i hi => blk_proj V c t r q i hi

-- Row i of the projection lies in the block of point i / 5000.
theorem proj_final : ((dat0 (F := Ideal) V c).arrAt 3 cfg0.N : S100000x128.Idx → EReal) = projG V c :=
  (dat0 (F := Ideal) V c).arrAt_eq_of_cover 3 (projG V c) (fun t _ => flushed3_eq V c t) fun i => by
    have hN : cfg0.N = 20 := N_0
    have hi0 : (i 0).val < 100000 := (i 0).isLt
    have hi1 : (i 1).val < 128 := (i 1).isLt
    have ht : (i 0).val / 5000 < cfg0.N := by omega
    refine ⟨⟨(i 0).val / 5000, ht⟩, flush0_3 _, ?_⟩
    obtain ⟨-, -, -, -, -, e5, e6, -⟩ := idx_facts ⟨(i 0).val / 5000, ht⟩
    rw [mem_blk3]
    intro a
    match a with
    | ⟨0, _⟩ => show win0_3.index ⟨(i 0).val / 5000, ht⟩ 0 * 5000 ≤ (i 0).val ∧ (i 0).val < win0_3.index ⟨(i 0).val / 5000, ht⟩ 0 * 5000 + 5000
                rw [e5]; dsimp only; omega
    | ⟨1, _⟩ => show win0_3.index ⟨(i 0).val / 5000, ht⟩ 1 * 128 ≤ (i 1).val ∧ (i 1).val < win0_3.index ⟨(i 0).val / 5000, ht⟩ 1 * 128 + 128
                rw [e6]; omega

-- After the last point the two rows hold the sums over all 100000 rows.
theorem flushed4_eq (t : Fin cfg0.N) (hf : (cfg0.win 4).flush t = true) :
    (dat0 (F := Ideal) V c).flushed 4 t = ((cfg0.win 4).blk t).view.read (Elt Ideal) (sumG V c) := by
  have hN : cfg0.N = 20 := N_0
  have h19 : t.val = 19 := by have := (flush0_4 t).mp hf; have := t.isLt; omega
  show (cfg0.win 4).cut (grid0.coords t) ((dat0 (F := Ideal) V c).after 4 t) = _
  rw [after0_4, read_blk4]
  refine funext fun (j : S1x128.Idx) => ?_
  obtain ⟨u, q, rfl⟩ : ∃ (u : Fin 1) (q : Fin 128), j = ix2 u q := ⟨j 0, j 1, eq_ix2 j⟩
  refine (outsAt_4 V c t.val t.isLt u q).trans ?_
  rw [h19]
  exact sum_rowFn_all _

theorem sum_final : ((dat0 (F := Ideal) V c).arrAt 4 cfg0.N : S1x128.Idx → EReal) = sumG V c :=
  (dat0 (F := Ideal) V c).arrAt_eq_of_cover 4 (sumG V c) (flushed4_eq V c) fun i => by
    have hN : cfg0.N = 20 := N_0
    have hi0 : (i 0).val < 1 := (i 0).isLt
    have hi1 : (i 1).val < 128 := (i 1).isLt
    have ht : 19 < cfg0.N := by omega
    refine ⟨⟨19, ht⟩, (flush0_4 _).mpr rfl, ?_⟩
    obtain ⟨-, -, -, -, -, -, -, e7, e8, -⟩ := idx_facts ⟨19, ht⟩
    rw [mem_blk4]
    intro a
    match a with
    | ⟨0, _⟩ => show win0_4.index ⟨19, ht⟩ 0 * 1 ≤ (i 0).val ∧ (i 0).val < win0_4.index ⟨19, ht⟩ 0 * 1 + 1
                rw [e7]; omega
    | ⟨1, _⟩ => show win0_4.index ⟨19, ht⟩ 1 * 128 ≤ (i 1).val ∧ (i 1).val < win0_4.index ⟨19, ht⟩ 1 * 128 + 128
                rw [e8]; omega

theorem flushed5_eq (t : Fin cfg0.N) (hf : (cfg0.win 5).flush t = true) :
    (dat0 (F := Ideal) V c).flushed 5 t = ((cfg0.win 5).blk t).view.read (Elt Ideal) (sumsqG V c) := by
  have hN : cfg0.N = 20 := N_0
  have h19 : t.val = 19 := by have := (flush0_5 t).mp hf; have := t.isLt; omega
  show (cfg0.win 5).cut (grid0.coords t) ((dat0 (F := Ideal) V c).after 5 t) = _
  rw [after0_5, read_blk5]
  refine funext fun (j : S1x128.Idx) => ?_
  obtain ⟨u, q, rfl⟩ : ∃ (u : Fin 1) (q : Fin 128), j = ix2 u q := ⟨j 0, j 1, eq_ix2 j⟩
  refine (outsAt_5 V c t.val t.isLt u q).trans ?_
  rw [h19]
  exact sum_rowFn_all _

theorem sumsq_final : ((dat0 (F := Ideal) V c).arrAt 5 cfg0.N : S1x128.Idx → EReal) = sumsqG V c :=
  (dat0 (F := Ideal) V c).arrAt_eq_of_cover 5 (sumsqG V c) (flushed5_eq V c) fun i => by
    have hN : cfg0.N = 20 := N_0
    have hi0 : (i 0).val < 1 := (i 0).isLt
    have hi1 : (i 1).val < 128 := (i 1).isLt
    have ht : 19 < cfg0.N := by omega
    refine ⟨⟨19, ht⟩, (flush0_5 _).mpr rfl, ?_⟩
    obtain ⟨-, -, -, -, -, -, -, -, -, e9, e10⟩ := idx_facts ⟨19, ht⟩
    rw [mem_blk5]
    intro a
    match a with
    | ⟨0, _⟩ => show win0_5.index ⟨19, ht⟩ 0 * 1 ≤ (i 0).val ∧ (i 0).val < win0_5.index ⟨19, ht⟩ 0 * 1 + 1
                rw [e9]; omega
    | ⟨1, _⟩ => show win0_5.index ⟨19, ht⟩ 1 * 128 ≤ (i 1).val ∧ (i 1).val < win0_5.index ⟨19, ht⟩ 1 * 128 + 128
                rw [e10]; omega

end Final

end Cert.KernelIdeal.Region0

end
-- ==== Proof.Region1.lean ====
import proofs.«402048_j34643206209888_3_alg».proof.Proof.Gen.KernelIdeal.Frame
import proofs.«402048_j34643206209888_3_alg».proof.Proof.LibRegion
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.RealArr Cert.KernelIdeal.Stats

section Pieces
variable {F : FTy → Type} [FloatOps F] (c : Dev nD) (i : grid1.Coords)
  (arg1 : Memref sig .tc .vmem S5000x128 .f32) (harg1 : arg1.IsWhole) (arg2 : Memref sig .tc .vmem S128x128 .bf16) (harg2 : arg2.IsWhole)
  (arg3 : Memref sig .tc .vmem S128 .f32) (harg3 : arg3.IsWhole) (arg4 : Memref sig .tc .vmem S5000x128 .f32) (harg4 : arg4.IsWhole)
  (arg5 : Memref sig .tc .vmem S1x128 .f32) (harg5 : arg5.IsWhole) (arg6 : Memref sig .tc .vmem S1x128 .f32) (harg6 : arg6.IsWhole)
  (x0 : Vec F S5000x128 .f32) (x1 : Vec F S128x128 .bf16) (x2 : Vec F S128 .f32)

-- The first point's three results: relu(A_blk W + b), and its column sums and those of its square added to zero rows.
theorem out_A (hc0 : cond1_0 i) :
    (out1_A_3 c i arg1 harg1 arg2 harg2 arg3 harg3 arg4 harg4 arg5 harg5 arg6 harg6 hc0 x0 x1 x2, out1_A_4 c i arg1 harg1 arg2 harg2 arg3 harg3 arg4 harg4 arg5 harg5 arg6 harg6 hc0 x0 x1 x2, out1_A_5 c i arg1 harg1 arg2 harg2 arg3 harg3 arg4 harg4 arg5 harg5 arg6 harg6 hc0 x0 x1 x2)
      = (k1_pay3 x0 x1 x2, k1_pay4 x0 x1 x2 k1_pay1, k1_pay5 x0 x1 x2 k1_pay2) := by
  refine triple_ext ?a ?b ?c
  case' a => unfold out1_A_3; rw [View.read_writes_eq_canon _ _ _ (cover1_A_3 c i arg1 harg1 arg2 harg2 arg3 harg3 arg4 harg4 arg5 harg5 arg6 harg6 hc0 x0 x1 x2)]
  case' b => unfold out1_A_4; rw [View.read_writes_eq_canon _ _ _ (cover1_A_4 c i arg1 harg1 arg2 harg2 arg3 harg3 arg4 harg4 arg5 harg5 arg6 harg6 hc0 x0 x1 x2)]
  case' c => unfold out1_A_5; rw [View.read_writes_eq_canon _ _ _ (cover1_A_5 c i arg1 harg1 arg2 harg2 arg3 harg3 arg4 harg4 arg5 harg5 arg6 harg6 hc0 x0 x1 x2)]
  all_goals
    unfold kernelRun1_A
    dsimp only
    sl_unfold_words
    first | rw [View.canon_unit_zero hz] | rw [View.canon_cons_unit_zero (S := S1x128) hz, View.readCov_unit_zero (S := S1x128) _ hz]
    simp only [View.readAt_eq_ld, harg1.read_unread, harg2.read_unread, harg3.read_unread, harg5.read_unread, harg6.read_unread, View.ld_unit_zero (S := S5000x128) hz, View.ld_unit_zero (S := S128x128) hz, View.ld_unit_zero (S := S128) hz1, View.ld_unit_zero (S := S1x128) hz]

-- A later point's: the same, added to the rows the point before left.
theorem out_B (hc0 : ¬cond1_0 i) (xo4 xo5 : Vec F S1x128 .f32) :
    (out1_B_3 c i arg1 harg1 arg2 harg2 arg3 harg3 arg4 harg4 arg5 harg5 arg6 harg6 hc0 x0 x1 x2 xo4 xo5, out1_B_4 c i arg1 harg1 arg2 harg2 arg3 harg3 arg4 harg4 arg5 harg5 arg6 harg6 hc0 x0 x1 x2 xo4 xo5, out1_B_5 c i arg1 harg1 arg2 harg2 arg3 harg3 arg4 harg4 arg5 harg5 arg6 harg6 hc0 x0 x1 x2 xo4 xo5)
      = (k1_pay3 x0 x1 x2, k1_pay4 x0 x1 x2 xo4, k1_pay5 x0 x1 x2 xo5) := by
  refine triple_ext ?a ?b ?c
  case' a => unfold out1_B_3; rw [View.read_writes_eq_canon _ _ _ (cover1_B_3 c i arg1 harg1 arg2 harg2 arg3 harg3 arg4 harg4 arg5 harg5 arg6 harg6 hc0 x0 x1 x2 xo4 xo5)]
  case' b => unfold out1_B_4; rw [View.read_writes_eq_canon _ _ _ (cover1_B_4 c i arg1 harg1 arg2 harg2 arg3 harg3 arg4 harg4 arg5 harg5 arg6 harg6 hc0 x0 x1 x2 xo4 xo5)]
  case' c => unfold out1_B_5; rw [View.read_writes_eq_canon _ _ _ (cover1_B_5 c i arg1 harg1 arg2 harg2 arg3 harg3 arg4 harg4 arg5 harg5 arg6 harg6 hc0 x0 x1 x2 xo4 xo5)]
  all_goals
    unfold kernelRun1_B
    dsimp only
    sl_unfold_words
    rw [View.canon_unit_zero hz]
    simp only [View.readAt_eq_ld, harg1.read_unread, harg2.read_unread, harg3.read_unread, harg5.read_unread, harg6.read_unread, View.ld_unit_zero (S := S5000x128) hz, View.ld_unit_zero (S := S128x128) hz, View.ld_unit_zero (S := S128) hz1, View.ld_unit_zero (S := S1x128) hz]

end Pieces

section AtIndex
variable (x0 : Vec Ideal S5000x128 .f32) (x1 : Vec Ideal S128x128 .bf16) (x2 : Vec Ideal S128 .f32) (v : Vec Ideal S1x128 .f32) (u : Fin 1) (q : Fin 128)

-- relu of row r of the block against column q of the weights, plus the bias.
theorem pay3_apply (r : Fin 5000) :
    k1_pay3 (F := Ideal) x0 x1 x2 (ix2 r q) = max ((∑ k : Fin 128, x0 (ix2 r k) * x1 (ix2 k q)) + x2 (ix1 q)) 0 := by
  unfold k1_pay3
  simp only [shapeCast_self]
  refine congrArg₂ max (congrArg₂ (· + ·) ?_ ?_) Ideal.ofBits_zero_f32
  · exact matmul_entry128 _ _ r q
  · exact (broadcastTo_1b_ab_apply _ _ r q).trans (shapeCast_a_1a_apply x2 _ (0 : Fin 1) q)

theorem pay1_apply : (k1_pay1 (F := Ideal)) (ix2 u q) = 0 := by
  unfold k1_pay1
  exact Ideal.ofBits_zero_f32

theorem pay2_apply : (k1_pay2 (F := Ideal)) (ix2 u q) = 0 := by
  unfold k1_pay2
  exact Ideal.ofBits_zero_f32

theorem pay4_apply :
    k1_pay4 (F := Ideal) x0 x1 x2 v (ix2 u q) = v (ix2 u q) + ∑ r : Fin 5000, k1_pay3 (F := Ideal) x0 x1 x2 (ix2 r q) :=
  colsum_apply _ v u q

theorem pay5_apply :
    k1_pay5 (F := Ideal) x0 x1 x2 v (ix2 u q)
      = v (ix2 u q) + ∑ r : Fin 5000, k1_pay3 (F := Ideal) x0 x1 x2 (ix2 r q) * k1_pay3 (F := Ideal) x0 x1 x2 (ix2 r q) :=
  colsum_apply (mulf (k1_pay3 (F := Ideal) x0 x1 x2) (k1_pay3 (F := Ideal) x0 x1 x2)) v u q

end AtIndex

section Region
variable (V : (c : Dev nD) → (b : Ref sig .tc) → Buf (Elt Ideal) ((c : Thread nD τ).loc b)) (c : Dev nD)

abbrev Aarr : S100000x128.Idx → EReal := V c (Pipeline.arrRef spec1 0)
abbrev Warr : S128x128.Idx → EReal := V c (Pipeline.arrRef spec1 1)
abbrev barr : S128.Idx → EReal := V c (Pipeline.arrRef spec1 2)
abbrev pAt : Fin 100000 → Fin 128 → EReal := projAt (N := 100000) (D := 128) (H := 128) (Aarr V c) (Warr V c) (barr V c)
abbrev ablk (t : Fin cfg1.N) : Vec Ideal S5000x128 .f32 := iblk1 (F := Ideal) V c 0 t
abbrev wblk (t : Fin cfg1.N) : Vec Ideal S128x128 .bf16 := iblk1 (F := Ideal) V c 1 t
abbrev bblk (t : Fin cfg1.N) : Vec Ideal S128 .f32 := iblk1 (F := Ideal) V c 2 t
abbrev prev (t : Fin cfg1.N) := outsAt1 V c (t.val - 1) (Nat.lt_of_le_of_lt (Nat.sub_le _ _) t.isLt)

theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem ablk_apply (t : Fin cfg1.N) (r : Fin 5000) (k : Fin 128) (i : Fin 100000) (hi : i.val = 5000 * t.val + r.val) :
    ablk V c t (ix2 r k) = Aarr V c (ix2 i k) := by
  obtain ⟨e0, e1, -⟩ := idx_facts t
  show iblk1 (F := Ideal) V c 0 t (ix2 r k) = _
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * r.val = i.val; rw [e0, hi]; omega
  | ⟨1, _⟩ => show win1_0.index t 1 * 128 + 1 * k.val = k.val; rw [e1]; omega

theorem wblk_apply (t : Fin cfg1.N) (k : Fin 128) (q : Fin 128) : wblk V c t (ix2 k q) = Warr V c (ix2 k q) := by
  obtain ⟨-, -, e2, e3, -⟩ := idx_facts t
  show iblk1 (F := Ideal) V c 1 t (ix2 k q) = _
  unfold iblk1
  rw [View.read_apply]
  show V c (Pipeline.arrRef spec1 1) _ = V c (Pipeline.arrRef spec1 1) _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

theorem bblk_apply (t : Fin cfg1.N) (q : Fin 128) : bblk V c t (ix1 q) = barr V c (ix1 q) := by
  obtain ⟨-, -, -, -, e4, -⟩ := idx_facts t
  show iblk1 (F := Ideal) V c 2 t (ix1 q) = _
  unfold iblk1
  rw [View.read_apply]
  show V c (Pipeline.arrRef spec1 2) _ = V c (Pipeline.arrRef spec1 2) _
  congr 1
  funext a
  apply Fin.ext
  match a with
  | ⟨0, _⟩ => show win1_2.index t 0 * 128 + 1 * q.val = q.val; rw [e4]; omega

-- The projection block of point t at (r, q) is the layer's value at row 5000 t + r, column q.
theorem blk_proj (t : Fin cfg1.N) (r : Fin 5000) (q : Fin 128) (i : Fin 100000) (hi : i.val = 5000 * t.val + r.val) :
    k1_pay3 (F := Ideal) (ablk V c t) (wblk V c t) (bblk V c t) (ix2 r q) = pAt V c i q := by
  rw [pay3_apply]
  unfold pAt projAt
  rw [bblk_apply V c t q]
  refine congrArg₂ max (congrArg₂ (· + ·) (Finset.sum_congr rfl fun k _ => ?_) rfl) rfl
  rw [ablk_apply V c t r k i hi, wblk_apply V c t k q]

theorem blk_row {M : Type} [AddCommMonoid M] (φ : EReal → M) (t : Fin cfg1.N) (r : Fin 5000) (q : Fin 128) :
    φ (k1_pay3 (F := Ideal) (ablk V c t) (wblk V c t) (bblk V c t) (ix2 r q)) = rowFn (fun i => φ (pAt V c i q)) (5000 * t.val + r.val) := by
  have hN : cfg1.N = 20 := N_1
  have hr : 5000 * t.val + r.val < 100000 := by have := t.isLt; omega
  rw [rowFn_of_eq _ ⟨_, hr⟩ _ rfl, blk_proj V c t r q ⟨_, hr⟩ rfl]

theorem outs_A (t : Fin cfg1.N) (h0 : t.val % 20 = 0) :
    outsAt1 V c t.val t.isLt = (k1_pay3 (F := Ideal) (ablk V c t) (wblk V c t) (bblk V c t), k1_pay4 (F := Ideal) (ablk V c t) (wblk V c t) (bblk V c t) (k1_pay1 (F := Ideal)), k1_pay5 (F := Ideal) (ablk V c t) (wblk V c t) (bblk V c t) (k1_pay2 (F := Ideal))) :=
  (outsAt1_A V c t h0).trans (out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ablk V c t) (wblk V c t) (bblk V c t) ((hcond1_0 t).mpr h0))

theorem outs_B (t : Fin cfg1.N) (h0 : ¬t.val % 20 = 0) :
    outsAt1 V c t.val t.isLt = (k1_pay3 (F := Ideal) (ablk V c t) (wblk V c t) (bblk V c t), k1_pay4 (F := Ideal) (ablk V c t) (wblk V c t) (bblk V c t) (prev V c t).2.1, k1_pay5 (F := Ideal) (ablk V c t) (wblk V c t) (bblk V c t) (prev V c t).2.2) :=
  (outsAt1_B V c t h0).trans (out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ablk V c t) (wblk V c t) (bblk V c t) (fun h => h0 ((hcond1_0 t).mp h)) (prev V c t).2.1 (prev V c t).2.2)

theorem outsAt_3 (t : Fin cfg1.N) : (outsAt1 V c t.val t.isLt).1 = k1_pay3 (F := Ideal) (ablk V c t) (wblk V c t) (bblk V c t) := by
  by_cases h0 : t.val % 20 = 0
  · rw [outs_A V c t h0]
  · rw [outs_B V c t h0]

-- After point n the sum row holds, in column q, the layer's values summed over the rows below 5000 (n + 1).
theorem outsAt_4 : ∀ (n : ℕ) (h : n < cfg1.N) (u : Fin 1) (q : Fin 128),
    (outsAt1 V c n h).2.1 (ix2 u q) = ∑ i ∈ Finset.range (5000 * (n + 1)), rowFn (fun i => pAt V c i q) i
  | 0, h, u, q => by
    rw [outs_A V c ⟨0, h⟩ rfl]
    dsimp only
    rw [pay4_apply, pay1_apply, zero_add, sum_rowFn_succ, Finset.range_zero, Finset.sum_empty, zero_add]
    exact Finset.sum_congr rfl fun r _ => blk_row V c id ⟨0, h⟩ r q
  | n + 1, h, u, q => by
    have hN : cfg1.N = 20 := N_1
    rw [outs_B V c ⟨n + 1, h⟩ (by dsimp only; omega)]
    dsimp only
    rw [pay4_apply]
    show (outsAt1 V c n _).2.1 (ix2 u q) + _ = _
    rw [outsAt_4 n (Nat.lt_of_succ_lt h) u q, sum_rowFn_succ _ (n + 1)]
    exact congrArg (_ + ·) (Finset.sum_congr rfl fun r _ => blk_row V c id ⟨n + 1, h⟩ r q)

-- The same for the squares.
theorem outsAt_5 : ∀ (n : ℕ) (h : n < cfg1.N) (u : Fin 1) (q : Fin 128),
    (outsAt1 V c n h).2.2 (ix2 u q) = ∑ i ∈ Finset.range (5000 * (n + 1)), rowFn (fun i => pAt V c i q * pAt V c i q) i
  | 0, h, u, q => by
    rw [outs_A V c ⟨0, h⟩ rfl]
    dsimp only
    rw [pay5_apply, pay2_apply, zero_add, sum_rowFn_succ, Finset.range_zero, Finset.sum_empty, zero_add]
    exact Finset.sum_congr rfl fun r _ => blk_row V c (fun x => x * x) ⟨0, h⟩ r q
  | n + 1, h, u, q => by
    have hN : cfg1.N = 20 := N_1
    rw [outs_B V c ⟨n + 1, h⟩ (by dsimp only; omega)]
    dsimp only
    rw [pay5_apply]
    show (outsAt1 V c n _).2.2 (ix2 u q) + _ = _
    rw [outsAt_5 n (Nat.lt_of_succ_lt h) u q, sum_rowFn_succ _ (n + 1)]
    exact congrArg (_ + ·) (Finset.sum_congr rfl fun r _ => blk_row V c (fun x => x * x) ⟨n + 1, h⟩ r q)

end Region

section Final
variable (V : (c : Dev nD) → (b : Ref sig .tc) → Buf (Elt Ideal) ((c : Thread nD τ).loc b)) (c : Dev nD)

abbrev projG : S100000x128.Idx → EReal := fun y => pAt V c (y 0) (y 1)
abbrev sumG : S1x128.Idx → EReal := fun y => ∑ i : Fin 100000, pAt V c i (y 1)
abbrev sumsqG : S1x128.Idx → EReal := fun y => ∑ i : Fin 100000, pAt V c i (y 1) * pAt V c i (y 1)

theorem read_blk3 (t : Fin cfg1.N) (G : S100000x128.Idx → EReal) (X : Vec Ideal S5000x128 .f32)
    (h : ∀ (r : Fin 5000) (q : Fin 128) (i : Fin 100000), i.val = 5000 * t.val + r.val → X (ix2 r q) = G (ix2 i q)) :
    X = ((cfg1.win 3).blk t).view.read (Elt Ideal) G := by
  obtain ⟨-, -, -, -, -, e5, e6, -⟩ := idx_facts t
  have hN : cfg1.N = 20 := N_1
  refine funext fun (j : S5000x128.Idx) => ?_
  obtain ⟨r, q, rfl⟩ : ∃ (r : Fin 5000) (q : Fin 128), j = ix2 r q := ⟨j 0, j 1, eq_ix2 j⟩
  rw [View.read_apply]
  have hr : 5000 * t.val + r.val < 100000 := by have := t.isLt; omega
  refine (h r q ⟨5000 * t.val + r.val, hr⟩ rfl).trans ?_
  show G _ = G _
  congr 1
  funext a
  apply Fin.ext
  match a with
  | ⟨0, _⟩ => show 5000 * t.val + r.val = win1_3.index t 0 * 5000 + 1 * r.val; rw [e5]; omega
  | ⟨1, _⟩ => show q.val = win1_3.index t 1 * 128 + 1 * q.val; rw [e6]; omega

theorem read_blk4 (t : Fin cfg1.N) (G : S1x128.Idx → EReal) : ((cfg1.win 4).blk t).view.read (Elt Ideal) G = G := by
  obtain ⟨-, -, -, -, -, -, -, e7, e8, -⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win1_4.index t 0 * 1 + 1 * (j 0).val = (j 0).val; rw [e7]; omega
  | ⟨1, _⟩ => show win1_4.index t 1 * 128 + 1 * (j 1).val = (j 1).val; rw [e8]; omega

theorem read_blk5 (t : Fin cfg1.N) (G : S1x128.Idx → EReal) : ((cfg1.win 5).blk t).view.read (Elt Ideal) G = G := by
  obtain ⟨-, -, -, -, -, -, -, -, -, e9, e10⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win1_5.index t 0 * 1 + 1 * (j 0).val = (j 0).val; rw [e9]; omega
  | ⟨1, _⟩ => show win1_5.index t 1 * 128 + 1 * (j 1).val = (j 1).val; rw [e10]; omega

theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

theorem mem_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole (Pipeline.arrRef spec1 4)).slice (win1_4.rect t)).set ↔ _
  rw [View.set_slice_whole, Rect.mem_set_unit]
  exact Iff.rfl

theorem mem_blk5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole (Pipeline.arrRef spec1 5)).slice (win1_5.rect t)).set ↔ _
  rw [View.set_slice_whole, Rect.mem_set_unit]
  exact Iff.rfl

theorem flushed3_eq (t : Fin cfg1.N) :
    (dat1 (F := Ideal) V c).flushed 3 t = ((cfg1.win 3).blk t).view.read (Elt Ideal) (projG V c) := by
  show (cfg1.win 3).cut (grid1.coords t) ((dat1 (F := Ideal) V c).after 3 t) = _
  rw [after1_3, outsAt_3]
  exact read_blk3 t _ _ fun r q i hi => blk_proj V c t r q i hi

-- Row i of the projection lies in the block of point i / 5000.
theorem proj_final : ((dat1 (F := Ideal) V c).arrAt 3 cfg1.N : S100000x128.Idx → EReal) = projG V c :=
  (dat1 (F := Ideal) V c).arrAt_eq_of_cover 3 (projG V c) (fun t _ => flushed3_eq V c t) fun i => by
    have hN : cfg1.N = 20 := N_1
    have hi0 : (i 0).val < 100000 := (i 0).isLt
    have hi1 : (i 1).val < 128 := (i 1).isLt
    have ht : (i 0).val / 5000 < cfg1.N := by omega
    refine ⟨⟨(i 0).val / 5000, ht⟩, flush1_3 _, ?_⟩
    obtain ⟨-, -, -, -, -, e5, e6, -⟩ := idx_facts ⟨(i 0).val / 5000, ht⟩
    rw [mem_blk3]
    intro a
    match a with
    | ⟨0, _⟩ => show win1_3.index ⟨(i 0).val / 5000, ht⟩ 0 * 5000 ≤ (i 0).val ∧ (i 0).val < win1_3.index ⟨(i 0).val / 5000, ht⟩ 0 * 5000 + 5000
                rw [e5]; dsimp only; omega
    | ⟨1, _⟩ => show win1_3.index ⟨(i 0).val / 5000, ht⟩ 1 * 128 ≤ (i 1).val ∧ (i 1).val < win1_3.index ⟨(i 0).val / 5000, ht⟩ 1 * 128 + 128
                rw [e6]; omega

-- After the last point the two rows hold the sums over all 100000 rows.
theorem flushed4_eq (t : Fin cfg1.N) (hf : (cfg1.win 4).flush t = true) :
    (dat1 (F := Ideal) V c).flushed 4 t = ((cfg1.win 4).blk t).view.read (Elt Ideal) (sumG V c) := by
  have hN : cfg1.N = 20 := N_1
  have h19 : t.val = 19 := by have := (flush1_4 t).mp hf; have := t.isLt; omega
  show (cfg1.win 4).cut (grid1.coords t) ((dat1 (F := Ideal) V c).after 4 t) = _
  rw [after1_4, read_blk4]
  refine funext fun (j : S1x128.Idx) => ?_
  obtain ⟨u, q, rfl⟩ : ∃ (u : Fin 1) (q : Fin 128), j = ix2 u q := ⟨j 0, j 1, eq_ix2 j⟩
  refine (outsAt_4 V c t.val t.isLt u q).trans ?_
  rw [h19]
  exact sum_rowFn_all _

theorem sum_final : ((dat1 (F := Ideal) V c).arrAt 4 cfg1.N : S1x128.Idx → EReal) = sumG V c :=
  (dat1 (F := Ideal) V c).arrAt_eq_of_cover 4 (sumG V c) (flushed4_eq V c) fun i => by
    have hN : cfg1.N = 20 := N_1
    have hi0 : (i 0).val < 1 := (i 0).isLt
    have hi1 : (i 1).val < 128 := (i 1).isLt
    have ht : 19 < cfg1.N := by omega
    refine ⟨⟨19, ht⟩, (flush1_4 _).mpr rfl, ?_⟩
    obtain ⟨-, -, -, -, -, -, -, e7, e8, -⟩ := idx_facts ⟨19, ht⟩
    rw [mem_blk4]
    intro a
    match a with
    | ⟨0, _⟩ => show win1_4.index ⟨19, ht⟩ 0 * 1 ≤ (i 0).val ∧ (i 0).val < win1_4.index ⟨19, ht⟩ 0 * 1 + 1
                rw [e7]; omega
    | ⟨1, _⟩ => show win1_4.index ⟨19, ht⟩ 1 * 128 ≤ (i 1).val ∧ (i 1).val < win1_4.index ⟨19, ht⟩ 1 * 128 + 128
                rw [e8]; omega

theorem flushed5_eq (t : Fin cfg1.N) (hf : (cfg1.win 5).flush t = true) :
    (dat1 (F := Ideal) V c).flushed 5 t = ((cfg1.win 5).blk t).view.read (Elt Ideal) (sumsqG V c) := by
  have hN : cfg1.N = 20 := N_1
  have h19 : t.val = 19 := by have := (flush1_5 t).mp hf; have := t.isLt; omega
  show (cfg1.win 5).cut (grid1.coords t) ((dat1 (F := Ideal) V c).after 5 t) = _
  rw [after1_5, read_blk5]
  refine funext fun (j : S1x128.Idx) => ?_
  obtain ⟨u, q, rfl⟩ : ∃ (u : Fin 1) (q : Fin 128), j = ix2 u q := ⟨j 0, j 1, eq_ix2 j⟩
  refine (outsAt_5 V c t.val t.isLt u q).trans ?_
  rw [h19]
  exact sum_rowFn_all _

theorem sumsq_final : ((dat1 (F := Ideal) V c).arrAt 5 cfg1.N : S1x128.Idx → EReal) = sumsqG V c :=
  (dat1 (F := Ideal) V c).arrAt_eq_of_cover 5 (sumsqG V c) (flushed5_eq V c) fun i => by
    have hN : cfg1.N = 20 := N_1
    have hi0 : (i 0).val < 1 := (i 0).isLt
    have hi1 : (i 1).val < 128 := (i 1).isLt
    have ht : 19 < cfg1.N := by omega
    refine ⟨⟨19, ht⟩, (flush1_5 _).mpr rfl, ?_⟩
    obtain ⟨-, -, -, -, -, -, -, -, -, e9, e10⟩ := idx_facts ⟨19, ht⟩
    rw [mem_blk5]
    intro a
    match a with
    | ⟨0, _⟩ => show win1_5.index ⟨19, ht⟩ 0 * 1 ≤ (i 0).val ∧ (i 0).val < win1_5.index ⟨19, ht⟩ 0 * 1 + 1
                rw [e9]; omega
    | ⟨1, _⟩ => show win1_5.index ⟨19, ht⟩ 1 * 128 ≤ (i 1).val ∧ (i 1).val < win1_5.index ⟨19, ht⟩ 1 * 128 + 128
                rw [e10]; omega

end Final

end Cert.KernelIdeal.Region1

end
-- ==== Proof.Region2.lean ====
import proofs.«402048_j34643206209888_3_alg».proof.Proof.Gen.KernelIdeal.Frame
import proofs.«402048_j34643206209888_3_alg».proof.Proof.LibRegion
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.RealArr Cert.KernelIdeal.Stats

section Pieces
variable {F : FTy → Type} [FloatOps F] (c : Dev nD) (i : grid2.Coords)
  (arg1 : Memref sig .tc .vmem S5000x128 .f32) (harg1 : arg1.IsWhole) (arg2 : Memref sig .tc .vmem S128x128 .bf16) (harg2 : arg2.IsWhole)
  (arg3 : Memref sig .tc .vmem S128 .f32) (harg3 : arg3.IsWhole) (arg4 : Memref sig .tc .vmem S5000x128 .f32) (harg4 : arg4.IsWhole)
  (arg5 : Memref sig .tc .vmem S1x128 .f32) (harg5 : arg5.IsWhole) (arg6 : Memref sig .tc .vmem S1x128 .f32) (harg6 : arg6.IsWhole)
  (x0 : Vec F S5000x128 .f32) (x1 : Vec F S128x128 .bf16) (x2 : Vec F S128 .f32)

-- The first point's three results: relu(A_blk W + b), and its column sums and those of its square added to zero rows.
theorem out_A (hc0 : cond2_0 i) :
    (out2_A_3 c i arg1 harg1 arg2 harg2 arg3 harg3 arg4 harg4 arg5 harg5 arg6 harg6 hc0 x0 x1 x2, out2_A_4 c i arg1 harg1 arg2 harg2 arg3 harg3 arg4 harg4 arg5 harg5 arg6 harg6 hc0 x0 x1 x2, out2_A_5 c i arg1 harg1 arg2 harg2 arg3 harg3 arg4 harg4 arg5 harg5 arg6 harg6 hc0 x0 x1 x2)
      = (k2_pay3 x0 x1 x2, k2_pay4 x0 x1 x2 k2_pay1, k2_pay5 x0 x1 x2 k2_pay2) := by
  refine triple_ext ?a ?b ?c
  case' a => unfold out2_A_3; rw [View.read_writes_eq_canon _ _ _ (cover2_A_3 c i arg1 harg1 arg2 harg2 arg3 harg3 arg4 harg4 arg5 harg5 arg6 harg6 hc0 x0 x1 x2)]
  case' b => unfold out2_A_4; rw [View.read_writes_eq_canon _ _ _ (cover2_A_4 c i arg1 harg1 arg2 harg2 arg3 harg3 arg4 harg4 arg5 harg5 arg6 harg6 hc0 x0 x1 x2)]
  case' c => unfold out2_A_5; rw [View.read_writes_eq_canon _ _ _ (cover2_A_5 c i arg1 harg1 arg2 harg2 arg3 harg3 arg4 harg4 arg5 harg5 arg6 harg6 hc0 x0 x1 x2)]
  all_goals
    unfold kernelRun2_A
    dsimp only
    sl_unfold_words
    first | rw [View.canon_unit_zero hz] | rw [View.canon_cons_unit_zero (S := S1x128) hz, View.readCov_unit_zero (S := S1x128) _ hz]
    simp only [View.readAt_eq_ld, harg1.read_unread, harg2.read_unread, harg3.read_unread, harg5.read_unread, harg6.read_unread, View.ld_unit_zero (S := S5000x128) hz, View.ld_unit_zero (S := S128x128) hz, View.ld_unit_zero (S := S128) hz1, View.ld_unit_zero (S := S1x128) hz]

-- A later point's: the same, added to the rows the point before left.
theorem out_B (hc0 : ¬cond2_0 i) (xo4 xo5 : Vec F S1x128 .f32) :
    (out2_B_3 c i arg1 harg1 arg2 harg2 arg3 harg3 arg4 harg4 arg5 harg5 arg6 harg6 hc0 x0 x1 x2 xo4 xo5, out2_B_4 c i arg1 harg1 arg2 harg2 arg3 harg3 arg4 harg4 arg5 harg5 arg6 harg6 hc0 x0 x1 x2 xo4 xo5, out2_B_5 c i arg1 harg1 arg2 harg2 arg3 harg3 arg4 harg4 arg5 harg5 arg6 harg6 hc0 x0 x1 x2 xo4 xo5)
      = (k2_pay3 x0 x1 x2, k2_pay4 x0 x1 x2 xo4, k2_pay5 x0 x1 x2 xo5) := by
  refine triple_ext ?a ?b ?c
  case' a => unfold out2_B_3; rw [View.read_writes_eq_canon _ _ _ (cover2_B_3 c i arg1 harg1 arg2 harg2 arg3 harg3 arg4 harg4 arg5 harg5 arg6 harg6 hc0 x0 x1 x2 xo4 xo5)]
  case' b => unfold out2_B_4; rw [View.read_writes_eq_canon _ _ _ (cover2_B_4 c i arg1 harg1 arg2 harg2 arg3 harg3 arg4 harg4 arg5 harg5 arg6 harg6 hc0 x0 x1 x2 xo4 xo5)]
  case' c => unfold out2_B_5; rw [View.read_writes_eq_canon _ _ _ (cover2_B_5 c i arg1 harg1 arg2 harg2 arg3 harg3 arg4 harg4 arg5 harg5 arg6 harg6 hc0 x0 x1 x2 xo4 xo5)]
  all_goals
    unfold kernelRun2_B
    dsimp only
    sl_unfold_words
    rw [View.canon_unit_zero hz]
    simp only [View.readAt_eq_ld, harg1.read_unread, harg2.read_unread, harg3.read_unread, harg5.read_unread, harg6.read_unread, View.ld_unit_zero (S := S5000x128) hz, View.ld_unit_zero (S := S128x128) hz, View.ld_unit_zero (S := S128) hz1, View.ld_unit_zero (S := S1x128) hz]

end Pieces

section AtIndex
variable (x0 : Vec Ideal S5000x128 .f32) (x1 : Vec Ideal S128x128 .bf16) (x2 : Vec Ideal S128 .f32) (v : Vec Ideal S1x128 .f32) (u : Fin 1) (q : Fin 128)

-- relu of row r of the block against column q of the weights, plus the bias.
theorem pay3_apply (r : Fin 5000) :
    k2_pay3 (F := Ideal) x0 x1 x2 (ix2 r q) = max ((∑ k : Fin 128, x0 (ix2 r k) * x1 (ix2 k q)) + x2 (ix1 q)) 0 := by
  unfold k2_pay3
  simp only [shapeCast_self]
  refine congrArg₂ max (congrArg₂ (· + ·) ?_ ?_) Ideal.ofBits_zero_f32
  · exact matmul_entry128 _ _ r q
  · exact (broadcastTo_1b_ab_apply _ _ r q).trans (shapeCast_a_1a_apply x2 _ (0 : Fin 1) q)

theorem pay1_apply : (k2_pay1 (F := Ideal)) (ix2 u q) = 0 := by
  unfold k2_pay1
  exact Ideal.ofBits_zero_f32

theorem pay2_apply : (k2_pay2 (F := Ideal)) (ix2 u q) = 0 := by
  unfold k2_pay2
  exact Ideal.ofBits_zero_f32

theorem pay4_apply :
    k2_pay4 (F := Ideal) x0 x1 x2 v (ix2 u q) = v (ix2 u q) + ∑ r : Fin 5000, k2_pay3 (F := Ideal) x0 x1 x2 (ix2 r q) :=
  colsum_apply _ v u q

theorem pay5_apply :
    k2_pay5 (F := Ideal) x0 x1 x2 v (ix2 u q)
      = v (ix2 u q) + ∑ r : Fin 5000, k2_pay3 (F := Ideal) x0 x1 x2 (ix2 r q) * k2_pay3 (F := Ideal) x0 x1 x2 (ix2 r q) :=
  colsum_apply (mulf (k2_pay3 (F := Ideal) x0 x1 x2) (k2_pay3 (F := Ideal) x0 x1 x2)) v u q

end AtIndex

section Region
variable (V : (c : Dev nD) → (b : Ref sig .tc) → Buf (Elt Ideal) ((c : Thread nD τ).loc b)) (c : Dev nD)

abbrev Aarr : S100000x128.Idx → EReal := V c (Pipeline.arrRef spec2 0)
abbrev Warr : S128x128.Idx → EReal := V c (Pipeline.arrRef spec2 1)
abbrev barr : S128.Idx → EReal := V c (Pipeline.arrRef spec2 2)
abbrev pAt : Fin 100000 → Fin 128 → EReal := projAt (N := 100000) (D := 128) (H := 128) (Aarr V c) (Warr V c) (barr V c)
abbrev ablk (t : Fin cfg2.N) : Vec Ideal S5000x128 .f32 := iblk2 (F := Ideal) V c 0 t
abbrev wblk (t : Fin cfg2.N) : Vec Ideal S128x128 .bf16 := iblk2 (F := Ideal) V c 1 t
abbrev bblk (t : Fin cfg2.N) : Vec Ideal S128 .f32 := iblk2 (F := Ideal) V c 2 t
abbrev prev (t : Fin cfg2.N) := outsAt2 V c (t.val - 1) (Nat.lt_of_le_of_lt (Nat.sub_le _ _) t.isLt)

theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem ablk_apply (t : Fin cfg2.N) (r : Fin 5000) (k : Fin 128) (i : Fin 100000) (hi : i.val = 5000 * t.val + r.val) :
    ablk V c t (ix2 r k) = Aarr V c (ix2 i k) := by
  obtain ⟨e0, e1, -⟩ := idx_facts t
  show iblk2 (F := Ideal) V c 0 t (ix2 r k) = _
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * r.val = i.val; rw [e0, hi]; omega
  | ⟨1, _⟩ => show win2_0.index t 1 * 128 + 1 * k.val = k.val; rw [e1]; omega

theorem wblk_apply (t : Fin cfg2.N) (k : Fin 128) (q : Fin 128) : wblk V c t (ix2 k q) = Warr V c (ix2 k q) := by
  obtain ⟨-, -, e2, e3, -⟩ := idx_facts t
  show iblk2 (F := Ideal) V c 1 t (ix2 k q) = _
  unfold iblk2
  rw [View.read_apply]
  show V c (Pipeline.arrRef spec2 1) _ = V c (Pipeline.arrRef spec2 1) _
  congr 1
  funext a
  apply Fin.ext
  match a with
  | ⟨0, _⟩ => show win2_1.index t 0 * 128 + 1 * k.val = k.val; rw [e2]; omega
  | ⟨1, _⟩ => show win2_1.index t 1 * 128 + 1 * q.val = q.val; rw [e3]; omega

theorem bblk_apply (t : Fin cfg2.N) (q : Fin 128) : bblk V c t (ix1 q) = barr V c (ix1 q) := by
  obtain ⟨-, -, -, -, e4, -⟩ := idx_facts t
  show iblk2 (F := Ideal) V c 2 t (ix1 q) = _
  unfold iblk2
  rw [View.read_apply]
  show V c (Pipeline.arrRef spec2 2) _ = V c (Pipeline.arrRef spec2 2) _
  congr 1
  funext a
  apply Fin.ext
  match a with
  | ⟨0, _⟩ => show win2_2.index t 0 * 128 + 1 * q.val = q.val; rw [e4]; omega

-- The projection block of point t at (r, q) is the layer's value at row 5000 t + r, column q.
theorem blk_proj (t : Fin cfg2.N) (r : Fin 5000) (q : Fin 128) (i : Fin 100000) (hi : i.val = 5000 * t.val + r.val) :
    k2_pay3 (F := Ideal) (ablk V c t) (wblk V c t) (bblk V c t) (ix2 r q) = pAt V c i q := by
  rw [pay3_apply]
  unfold pAt projAt
  rw [bblk_apply V c t q]
  refine congrArg₂ max (congrArg₂ (· + ·) (Finset.sum_congr rfl fun k _ => ?_) rfl) rfl
  rw [ablk_apply V c t r k i hi, wblk_apply V c t k q]

theorem blk_row {M : Type} [AddCommMonoid M] (φ : EReal → M) (t : Fin cfg2.N) (r : Fin 5000) (q : Fin 128) :
    φ (k2_pay3 (F := Ideal) (ablk V c t) (wblk V c t) (bblk V c t) (ix2 r q)) = rowFn (fun i => φ (pAt V c i q)) (5000 * t.val + r.val) := by
  have hN : cfg2.N = 20 := N_2
  have hr : 5000 * t.val + r.val < 100000 := by have := t.isLt; omega
  rw [rowFn_of_eq _ ⟨_, hr⟩ _ rfl, blk_proj V c t r q ⟨_, hr⟩ rfl]

theorem outs_A (t : Fin cfg2.N) (h0 : t.val % 20 = 0) :
    outsAt2 V c t.val t.isLt = (k2_pay3 (F := Ideal) (ablk V c t) (wblk V c t) (bblk V c t), k2_pay4 (F := Ideal) (ablk V c t) (wblk V c t) (bblk V c t) (k2_pay1 (F := Ideal)), k2_pay5 (F := Ideal) (ablk V c t) (wblk V c t) (bblk V c t) (k2_pay2 (F := Ideal))) :=
  (outsAt2_A V c t h0).trans (out_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ablk V c t) (wblk V c t) (bblk V c t) ((hcond2_0 t).mpr h0))

theorem outs_B (t : Fin cfg2.N) (h0 : ¬t.val % 20 = 0) :
    outsAt2 V c t.val t.isLt = (k2_pay3 (F := Ideal) (ablk V c t) (wblk V c t) (bblk V c t), k2_pay4 (F := Ideal) (ablk V c t) (wblk V c t) (bblk V c t) (prev V c t).2.1, k2_pay5 (F := Ideal) (ablk V c t) (wblk V c t) (bblk V c t) (prev V c t).2.2) :=
  (outsAt2_B V c t h0).trans (out_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ablk V c t) (wblk V c t) (bblk V c t) (fun h => h0 ((hcond2_0 t).mp h)) (prev V c t).2.1 (prev V c t).2.2)

theorem outsAt_3 (t : Fin cfg2.N) : (outsAt2 V c t.val t.isLt).1 = k2_pay3 (F := Ideal) (ablk V c t) (wblk V c t) (bblk V c t) := by
  by_cases h0 : t.val % 20 = 0
  · rw [outs_A V c t h0]
  · rw [outs_B V c t h0]

-- After point n the sum row holds, in column q, the layer's values summed over the rows below 5000 (n + 1).
theorem outsAt_4 : ∀ (n : ℕ) (h : n < cfg2.N) (u : Fin 1) (q : Fin 128),
    (outsAt2 V c n h).2.1 (ix2 u q) = ∑ i ∈ Finset.range (5000 * (n + 1)), rowFn (fun i => pAt V c i q) i
  | 0, h, u, q => by
    rw [outs_A V c ⟨0, h⟩ rfl]
    dsimp only
    rw [pay4_apply, pay1_apply, zero_add, sum_rowFn_succ, Finset.range_zero, Finset.sum_empty, zero_add]
    exact Finset.sum_congr rfl fun r _ => blk_row V c id ⟨0, h⟩ r q
  | n + 1, h, u, q => by
    have hN : cfg2.N = 20 := N_2
    rw [outs_B V c ⟨n + 1, h⟩ (by dsimp only; omega)]
    dsimp only
    rw [pay4_apply]
    show (outsAt2 V c n _).2.1 (ix2 u q) + _ = _
    rw [outsAt_4 n (Nat.lt_of_succ_lt h) u q, sum_rowFn_succ _ (n + 1)]
    exact congrArg (_ + ·) (Finset.sum_congr rfl fun r _ => blk_row V c id ⟨n + 1, h⟩ r q)

-- The same for the squares.
theorem outsAt_5 : ∀ (n : ℕ) (h : n < cfg2.N) (u : Fin 1) (q : Fin 128),
    (outsAt2 V c n h).2.2 (ix2 u q) = ∑ i ∈ Finset.range (5000 * (n + 1)), rowFn (fun i => pAt V c i q * pAt V c i q) i
  | 0, h, u, q => by
    rw [outs_A V c ⟨0, h⟩ rfl]
    dsimp only
    rw [pay5_apply, pay2_apply, zero_add, sum_rowFn_succ, Finset.range_zero, Finset.sum_empty, zero_add]
    exact Finset.sum_congr rfl fun r _ => blk_row V c (fun x => x * x) ⟨0, h⟩ r q
  | n + 1, h, u, q => by
    have hN : cfg2.N = 20 := N_2
    rw [outs_B V c ⟨n + 1, h⟩ (by dsimp only; omega)]
    dsimp only
    rw [pay5_apply]
    show (outsAt2 V c n _).2.2 (ix2 u q) + _ = _
    rw [outsAt_5 n (Nat.lt_of_succ_lt h) u q, sum_rowFn_succ _ (n + 1)]
    exact congrArg (_ + ·) (Finset.sum_congr rfl fun r _ => blk_row V c (fun x => x * x) ⟨n + 1, h⟩ r q)

end Region

section Final
variable (V : (c : Dev nD) → (b : Ref sig .tc) → Buf (Elt Ideal) ((c : Thread nD τ).loc b)) (c : Dev nD)

abbrev projG : S100000x128.Idx → EReal := fun y => pAt V c (y 0) (y 1)
abbrev sumG : S1x128.Idx → EReal := fun y => ∑ i : Fin 100000, pAt V c i (y 1)
abbrev sumsqG : S1x128.Idx → EReal := fun y => ∑ i : Fin 100000, pAt V c i (y 1) * pAt V c i (y 1)

theorem read_blk3 (t : Fin cfg2.N) (G : S100000x128.Idx → EReal) (X : Vec Ideal S5000x128 .f32)
    (h : ∀ (r : Fin 5000) (q : Fin 128) (i : Fin 100000), i.val = 5000 * t.val + r.val → X (ix2 r q) = G (ix2 i q)) :
    X = ((cfg2.win 3).blk t).view.read (Elt Ideal) G := by
  obtain ⟨-, -, -, -, -, e5, e6, -⟩ := idx_facts t
  have hN : cfg2.N = 20 := N_2
  refine funext fun (j : S5000x128.Idx) => ?_
  obtain ⟨r, q, rfl⟩ : ∃ (r : Fin 5000) (q : Fin 128), j = ix2 r q := ⟨j 0, j 1, eq_ix2 j⟩
  rw [View.read_apply]
  have hr : 5000 * t.val + r.val < 100000 := by have := t.isLt; omega
  refine (h r q ⟨5000 * t.val + r.val, hr⟩ rfl).trans ?_
  show G _ = G _
  congr 1
  funext a
  apply Fin.ext
  match a with
  | ⟨0, _⟩ => show 5000 * t.val + r.val = win2_3.index t 0 * 5000 + 1 * r.val; rw [e5]; omega
  | ⟨1, _⟩ => show q.val = win2_3.index t 1 * 128 + 1 * q.val; rw [e6]; omega

theorem read_blk4 (t : Fin cfg2.N) (G : S1x128.Idx → EReal) : ((cfg2.win 4).blk t).view.read (Elt Ideal) G = G := by
  obtain ⟨-, -, -, -, -, -, -, e7, e8, -⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win2_4.index t 0 * 1 + 1 * (j 0).val = (j 0).val; rw [e7]; omega
  | ⟨1, _⟩ => show win2_4.index t 1 * 128 + 1 * (j 1).val = (j 1).val; rw [e8]; omega

theorem read_blk5 (t : Fin cfg2.N) (G : S1x128.Idx → EReal) : ((cfg2.win 5).blk t).view.read (Elt Ideal) G = G := by
  obtain ⟨-, -, -, -, -, -, -, -, -, e9, e10⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win2_5.index t 0 * 1 + 1 * (j 0).val = (j 0).val; rw [e9]; omega
  | ⟨1, _⟩ => show win2_5.index t 1 * 128 + 1 * (j 1).val = (j 1).val; rw [e10]; omega

theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

theorem mem_blk4 (t : Fin cfg2.N) (i : S1x128.Idx) :
    i ∈ ((cfg2.win 4).blk t).view.set ↔ ∀ a : Fin 2, win2_4.index t a * S1x128.size a ≤ (i a).val ∧ (i a).val < win2_4.index t a * S1x128.size a + S1x128.size a := by
  show i ∈ ((View.whole (Pipeline.arrRef spec2 4)).slice (win2_4.rect t)).set ↔ _
  rw [View.set_slice_whole, Rect.mem_set_unit]
  exact Iff.rfl

theorem mem_blk5 (t : Fin cfg2.N) (i : S1x128.Idx) :
    i ∈ ((cfg2.win 5).blk t).view.set ↔ ∀ a : Fin 2, win2_5.index t a * S1x128.size a ≤ (i a).val ∧ (i a).val < win2_5.index t a * S1x128.size a + S1x128.size a := by
  show i ∈ ((View.whole (Pipeline.arrRef spec2 5)).slice (win2_5.rect t)).set ↔ _
  rw [View.set_slice_whole, Rect.mem_set_unit]
  exact Iff.rfl

theorem flushed3_eq (t : Fin cfg2.N) :
    (dat2 (F := Ideal) V c).flushed 3 t = ((cfg2.win 3).blk t).view.read (Elt Ideal) (projG V c) := by
  show (cfg2.win 3).cut (grid2.coords t) ((dat2 (F := Ideal) V c).after 3 t) = _
  rw [after2_3, outsAt_3]
  exact read_blk3 t _ _ fun r q i hi => blk_proj V c t r q i hi

-- Row i of the projection lies in the block of point i / 5000.
theorem proj_final : ((dat2 (F := Ideal) V c).arrAt 3 cfg2.N : S100000x128.Idx → EReal) = projG V c :=
  (dat2 (F := Ideal) V c).arrAt_eq_of_cover 3 (projG V c) (fun t _ => flushed3_eq V c t) fun i => by
    have hN : cfg2.N = 20 := N_2
    have hi0 : (i 0).val < 100000 := (i 0).isLt
    have hi1 : (i 1).val < 128 := (i 1).isLt
    have ht : (i 0).val / 5000 < cfg2.N := by omega
    refine ⟨⟨(i 0).val / 5000, ht⟩, flush2_3 _, ?_⟩
    obtain ⟨-, -, -, -, -, e5, e6, -⟩ := idx_facts ⟨(i 0).val / 5000, ht⟩
    rw [mem_blk3]
    intro a
    match a with
    | ⟨0, _⟩ => show win2_3.index ⟨(i 0).val / 5000, ht⟩ 0 * 5000 ≤ (i 0).val ∧ (i 0).val < win2_3.index ⟨(i 0).val / 5000, ht⟩ 0 * 5000 + 5000
                rw [e5]; dsimp only; omega
    | ⟨1, _⟩ => show win2_3.index ⟨(i 0).val / 5000, ht⟩ 1 * 128 ≤ (i 1).val ∧ (i 1).val < win2_3.index ⟨(i 0).val / 5000, ht⟩ 1 * 128 + 128
                rw [e6]; omega

-- After the last point the two rows hold the sums over all 100000 rows.
theorem flushed4_eq (t : Fin cfg2.N) (hf : (cfg2.win 4).flush t = true) :
    (dat2 (F := Ideal) V c).flushed 4 t = ((cfg2.win 4).blk t).view.read (Elt Ideal) (sumG V c) := by
  have hN : cfg2.N = 20 := N_2
  have h19 : t.val = 19 := by have := (flush2_4 t).mp hf; have := t.isLt; omega
  show (cfg2.win 4).cut (grid2.coords t) ((dat2 (F := Ideal) V c).after 4 t) = _
  rw [after2_4, read_blk4]
  refine funext fun (j : S1x128.Idx) => ?_
  obtain ⟨u, q, rfl⟩ : ∃ (u : Fin 1) (q : Fin 128), j = ix2 u q := ⟨j 0, j 1, eq_ix2 j⟩
  refine (outsAt_4 V c t.val t.isLt u q).trans ?_
  rw [h19]
  exact sum_rowFn_all _

theorem sum_final : ((dat2 (F := Ideal) V c).arrAt 4 cfg2.N : S1x128.Idx → EReal) = sumG V c :=
  (dat2 (F := Ideal) V c).arrAt_eq_of_cover 4 (sumG V c) (flushed4_eq V c) fun i => by
    have hN : cfg2.N = 20 := N_2
    have hi0 : (i 0).val < 1 := (i 0).isLt
    have hi1 : (i 1).val < 128 := (i 1).isLt
    have ht : 19 < cfg2.N := by omega
    refine ⟨⟨19, ht⟩, (flush2_4 _).mpr rfl, ?_⟩
    obtain ⟨-, -, -, -, -, -, -, e7, e8, -⟩ := idx_facts ⟨19, ht⟩
    rw [mem_blk4]
    intro a
    match a with
    | ⟨0, _⟩ => show win2_4.index ⟨19, ht⟩ 0 * 1 ≤ (i 0).val ∧ (i 0).val < win2_4.index ⟨19, ht⟩ 0 * 1 + 1
                rw [e7]; omega
    | ⟨1, _⟩ => show win2_4.index ⟨19, ht⟩ 1 * 128 ≤ (i 1).val ∧ (i 1).val < win2_4.index ⟨19, ht⟩ 1 * 128 + 128
                rw [e8]; omega

theorem flushed5_eq (t : Fin cfg2.N) (hf : (cfg2.win 5).flush t = true) :
    (dat2 (F := Ideal) V c).flushed 5 t = ((cfg2.win 5).blk t).view.read (Elt Ideal) (sumsqG V c) := by
  have hN : cfg2.N = 20 := N_2
  have h19 : t.val = 19 := by have := (flush2_5 t).mp hf; have := t.isLt; omega
  show (cfg2.win 5).cut (grid2.coords t) ((dat2 (F := Ideal) V c).after 5 t) = _
  rw [after2_5, read_blk5]
  refine funext fun (j : S1x128.Idx) => ?_
  obtain ⟨u, q, rfl⟩ : ∃ (u : Fin 1) (q : Fin 128), j = ix2 u q := ⟨j 0, j 1, eq_ix2 j⟩
  refine (outsAt_5 V c t.val t.isLt u q).trans ?_
  rw [h19]
  exact sum_rowFn_all _

theorem sumsq_final : ((dat2 (F := Ideal) V c).arrAt 5 cfg2.N : S1x128.Idx → EReal) = sumsqG V c :=
  (dat2 (F := Ideal) V c).arrAt_eq_of_cover 5 (sumsqG V c) (flushed5_eq V c) fun i => by
    have hN : cfg2.N = 20 := N_2
    have hi0 : (i 0).val < 1 := (i 0).isLt
    have hi1 : (i 1).val < 128 := (i 1).isLt
    have ht : 19 < cfg2.N := by omega
    refine ⟨⟨19, ht⟩, (flush2_5 _).mpr rfl, ?_⟩
    obtain ⟨-, -, -, -, -, -, -, -, -, e9, e10⟩ := idx_facts ⟨19, ht⟩
    rw [mem_blk5]
    intro a
    match a with
    | ⟨0, _⟩ => show win2_5.index ⟨19, ht⟩ 0 * 1 ≤ (i 0).val ∧ (i 0).val < win2_5.index ⟨19, ht⟩ 0 * 1 + 1
                rw [e9]; omega
    | ⟨1, _⟩ => show win2_5.index ⟨19, ht⟩ 1 * 128 ≤ (i 1).val ∧ (i 1).val < win2_5.index ⟨19, ht⟩ 1 * 128 + 128
                rw [e10]; omega

end Final

end Cert.KernelIdeal.Region2

end
-- ==== Proof.Region3.lean ====
import proofs.«402048_j34643206209888_3_alg».proof.Proof.Gen.KernelIdeal.Frame
import proofs.«402048_j34643206209888_3_alg».proof.Proof.LibRegion
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.RealArr Cert.KernelIdeal.Stats

section Pieces
variable {F : FTy → Type} [FloatOps F] (c : Dev nD) (i : grid3.Coords)
  (arg1 : Memref sig .tc .vmem S5000x128 .f32) (harg1 : arg1.IsWhole) (arg2 : Memref sig .tc .vmem S128x128 .bf16) (harg2 : arg2.IsWhole)
  (arg3 : Memref sig .tc .vmem S128 .f32) (harg3 : arg3.IsWhole) (arg4 : Memref sig .tc .vmem S5000x128 .f32) (harg4 : arg4.IsWhole)
  (arg5 : Memref sig .tc .vmem S1x128 .f32) (harg5 : arg5.IsWhole) (arg6 : Memref sig .tc .vmem S1x128 .f32) (harg6 : arg6.IsWhole)
  (x0 : Vec F S5000x128 .f32) (x1 : Vec F S128x128 .bf16) (x2 : Vec F S128 .f32)

-- The first point's three results: relu(A_blk W + b), and its column sums and those of its square added to zero rows.
theorem out_A (hc0 : cond3_0 i) :
    (out3_A_3 c i arg1 harg1 arg2 harg2 arg3 harg3 arg4 harg4 arg5 harg5 arg6 harg6 hc0 x0 x1 x2, out3_A_4 c i arg1 harg1 arg2 harg2 arg3 harg3 arg4 harg4 arg5 harg5 arg6 harg6 hc0 x0 x1 x2, out3_A_5 c i arg1 harg1 arg2 harg2 arg3 harg3 arg4 harg4 arg5 harg5 arg6 harg6 hc0 x0 x1 x2)
      = (k3_pay3 x0 x1 x2, k3_pay4 x0 x1 x2 k3_pay1, k3_pay5 x0 x1 x2 k3_pay2) := by
  refine triple_ext ?a ?b ?c
  case' a => unfold out3_A_3; rw [View.read_writes_eq_canon _ _ _ (cover3_A_3 c i arg1 harg1 arg2 harg2 arg3 harg3 arg4 harg4 arg5 harg5 arg6 harg6 hc0 x0 x1 x2)]
  case' b => unfold out3_A_4; rw [View.read_writes_eq_canon _ _ _ (cover3_A_4 c i arg1 harg1 arg2 harg2 arg3 harg3 arg4 harg4 arg5 harg5 arg6 harg6 hc0 x0 x1 x2)]
  case' c => unfold out3_A_5; rw [View.read_writes_eq_canon _ _ _ (cover3_A_5 c i arg1 harg1 arg2 harg2 arg3 harg3 arg4 harg4 arg5 harg5 arg6 harg6 hc0 x0 x1 x2)]
  all_goals
    unfold kernelRun3_A
    dsimp only
    sl_unfold_words
    first | rw [View.canon_unit_zero hz] | rw [View.canon_cons_unit_zero (S := S1x128) hz, View.readCov_unit_zero (S := S1x128) _ hz]
    simp only [View.readAt_eq_ld, harg1.read_unread, harg2.read_unread, harg3.read_unread, harg5.read_unread, harg6.read_unread, View.ld_unit_zero (S := S5000x128) hz, View.ld_unit_zero (S := S128x128) hz, View.ld_unit_zero (S := S128) hz1, View.ld_unit_zero (S := S1x128) hz]

-- A later point's: the same, added to the rows the point before left.
theorem out_B (hc0 : ¬cond3_0 i) (xo4 xo5 : Vec F S1x128 .f32) :
    (out3_B_3 c i arg1 harg1 arg2 harg2 arg3 harg3 arg4 harg4 arg5 harg5 arg6 harg6 hc0 x0 x1 x2 xo4 xo5, out3_B_4 c i arg1 harg1 arg2 harg2 arg3 harg3 arg4 harg4 arg5 harg5 arg6 harg6 hc0 x0 x1 x2 xo4 xo5, out3_B_5 c i arg1 harg1 arg2 harg2 arg3 harg3 arg4 harg4 arg5 harg5 arg6 harg6 hc0 x0 x1 x2 xo4 xo5)
      = (k3_pay3 x0 x1 x2, k3_pay4 x0 x1 x2 xo4, k3_pay5 x0 x1 x2 xo5) := by
  refine triple_ext ?a ?b ?c
  case' a => unfold out3_B_3; rw [View.read_writes_eq_canon _ _ _ (cover3_B_3 c i arg1 harg1 arg2 harg2 arg3 harg3 arg4 harg4 arg5 harg5 arg6 harg6 hc0 x0 x1 x2 xo4 xo5)]
  case' b => unfold out3_B_4; rw [View.read_writes_eq_canon _ _ _ (cover3_B_4 c i arg1 harg1 arg2 harg2 arg3 harg3 arg4 harg4 arg5 harg5 arg6 harg6 hc0 x0 x1 x2 xo4 xo5)]
  case' c => unfold out3_B_5; rw [View.read_writes_eq_canon _ _ _ (cover3_B_5 c i arg1 harg1 arg2 harg2 arg3 harg3 arg4 harg4 arg5 harg5 arg6 harg6 hc0 x0 x1 x2 xo4 xo5)]
  all_goals
    unfold kernelRun3_B
    dsimp only
    sl_unfold_words
    rw [View.canon_unit_zero hz]
    simp only [View.readAt_eq_ld, harg1.read_unread, harg2.read_unread, harg3.read_unread, harg5.read_unread, harg6.read_unread, View.ld_unit_zero (S := S5000x128) hz, View.ld_unit_zero (S := S128x128) hz, View.ld_unit_zero (S := S128) hz1, View.ld_unit_zero (S := S1x128) hz]

end Pieces

section AtIndex
variable (x0 : Vec Ideal S5000x128 .f32) (x1 : Vec Ideal S128x128 .bf16) (x2 : Vec Ideal S128 .f32) (v : Vec Ideal S1x128 .f32) (u : Fin 1) (q : Fin 128)

-- relu of row r of the block against column q of the weights, plus the bias.
theorem pay3_apply (r : Fin 5000) :
    k3_pay3 (F := Ideal) x0 x1 x2 (ix2 r q) = max ((∑ k : Fin 128, x0 (ix2 r k) * x1 (ix2 k q)) + x2 (ix1 q)) 0 := by
  unfold k3_pay3
  simp only [shapeCast_self]
  refine congrArg₂ max (congrArg₂ (· + ·) ?_ ?_) Ideal.ofBits_zero_f32
  · exact matmul_entry128 _ _ r q
  · exact (broadcastTo_1b_ab_apply _ _ r q).trans (shapeCast_a_1a_apply x2 _ (0 : Fin 1) q)

theorem pay1_apply : (k3_pay1 (F := Ideal)) (ix2 u q) = 0 := by
  unfold k3_pay1
  exact Ideal.ofBits_zero_f32

theorem pay2_apply : (k3_pay2 (F := Ideal)) (ix2 u q) = 0 := by
  unfold k3_pay2
  exact Ideal.ofBits_zero_f32

theorem pay4_apply :
    k3_pay4 (F := Ideal) x0 x1 x2 v (ix2 u q) = v (ix2 u q) + ∑ r : Fin 5000, k3_pay3 (F := Ideal) x0 x1 x2 (ix2 r q) :=
  colsum_apply _ v u q

theorem pay5_apply :
    k3_pay5 (F := Ideal) x0 x1 x2 v (ix2 u q)
      = v (ix2 u q) + ∑ r : Fin 5000, k3_pay3 (F := Ideal) x0 x1 x2 (ix2 r q) * k3_pay3 (F := Ideal) x0 x1 x2 (ix2 r q) :=
  colsum_apply (mulf (k3_pay3 (F := Ideal) x0 x1 x2) (k3_pay3 (F := Ideal) x0 x1 x2)) v u q

end AtIndex

section Region
variable (V : (c : Dev nD) → (b : Ref sig .tc) → Buf (Elt Ideal) ((c : Thread nD τ).loc b)) (c : Dev nD)

abbrev Aarr : S100000x128.Idx → EReal := V c (Pipeline.arrRef spec3 0)
abbrev Warr : S128x128.Idx → EReal := V c (Pipeline.arrRef spec3 1)
abbrev barr : S128.Idx → EReal := V c (Pipeline.arrRef spec3 2)
abbrev pAt : Fin 100000 → Fin 128 → EReal := projAt (N := 100000) (D := 128) (H := 128) (Aarr V c) (Warr V c) (barr V c)
abbrev ablk (t : Fin cfg3.N) : Vec Ideal S5000x128 .f32 := iblk3 (F := Ideal) V c 0 t
abbrev wblk (t : Fin cfg3.N) : Vec Ideal S128x128 .bf16 := iblk3 (F := Ideal) V c 1 t
abbrev bblk (t : Fin cfg3.N) : Vec Ideal S128 .f32 := iblk3 (F := Ideal) V c 2 t
abbrev prev (t : Fin cfg3.N) := outsAt3 V c (t.val - 1) (Nat.lt_of_le_of_lt (Nat.sub_le _ _) t.isLt)

theorem idx_facts : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem ablk_apply (t : Fin cfg3.N) (r : Fin 5000) (k : Fin 128) (i : Fin 100000) (hi : i.val = 5000 * t.val + r.val) :
    ablk V c t (ix2 r k) = Aarr V c (ix2 i k) := by
  obtain ⟨e0, e1, -⟩ := idx_facts t
  show iblk3 (F := Ideal) V c 0 t (ix2 r k) = _
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * r.val = i.val; rw [e0, hi]; omega
  | ⟨1, _⟩ => show win3_0.index t 1 * 128 + 1 * k.val = k.val; rw [e1]; omega

theorem wblk_apply (t : Fin cfg3.N) (k : Fin 128) (q : Fin 128) : wblk V c t (ix2 k q) = Warr V c (ix2 k q) := by
  obtain ⟨-, -, e2, e3, -⟩ := idx_facts t
  show iblk3 (F := Ideal) V c 1 t (ix2 k q) = _
  unfold iblk3
  rw [View.read_apply]
  show V c (Pipeline.arrRef spec3 1) _ = V c (Pipeline.arrRef spec3 1) _
  congr 1
  funext a
  apply Fin.ext
  match a with
  | ⟨0, _⟩ => show win3_1.index t 0 * 128 + 1 * k.val = k.val; rw [e2]; omega
  | ⟨1, _⟩ => show win3_1.index t 1 * 128 + 1 * q.val = q.val; rw [e3]; omega

theorem bblk_apply (t : Fin cfg3.N) (q : Fin 128) : bblk V c t (ix1 q) = barr V c (ix1 q) := by
  obtain ⟨-, -, -, -, e4, -⟩ := idx_facts t
  show iblk3 (F := Ideal) V c 2 t (ix1 q) = _
  unfold iblk3
  rw [View.read_apply]
  show V c (Pipeline.arrRef spec3 2) _ = V c (Pipeline.arrRef spec3 2) _
  congr 1
  funext a
  apply Fin.ext
  match a with
  | ⟨0, _⟩ => show win3_2.index t 0 * 128 + 1 * q.val = q.val; rw [e4]; omega

-- The projection block of point t at (r, q) is the layer's value at row 5000 t + r, column q.
theorem blk_proj (t : Fin cfg3.N) (r : Fin 5000) (q : Fin 128) (i : Fin 100000) (hi : i.val = 5000 * t.val + r.val) :
    k3_pay3 (F := Ideal) (ablk V c t) (wblk V c t) (bblk V c t) (ix2 r q) = pAt V c i q := by
  rw [pay3_apply]
  unfold pAt projAt
  rw [bblk_apply V c t q]
  refine congrArg₂ max (congrArg₂ (· + ·) (Finset.sum_congr rfl fun k _ => ?_) rfl) rfl
  rw [ablk_apply V c t r k i hi, wblk_apply V c t k q]

theorem blk_row {M : Type} [AddCommMonoid M] (φ : EReal → M) (t : Fin cfg3.N) (r : Fin 5000) (q : Fin 128) :
    φ (k3_pay3 (F := Ideal) (ablk V c t) (wblk V c t) (bblk V c t) (ix2 r q)) = rowFn (fun i => φ (pAt V c i q)) (5000 * t.val + r.val) := by
  have hN : cfg3.N = 20 := N_3
  have hr : 5000 * t.val + r.val < 100000 := by have := t.isLt; omega
  rw [rowFn_of_eq _ ⟨_, hr⟩ _ rfl, blk_proj V c t r q ⟨_, hr⟩ rfl]

theorem outs_A (t : Fin cfg3.N) (h0 : t.val % 20 = 0) :
    outsAt3 V c t.val t.isLt = (k3_pay3 (F := Ideal) (ablk V c t) (wblk V c t) (bblk V c t), k3_pay4 (F := Ideal) (ablk V c t) (wblk V c t) (bblk V c t) (k3_pay1 (F := Ideal)), k3_pay5 (F := Ideal) (ablk V c t) (wblk V c t) (bblk V c t) (k3_pay2 (F := Ideal))) :=
  (outsAt3_A V c t h0).trans (out_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ablk V c t) (wblk V c t) (bblk V c t) ((hcond3_0 t).mpr h0))

theorem outs_B (t : Fin cfg3.N) (h0 : ¬t.val % 20 = 0) :
    outsAt3 V c t.val t.isLt = (k3_pay3 (F := Ideal) (ablk V c t) (wblk V c t) (bblk V c t), k3_pay4 (F := Ideal) (ablk V c t) (wblk V c t) (bblk V c t) (prev V c t).2.1, k3_pay5 (F := Ideal) (ablk V c t) (wblk V c t) (bblk V c t) (prev V c t).2.2) :=
  (outsAt3_B V c t h0).trans (out_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ablk V c t) (wblk V c t) (bblk V c t) (fun h => h0 ((hcond3_0 t).mp h)) (prev V c t).2.1 (prev V c t).2.2)

theorem outsAt_3 (t : Fin cfg3.N) : (outsAt3 V c t.val t.isLt).1 = k3_pay3 (F := Ideal) (ablk V c t) (wblk V c t) (bblk V c t) := by
  by_cases h0 : t.val % 20 = 0
  · rw [outs_A V c t h0]
  · rw [outs_B V c t h0]

-- After point n the sum row holds, in column q, the layer's values summed over the rows below 5000 (n + 1).
theorem outsAt_4 : ∀ (n : ℕ) (h : n < cfg3.N) (u : Fin 1) (q : Fin 128),
    (outsAt3 V c n h).2.1 (ix2 u q) = ∑ i ∈ Finset.range (5000 * (n + 1)), rowFn (fun i => pAt V c i q) i
  | 0, h, u, q => by
    rw [outs_A V c ⟨0, h⟩ rfl]
    dsimp only
    rw [pay4_apply, pay1_apply, zero_add, sum_rowFn_succ, Finset.range_zero, Finset.sum_empty, zero_add]
    exact Finset.sum_congr rfl fun r _ => blk_row V c id ⟨0, h⟩ r q
  | n + 1, h, u, q => by
    have hN : cfg3.N = 20 := N_3
    rw [outs_B V c ⟨n + 1, h⟩ (by dsimp only; omega)]
    dsimp only
    rw [pay4_apply]
    show (outsAt3 V c n _).2.1 (ix2 u q) + _ = _
    rw [outsAt_4 n (Nat.lt_of_succ_lt h) u q, sum_rowFn_succ _ (n + 1)]
    exact congrArg (_ + ·) (Finset.sum_congr rfl fun r _ => blk_row V c id ⟨n + 1, h⟩ r q)

-- The same for the squares.
theorem outsAt_5 : ∀ (n : ℕ) (h : n < cfg3.N) (u : Fin 1) (q : Fin 128),
    (outsAt3 V c n h).2.2 (ix2 u q) = ∑ i ∈ Finset.range (5000 * (n + 1)), rowFn (fun i => pAt V c i q * pAt V c i q) i
  | 0, h, u, q => by
    rw [outs_A V c ⟨0, h⟩ rfl]
    dsimp only
    rw [pay5_apply, pay2_apply, zero_add, sum_rowFn_succ, Finset.range_zero, Finset.sum_empty, zero_add]
    exact Finset.sum_congr rfl fun r _ => blk_row V c (fun x => x * x) ⟨0, h⟩ r q
  | n + 1, h, u, q => by
    have hN : cfg3.N = 20 := N_3
    rw [outs_B V c ⟨n + 1, h⟩ (by dsimp only; omega)]
    dsimp only
    rw [pay5_apply]
    show (outsAt3 V c n _).2.2 (ix2 u q) + _ = _
    rw [outsAt_5 n (Nat.lt_of_succ_lt h) u q, sum_rowFn_succ _ (n + 1)]
    exact congrArg (_ + ·) (Finset.sum_congr rfl fun r _ => blk_row V c (fun x => x * x) ⟨n + 1, h⟩ r q)

end Region

section Final
variable (V : (c : Dev nD) → (b : Ref sig .tc) → Buf (Elt Ideal) ((c : Thread nD τ).loc b)) (c : Dev nD)

abbrev projG : S100000x128.Idx → EReal := fun y => pAt V c (y 0) (y 1)
abbrev sumG : S1x128.Idx → EReal := fun y => ∑ i : Fin 100000, pAt V c i (y 1)
abbrev sumsqG : S1x128.Idx → EReal := fun y => ∑ i : Fin 100000, pAt V c i (y 1) * pAt V c i (y 1)

theorem read_blk3 (t : Fin cfg3.N) (G : S100000x128.Idx → EReal) (X : Vec Ideal S5000x128 .f32)
    (h : ∀ (r : Fin 5000) (q : Fin 128) (i : Fin 100000), i.val = 5000 * t.val + r.val → X (ix2 r q) = G (ix2 i q)) :
    X = ((cfg3.win 3).blk t).view.read (Elt Ideal) G := by
  obtain ⟨-, -, -, -, -, e5, e6, -⟩ := idx_facts t
  have hN : cfg3.N = 20 := N_3
  refine funext fun (j : S5000x128.Idx) => ?_
  obtain ⟨r, q, rfl⟩ : ∃ (r : Fin 5000) (q : Fin 128), j = ix2 r q := ⟨j 0, j 1, eq_ix2 j⟩
  rw [View.read_apply]
  have hr : 5000 * t.val + r.val < 100000 := by have := t.isLt; omega
  refine (h r q ⟨5000 * t.val + r.val, hr⟩ rfl).trans ?_
  show G _ = G _
  congr 1
  funext a
  apply Fin.ext
  match a with
  | ⟨0, _⟩ => show 5000 * t.val + r.val = win3_3.index t 0 * 5000 + 1 * r.val; rw [e5]; omega
  | ⟨1, _⟩ => show q.val = win3_3.index t 1 * 128 + 1 * q.val; rw [e6]; omega

theorem read_blk4 (t : Fin cfg3.N) (G : S1x128.Idx → EReal) : ((cfg3.win 4).blk t).view.read (Elt Ideal) G = G := by
  obtain ⟨-, -, -, -, -, -, -, e7, e8, -⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win3_4.index t 0 * 1 + 1 * (j 0).val = (j 0).val; rw [e7]; omega
  | ⟨1, _⟩ => show win3_4.index t 1 * 128 + 1 * (j 1).val = (j 1).val; rw [e8]; omega

theorem read_blk5 (t : Fin cfg3.N) (G : S1x128.Idx → EReal) : ((cfg3.win 5).blk t).view.read (Elt Ideal) G = G := by
  obtain ⟨-, -, -, -, -, -, -, -, -, e9, e10⟩ := idx_facts t
  refine funext fun (j : S1x128.Idx) => ?_
  rw [View.read_apply]
  show G _ = G _
  congr 1
  funext a
  apply Fin.ext
  have h0 : (j 0).val < 1 := (j 0).isLt
  match a with
  | ⟨0, _⟩ => show win3_5.index t 0 * 1 + 1 * (j 0).val = (j 0).val; rw [e9]; omega
  | ⟨1, _⟩ => show win3_5.index t 1 * 128 + 1 * (j 1).val = (j 1).val; rw [e10]; omega

theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

theorem mem_blk4 (t : Fin cfg3.N) (i : S1x128.Idx) :
    i ∈ ((cfg3.win 4).blk t).view.set ↔ ∀ a : Fin 2, win3_4.index t a * S1x128.size a ≤ (i a).val ∧ (i a).val < win3_4.index t a * S1x128.size a + S1x128.size a := by
  show i ∈ ((View.whole (Pipeline.arrRef spec3 4)).slice (win3_4.rect t)).set ↔ _
  rw [View.set_slice_whole, Rect.mem_set_unit]
  exact Iff.rfl

theorem mem_blk5 (t : Fin cfg3.N) (i : S1x128.Idx) :
    i ∈ ((cfg3.win 5).blk t).view.set ↔ ∀ a : Fin 2, win3_5.index t a * S1x128.size a ≤ (i a).val ∧ (i a).val < win3_5.index t a * S1x128.size a + S1x128.size a := by
  show i ∈ ((View.whole (Pipeline.arrRef spec3 5)).slice (win3_5.rect t)).set ↔ _
  rw [View.set_slice_whole, Rect.mem_set_unit]
  exact Iff.rfl

theorem flushed3_eq (t : Fin cfg3.N) :
    (dat3 (F := Ideal) V c).flushed 3 t = ((cfg3.win 3).blk t).view.read (Elt Ideal) (projG V c) := by
  show (cfg3.win 3).cut (grid3.coords t) ((dat3 (F := Ideal) V c).after 3 t) = _
  rw [after3_3, outsAt_3]
  exact read_blk3 t _ _ fun r q i hi => blk_proj V c t r q i hi

-- Row i of the projection lies in the block of point i / 5000.
theorem proj_final : ((dat3 (F := Ideal) V c).arrAt 3 cfg3.N : S100000x128.Idx → EReal) = projG V c :=
  (dat3 (F := Ideal) V c).arrAt_eq_of_cover 3 (projG V c) (fun t _ => flushed3_eq V c t) fun i => by
    have hN : cfg3.N = 20 := N_3
    have hi0 : (i 0).val < 100000 := (i 0).isLt
    have hi1 : (i 1).val < 128 := (i 1).isLt
    have ht : (i 0).val / 5000 < cfg3.N := by omega
    refine ⟨⟨(i 0).val / 5000, ht⟩, flush3_3 _, ?_⟩
    obtain ⟨-, -, -, -, -, e5, e6, -⟩ := idx_facts ⟨(i 0).val / 5000, ht⟩
    rw [mem_blk3]
    intro a
    match a with
    | ⟨0, _⟩ => show win3_3.index ⟨(i 0).val / 5000, ht⟩ 0 * 5000 ≤ (i 0).val ∧ (i 0).val < win3_3.index ⟨(i 0).val / 5000, ht⟩ 0 * 5000 + 5000
                rw [e5]; dsimp only; omega
    | ⟨1, _⟩ => show win3_3.index ⟨(i 0).val / 5000, ht⟩ 1 * 128 ≤ (i 1).val ∧ (i 1).val < win3_3.index ⟨(i 0).val / 5000, ht⟩ 1 * 128 + 128
                rw [e6]; omega

-- After the last point the two rows hold the sums over all 100000 rows.
theorem flushed4_eq (t : Fin cfg3.N) (hf : (cfg3.win 4).flush t = true) :
    (dat3 (F := Ideal) V c).flushed 4 t = ((cfg3.win 4).blk t).view.read (Elt Ideal) (sumG V c) := by
  have hN : cfg3.N = 20 := N_3
  have h19 : t.val = 19 := by have := (flush3_4 t).mp hf; have := t.isLt; omega
  show (cfg3.win 4).cut (grid3.coords t) ((dat3 (F := Ideal) V c).after 4 t) = _
  rw [after3_4, read_blk4]
  refine funext fun (j : S1x128.Idx) => ?_
  obtain ⟨u, q, rfl⟩ : ∃ (u : Fin 1) (q : Fin 128), j = ix2 u q := ⟨j 0, j 1, eq_ix2 j⟩
  refine (outsAt_4 V c t.val t.isLt u q).trans ?_
  rw [h19]
  exact sum_rowFn_all _

theorem sum_final : ((dat3 (F := Ideal) V c).arrAt 4 cfg3.N : S1x128.Idx → EReal) = sumG V c :=
  (dat3 (F := Ideal) V c).arrAt_eq_of_cover 4 (sumG V c) (flushed4_eq V c) fun i => by
    have hN : cfg3.N = 20 := N_3
    have hi0 : (i 0).val < 1 := (i 0).isLt
    have hi1 : (i 1).val < 128 := (i 1).isLt
    have ht : 19 < cfg3.N := by omega
    refine ⟨⟨19, ht⟩, (flush3_4 _).mpr rfl, ?_⟩
    obtain ⟨-, -, -, -, -, -, -, e7, e8, -⟩ := idx_facts ⟨19, ht⟩
    rw [mem_blk4]
    intro a
    match a with
    | ⟨0, _⟩ => show win3_4.index ⟨19, ht⟩ 0 * 1 ≤ (i 0).val ∧ (i 0).val < win3_4.index ⟨19, ht⟩ 0 * 1 + 1
                rw [e7]; omega
    | ⟨1, _⟩ => show win3_4.index ⟨19, ht⟩ 1 * 128 ≤ (i 1).val ∧ (i 1).val < win3_4.index ⟨19, ht⟩ 1 * 128 + 128
                rw [e8]; omega

theorem flushed5_eq (t : Fin cfg3.N) (hf : (cfg3.win 5).flush t = true) :
    (dat3 (F := Ideal) V c).flushed 5 t = ((cfg3.win 5).blk t).view.read (Elt Ideal) (sumsqG V c) := by
  have hN : cfg3.N = 20 := N_3
  have h19 : t.val = 19 := by have := (flush3_5 t).mp hf; have := t.isLt; omega
  show (cfg3.win 5).cut (grid3.coords t) ((dat3 (F := Ideal) V c).after 5 t) = _
  rw [after3_5, read_blk5]
  refine funext fun (j : S1x128.Idx) => ?_
  obtain ⟨u, q, rfl⟩ : ∃ (u : Fin 1) (q : Fin 128), j = ix2 u q := ⟨j 0, j 1, eq_ix2 j⟩
  refine (outsAt_5 V c t.val t.isLt u q).trans ?_
  rw [h19]
  exact sum_rowFn_all _

theorem sumsq_final : ((dat3 (F := Ideal) V c).arrAt 5 cfg3.N : S1x128.Idx → EReal) = sumsqG V c :=
  (dat3 (F := Ideal) V c).arrAt_eq_of_cover 5 (sumsqG V c) (flushed5_eq V c) fun i => by
    have hN : cfg3.N = 20 := N_3
    have hi0 : (i 0).val < 1 := (i 0).isLt
    have hi1 : (i 1).val < 128 := (i 1).isLt
    have ht : 19 < cfg3.N := by omega
    refine ⟨⟨19, ht⟩, (flush3_5 _).mpr rfl, ?_⟩
    obtain ⟨-, -, -, -, -, -, -, -, -, e9, e10⟩ := idx_facts ⟨19, ht⟩
    rw [mem_blk5]
    intro a
    match a with
    | ⟨0, _⟩ => show win3_5.index ⟨19, ht⟩ 0 * 1 ≤ (i 0).val ∧ (i 0).val < win3_5.index ⟨19, ht⟩ 0 * 1 + 1
                rw [e9]; omega
    | ⟨1, _⟩ => show win3_5.index ⟨19, ht⟩ 1 * 128 ≤ (i 1).val ∧ (i 1).val < win3_5.index ⟨19, ht⟩ 1 * 128 + 128
                rw [e10]; omega

end Final

end Cert.KernelIdeal.Region3

end
-- ==== Proof.KernelValue.lean ====
import proofs.«402048_j34643206209888_3_alg».proof.Proof.Tops
import proofs.«402048_j34643206209888_3_alg».proof.Proof.Gen.KernelIdeal.Frame
import proofs.«402048_j34643206209888_3_alg».proof.Proof.Region0
import proofs.«402048_j34643206209888_3_alg».proof.Proof.Region1
import proofs.«402048_j34643206209888_3_alg».proof.Proof.Region2
import proofs.«402048_j34643206209888_3_alg».proof.Proof.Region3
import Idealize.ShloMosaic.Lib.StableHlo.Run

set_option maxRecDepth 16384

noncomputable section

namespace Cert.KernelIdeal.ChainV

open Idealize.ShloMosaic Idealize.ShloMosaic.TcCoe Idealize.ShloMosaic.StableHlo
open Cert.KernelIdeal Cert.KernelIdeal.Gen

section Reads
variable {F : FTy → Type} [FloatOps F]

set_option maxHeartbeats 2000000 in

theorem read0_src (V : Valuation τ sig (Elt F)) :
    after hostOps0_2 (after hostOps0_1 (after hostOps0 V)) (Proc.devRef .tc main_v3) = Cert.SpecK.srcWords (V (Proc.devRef .tc main_arg1)) := by
  after_results_simp
  rfl

set_option maxHeartbeats 2000000 in

theorem read0_dst (V : Valuation τ sig (Elt F)) :
    after hostOps0_2 (after hostOps0_1 (after hostOps0 V)) (Proc.devRef .tc main_v6) = Cert.SpecK.dstWords (V (Proc.devRef .tc main_arg1)) := by
  after_results_simp
  rfl

set_option maxHeartbeats 2000000 in

theorem read0_nu (V : Valuation τ sig (Elt F)) :
    after hostOps0_2 (after hostOps0_1 (after hostOps0 V)) (Proc.devRef .tc main_v26) = Cert.SpecK.edgeNorm (Cert.SpecK.dstWords (V (Proc.devRef .tc main_arg1))) (Cert.SpecK.srcWords (V (Proc.devRef .tc main_arg1))) := by
  after_results_simp
  rfl

set_option maxHeartbeats 2000000 in

theorem read0_agg (V : Valuation τ sig (Elt F)) :
    after hostOps0_2 (after hostOps0_1 (after hostOps0 V)) (Proc.devRef .tc main_v58)
      = Cert.SpecK.aggregate16 (Cert.SpecK.srcWords (V (Proc.devRef .tc main_arg1)))
          (Cert.SpecK.inputNorm (V (Proc.devRef .tc main_arg0)) (V (Proc.devRef .tc main_arg15)) (V (Proc.devRef .tc main_arg16)))
          (Cert.SpecK.edgeNorm (Cert.SpecK.dstWords (V (Proc.devRef .tc main_arg1))) (Cert.SpecK.srcWords (V (Proc.devRef .tc main_arg1)))) (Cert.SpecK.dstWords (V (Proc.devRef .tc main_arg1))) := by
  after_results_simp
  rfl

set_option maxHeartbeats 2000000 in

theorem read0_w (V : Valuation τ sig (Elt F)) :
    after hostOps0_2 (after hostOps0_1 (after hostOps0 V)) (Proc.devRef .tc main_v59) = Cert.SpecK.castW16 (V (Proc.devRef .tc main_arg3)) := by
  after_results_simp
  rfl

set_option maxHeartbeats 2000000 in

theorem read1_agg (V : Valuation τ sig (Elt F)) :
    after hostOps1 V (Proc.devRef .tc main_v98)
      = Cert.SpecK.aggregate128 (V (Proc.devRef .tc main_v3))
          (Cert.SpecK.normFromSums (V (Proc.devRef .tc main_v60_1)) (V (Proc.devRef .tc main_v60_2)) (V (Proc.devRef .tc main_v60_0)) (V (Proc.devRef .tc main_arg17)) (V (Proc.devRef .tc main_arg18)))
          (V (Proc.devRef .tc main_v26)) (V (Proc.devRef .tc main_v6)) := by
  after_results_simp
  rfl

set_option maxHeartbeats 2000000 in

theorem read1_w (V : Valuation τ sig (Elt F)) :
    after hostOps1 V (Proc.devRef .tc main_v99) = Cert.SpecK.castW128 (V (Proc.devRef .tc main_arg5)) := by
  after_results_simp
  rfl

set_option maxHeartbeats 2000000 in

theorem read2_agg (V : Valuation τ sig (Elt F)) :
    after hostOps2 V (Proc.devRef .tc main_v138)
      = Cert.SpecK.aggregate128 (V (Proc.devRef .tc main_v3))
          (Cert.SpecK.normFromSums (V (Proc.devRef .tc main_v100_1)) (V (Proc.devRef .tc main_v100_2)) (V (Proc.devRef .tc main_v100_0)) (V (Proc.devRef .tc main_arg19)) (V (Proc.devRef .tc main_arg20)))
          (V (Proc.devRef .tc main_v26)) (V (Proc.devRef .tc main_v6)) := by
  after_results_simp
  rfl

set_option maxHeartbeats 2000000 in

theorem read2_w (V : Valuation τ sig (Elt F)) :
    after hostOps2 V (Proc.devRef .tc main_v139) = Cert.SpecK.castW128 (V (Proc.devRef .tc main_arg7)) := by
  after_results_simp
  rfl

set_option maxHeartbeats 2000000 in

theorem read3_agg (V : Valuation τ sig (Elt F)) :
    after hostOps3 V (Proc.devRef .tc main_v178)
      = Cert.SpecK.aggregate128 (V (Proc.devRef .tc main_v3))
          (Cert.SpecK.normFromSums (V (Proc.devRef .tc main_v140_1)) (V (Proc.devRef .tc main_v140_2)) (V (Proc.devRef .tc main_v140_0)) (V (Proc.devRef .tc main_arg21)) (V (Proc.devRef .tc main_arg22)))
          (V (Proc.devRef .tc main_v26)) (V (Proc.devRef .tc main_v6)) := by
  after_results_simp
  rfl

set_option maxHeartbeats 2000000 in

theorem read3_w (V : Valuation τ sig (Elt F)) :
    after hostOps3 V (Proc.devRef .tc main_v179) = Cert.SpecK.castW128 (V (Proc.devRef .tc main_arg9)) := by
  after_results_simp
  rfl

set_option maxHeartbeats 2000000 in

theorem read4_out (V : Valuation τ sig (Elt F)) :
    after hostOps4_4 (after hostOps4_3 (after hostOps4_2 (after hostOps4_1 (after hostOps4 V)))) (Proc.devRef .tc main_v245)
      = Cert.SpecK.readout (V (Proc.devRef .tc main_arg2))
          (Cert.SpecK.normFromSums (V (Proc.devRef .tc main_v180_1)) (V (Proc.devRef .tc main_v180_2)) (V (Proc.devRef .tc main_v180_0)) (V (Proc.devRef .tc main_arg23)) (V (Proc.devRef .tc main_arg24)))
          (V (Proc.devRef .tc main_arg11)) (V (Proc.devRef .tc main_arg12)) (V (Proc.devRef .tc main_arg25)) (V (Proc.devRef .tc main_arg26)) (V (Proc.devRef .tc main_arg13)) (V (Proc.devRef .tc main_arg14)) := by
  after_results_simp
  rfl

end Reads

section Pass
variable {F : FTy → Type} [FloatOps F]

theorem writes_sub_of {Val : EltTy → Type} {op : HloOp τ sig Val} {y : Ref sig .tc} {W : List (Ref sig .tc)}
    (hw : op.writes = {Proc.devRef .tc y}) (h : y ∈ W) :
    op.writes ⊆ (W.map (Proc.devRef (τ := τ) .tc)).toFinset := by
  rw [hw, Finset.singleton_subset_iff]
  exact List.mem_toFinset.mpr (List.mem_map_of_mem h)

noncomputable def wr0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_cst_4, main_v27, main_cst_5, main_v28, main_v29, main_c_6]

theorem wr0_sub : (hostOps0 : List (HloOp τ sig (Elt F))).Forall fun op => op.writes ⊆ ((wr0).map (Proc.devRef (τ := τ) .tc)).toFinset := by
  unfold hostOps0; simp only [List.Forall]
  repeat' apply And.intro
  all_goals exact writes_sub_of rfl (by decide)

theorem pass0 (V : Valuation τ sig (Elt F)) {r : Ref sig .tc} (hr : r ∉ wr0) :
    after hostOps0 V (Proc.devRef .tc r) = V (Proc.devRef .tc r) :=
  after_of_writes_sub _ V wr0_sub hr

noncomputable def wr0_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30]

theorem wr0_1_sub : (hostOps0_1 : List (HloOp τ sig (Elt F))).Forall fun op => op.writes ⊆ ((wr0_1).map (Proc.devRef (τ := τ) .tc)).toFinset := by
  unfold hostOps0_1; simp only [List.Forall]
  repeat' apply And.intro
  all_goals exact writes_sub_of rfl (by decide)

theorem pass0_1 (V : Valuation τ sig (Elt F)) {r : Ref sig .tc} (hr : r ∉ wr0_1) :
    after hostOps0_1 V (Proc.devRef .tc r) = V (Proc.devRef .tc r) :=
  after_of_writes_sub _ V wr0_1_sub hr

noncomputable def wr0_2 : List (Ref sig .tc) := [main_v31, main_v32, main_v33, main_v34, main_v35, main_v36, main_cst_7, main_v37, main_v38, main_v39, main_v40, main_v41, main_v42, main_v43, main_v44, main_v45, main_c_8, main_v46, main_v47, main_c_9, main_v48, main_v49, main_v50, main_v51, main_v52, main_v53, main_v54, main_v55, main_cst_10, main_v56, main_v57, main_v58, main_v59]

theorem wr0_2_sub : (hostOps0_2 : List (HloOp τ sig (Elt F))).Forall fun op => op.writes ⊆ ((wr0_2).map (Proc.devRef (τ := τ) .tc)).toFinset := by
  unfold hostOps0_2; simp only [List.Forall]
  repeat' apply And.intro
  all_goals exact writes_sub_of rfl (by decide)

theorem pass0_2 (V : Valuation τ sig (Elt F)) {r : Ref sig .tc} (hr : r ∉ wr0_2) :
    after hostOps0_2 V (Proc.devRef .tc r) = V (Proc.devRef .tc r) :=
  after_of_writes_sub _ V wr0_2_sub hr

noncomputable def wr1 : List (Ref sig .tc) := [main_v61, main_cst_11, main_v62, main_v63, main_v64, main_cst_12, main_v65, main_v66, main_v67, main_v68, main_cst_13, main_v69, main_v70, main_v71, main_v72, main_v73, main_v74, main_v75, main_v76, main_cst_14, main_v77, main_v78, main_v79, main_v80, main_v81, main_v82, main_v83, main_v84, main_v85, main_c_15, main_v86, main_v87, main_c_16, main_v88, main_v89, main_v90, main_v91, main_v92, main_v93, main_v94, main_v95, main_cst_17, main_v96, main_v97, main_v98, main_v99]

theorem wr1_sub : (hostOps1 : List (HloOp τ sig (Elt F))).Forall fun op => op.writes ⊆ ((wr1).map (Proc.devRef (τ := τ) .tc)).toFinset := by
  unfold hostOps1; simp only [List.Forall]
  repeat' apply And.intro
  all_goals exact writes_sub_of rfl (by decide)

theorem pass1 (V : Valuation τ sig (Elt F)) {r : Ref sig .tc} (hr : r ∉ wr1) :
    after hostOps1 V (Proc.devRef .tc r) = V (Proc.devRef .tc r) :=
  after_of_writes_sub _ V wr1_sub hr

noncomputable def wr2 : List (Ref sig .tc) := [main_v101, main_cst_18, main_v102, main_v103, main_v104, main_cst_19, main_v105, main_v106, main_v107, main_v108, main_cst_20, main_v109, main_v110, main_v111, main_v112, main_v113, main_v114, main_v115, main_v116, main_cst_21, main_v117, main_v118, main_v119, main_v120, main_v121, main_v122, main_v123, main_v124, main_v125, main_c_22, main_v126, main_v127, main_c_23, main_v128, main_v129, main_v130, main_v131, main_v132, main_v133, main_v134, main_v135, main_cst_24, main_v136, main_v137, main_v138, main_v139]

theorem wr2_sub : (hostOps2 : List (HloOp τ sig (Elt F))).Forall fun op => op.writes ⊆ ((wr2).map (Proc.devRef (τ := τ) .tc)).toFinset := by
  unfold hostOps2; simp only [List.Forall]
  repeat' apply And.intro
  all_goals exact writes_sub_of rfl (by decide)

theorem pass2 (V : Valuation τ sig (Elt F)) {r : Ref sig .tc} (hr : r ∉ wr2) :
    after hostOps2 V (Proc.devRef .tc r) = V (Proc.devRef .tc r) :=
  after_of_writes_sub _ V wr2_sub hr

noncomputable def wr3 : List (Ref sig .tc) := [main_v141, main_cst_25, main_v142, main_v143, main_v144, main_cst_26, main_v145, main_v146, main_v147, main_v148, main_cst_27, main_v149, main_v150, main_v151, main_v152, main_v153, main_v154, main_v155, main_v156, main_cst_28, main_v157, main_v158, main_v159, main_v160, main_v161, main_v162, main_v163, main_v164, main_v165, main_c_29, main_v166, main_v167, main_c_30, main_v168, main_v169, main_v170, main_v171, main_v172, main_v173, main_v174, main_v175, main_cst_31, main_v176, main_v177, main_v178, main_v179]

theorem wr3_sub : (hostOps3 : List (HloOp τ sig (Elt F))).Forall fun op => op.writes ⊆ ((wr3).map (Proc.devRef (τ := τ) .tc)).toFinset := by
  unfold hostOps3; simp only [List.Forall]
  repeat' apply And.intro
  all_goals exact writes_sub_of rfl (by decide)

theorem pass3 (V : Valuation τ sig (Elt F)) {r : Ref sig .tc} (hr : r ∉ wr3) :
    after hostOps3 V (Proc.devRef .tc r) = V (Proc.devRef .tc r) :=
  after_of_writes_sub _ V wr3_sub hr

end Pass

section Launch
variable {F : FTy → Type} [FloatOps F] (m : (ℓ : Loc nD τ sig) → Buf (Elt F) ℓ) (ρ : Dev nD → PrngReg) (c : Dev nD)

abbrev Clean3 (r : Ref sig .tc) : Prop := r ∉ wr0 ∧ r ∉ wr0_1 ∧ r ∉ wr0_2

abbrev Clean4 (r : Ref sig .tc) : Prop := Clean3 r ∧ ∀ w, Pipeline.arrRef spec0 w ≠ r
abbrev Clean5 (r : Ref sig .tc) : Prop := Clean4 r ∧ r ∉ wr1
abbrev Clean6 (r : Ref sig .tc) : Prop := Clean5 r ∧ ∀ w, Pipeline.arrRef spec1 w ≠ r
abbrev Clean7 (r : Ref sig .tc) : Prop := Clean6 r ∧ r ∉ wr2
abbrev Clean8 (r : Ref sig .tc) : Prop := Clean7 r ∧ ∀ w, Pipeline.arrRef spec2 w ≠ r
abbrev Clean9 (r : Ref sig .tc) : Prop := Clean8 r ∧ r ∉ wr3
abbrev Clean10 (r : Ref sig .tc) : Prop := Clean9 r ∧ ∀ w, Pipeline.arrRef spec3 w ≠ r

variable {r : Ref sig .tc}

theorem W3_launch (h : Clean3 r) : W3 m ρ c (Proc.devRef .tc r) = m ((c.tc : Thread nD τ).loc r) :=
  (pass0_2 _ h.2.2).trans ((pass0_1 _ h.2.1).trans ((pass0 _ h.1).trans rfl))
theorem W4_launch (h : Clean4 r) : W4 m ρ c (Proc.devRef .tc r) = m ((c.tc : Thread nD τ).loc r) :=
  (W4_of_ne m ρ c r h.2).trans (W3_launch m ρ c h.1)
theorem W5_launch (h : Clean5 r) : W5 m ρ c (Proc.devRef .tc r) = m ((c.tc : Thread nD τ).loc r) :=
  (pass1 _ h.2).trans (W4_launch m ρ c h.1)
theorem W6_launch (h : Clean6 r) : W6 m ρ c (Proc.devRef .tc r) = m ((c.tc : Thread nD τ).loc r) :=
  (W6_of_ne m ρ c r h.2).trans (W5_launch m ρ c h.1)
theorem W7_launch (h : Clean7 r) : W7 m ρ c (Proc.devRef .tc r) = m ((c.tc : Thread nD τ).loc r) :=
  (pass2 _ h.2).trans (W6_launch m ρ c h.1)
theorem W8_launch (h : Clean8 r) : W8 m ρ c (Proc.devRef .tc r) = m ((c.tc : Thread nD τ).loc r) :=
  (W8_of_ne m ρ c r h.2).trans (W7_launch m ρ c h.1)
theorem W9_launch (h : Clean9 r) : W9 m ρ c (Proc.devRef .tc r) = m ((c.tc : Thread nD τ).loc r) :=
  (pass3 _ h.2).trans (W8_launch m ρ c h.1)
theorem W10_launch (h : Clean10 r) : W10 m ρ c (Proc.devRef .tc r) = m ((c.tc : Thread nD τ).loc r) :=
  (W10_of_ne m ρ c r h.2).trans (W9_launch m ρ c h.1)

abbrev Keep4 (r : Ref sig .tc) : Prop := ∀ w, Pipeline.arrRef spec0 w ≠ r

abbrev Keep6 (r : Ref sig .tc) : Prop := (Keep4 r ∧ r ∉ wr1) ∧ ∀ w, Pipeline.arrRef spec1 w ≠ r

abbrev Keep8 (r : Ref sig .tc) : Prop := (Keep6 r ∧ r ∉ wr2) ∧ ∀ w, Pipeline.arrRef spec2 w ≠ r

theorem W4_keep (h : Keep4 r) : W4 m ρ c (Proc.devRef .tc r) = W3 m ρ c (Proc.devRef .tc r) :=
  W4_of_ne m ρ c r h
theorem W6_keep (h : Keep6 r) : W6 m ρ c (Proc.devRef .tc r) = W3 m ρ c (Proc.devRef .tc r) :=
  (W6_of_ne m ρ c r h.2).trans ((pass1 _ h.1.2).trans (W4_keep m ρ c h.1.1))
theorem W8_keep (h : Keep8 r) : W8 m ρ c (Proc.devRef .tc r) = W3 m ρ c (Proc.devRef .tc r) :=
  (W8_of_ne m ρ c r h.2).trans ((pass2 _ h.1.2).trans (W6_keep m ρ c h.1.1))

end Launch

section Value
variable (m : (ℓ : Loc nD τ sig) → Buf (Elt Ideal) ℓ) (ρ : Dev nD → PrngReg) (c : Dev nD)

theorem stage0_src : W3 (F := Ideal) m ρ c (Proc.devRef .tc main_v3) = (Cert.SpecK.srcWords (F := Ideal) (m ((c.tc : Thread nD τ).loc main_arg1))) := read0_src (W0 m ρ c)
theorem stage0_dst : W3 (F := Ideal) m ρ c (Proc.devRef .tc main_v6) = (Cert.SpecK.dstWords (F := Ideal) (m ((c.tc : Thread nD τ).loc main_arg1))) := read0_dst (W0 m ρ c)
theorem stage0_nu : W3 (F := Ideal) m ρ c (Proc.devRef .tc main_v26) = (Cert.SpecK.edgeNorm (F := Ideal) (Cert.SpecK.dstWords (F := Ideal) (m ((c.tc : Thread nD τ).loc main_arg1))) (Cert.SpecK.srcWords (F := Ideal) (m ((c.tc : Thread nD τ).loc main_arg1)))) := read0_nu (W0 m ρ c)
theorem stage0_agg : W3 (F := Ideal) m ρ c (Proc.devRef .tc main_v58)
    = Cert.SpecK.aggregate16 (F := Ideal) (Cert.SpecK.srcWords (F := Ideal) (m ((c.tc : Thread nD τ).loc main_arg1)))
        (Cert.SpecK.inputNorm (F := Ideal) (m ((c.tc : Thread nD τ).loc main_arg0)) (m ((c.tc : Thread nD τ).loc main_arg15)) (m ((c.tc : Thread nD τ).loc main_arg16))) (Cert.SpecK.edgeNorm (F := Ideal) (Cert.SpecK.dstWords (F := Ideal) (m ((c.tc : Thread nD τ).loc main_arg1))) (Cert.SpecK.srcWords (F := Ideal) (m ((c.tc : Thread nD τ).loc main_arg1)))) (Cert.SpecK.dstWords (F := Ideal) (m ((c.tc : Thread nD τ).loc main_arg1))) :=
  read0_agg (W0 m ρ c)
theorem stage0_w : W3 (F := Ideal) m ρ c (Proc.devRef .tc main_v59) = Cert.SpecK.castW16 (F := Ideal) (m ((c.tc : Thread nD τ).loc main_arg3)) := read0_w (W0 m ρ c)

theorem layer1_agg :
    W5 (F := Ideal) m ρ c (Proc.devRef .tc main_v98)
      = Cert.SpecK.aggregate128 (F := Ideal) (W3 m ρ c (Proc.devRef .tc main_v3))
          (Cert.Tops.layerK (D := 16) (W3 m ρ c (Proc.devRef .tc main_v58)) (W3 m ρ c (Proc.devRef .tc main_v59)) (m ((c.tc : Thread nD τ).loc main_arg4)) (m ((c.tc : Thread nD τ).loc main_arg17)) (m ((c.tc : Thread nD τ).loc main_arg18)))
          (W3 m ρ c (Proc.devRef .tc main_v26)) (W3 m ρ c (Proc.devRef .tc main_v6)) := by
  have e3 : W4 (F := Ideal) m ρ c (Proc.devRef .tc main_v60_0) = Cert.Tops.projArr (D := 16) (W3 m ρ c (Proc.devRef .tc main_v58)) (W3 m ρ c (Proc.devRef .tc main_v59)) (W3 m ρ c (Proc.devRef .tc main_arg4)) :=
    (W4_arr m ρ c 3).trans (Region0.proj_final (V3 m ρ) c)
  have e4 : W4 (F := Ideal) m ρ c (Proc.devRef .tc main_v60_1) = Cert.Tops.sumArr (D := 16) (W3 m ρ c (Proc.devRef .tc main_v58)) (W3 m ρ c (Proc.devRef .tc main_v59)) (W3 m ρ c (Proc.devRef .tc main_arg4)) :=
    (W4_arr m ρ c 4).trans (Region0.sum_final (V3 m ρ) c)
  have e5 : W4 (F := Ideal) m ρ c (Proc.devRef .tc main_v60_2) = Cert.Tops.sqArr (D := 16) (W3 m ρ c (Proc.devRef .tc main_v58)) (W3 m ρ c (Proc.devRef .tc main_v59)) (W3 m ρ c (Proc.devRef .tc main_arg4)) :=
    (W4_arr m ρ c 5).trans (Region0.sumsq_final (V3 m ρ) c)
  refine (read1_agg (W4 m ρ c)).trans ?_
  rw [e3, e4, e5, W4_keep m ρ c (r := main_v3) (by decide), W4_keep m ρ c (r := main_v26) (by decide),
    W4_keep m ρ c (r := main_v6) (by decide),
    W4_launch m ρ c (r := main_arg17) (by decide), W4_launch m ρ c (r := main_arg18) (by decide),
    W3_launch m ρ c (r := main_arg4) (by decide)]
  all_goals rfl

theorem layer1_w : W5 (F := Ideal) m ρ c (Proc.devRef .tc main_v99) = Cert.SpecK.castW128 (F := Ideal) (m ((c.tc : Thread nD τ).loc main_arg5)) :=
  (read1_w (W4 m ρ c)).trans (congrArg _ (W4_launch m ρ c (r := main_arg5) (by decide)))

theorem layer2_agg :
    W7 (F := Ideal) m ρ c (Proc.devRef .tc main_v138)
      = Cert.SpecK.aggregate128 (F := Ideal) (W3 m ρ c (Proc.devRef .tc main_v3))
          (Cert.Tops.layerK (D := 128) (W5 m ρ c (Proc.devRef .tc main_v98)) (W5 m ρ c (Proc.devRef .tc main_v99)) (m ((c.tc : Thread nD τ).loc main_arg6)) (m ((c.tc : Thread nD τ).loc main_arg19)) (m ((c.tc : Thread nD τ).loc main_arg20)))
          (W3 m ρ c (Proc.devRef .tc main_v26)) (W3 m ρ c (Proc.devRef .tc main_v6)) := by
  have e3 : W6 (F := Ideal) m ρ c (Proc.devRef .tc main_v100_0) = Cert.Tops.projArr (D := 128) (W5 m ρ c (Proc.devRef .tc main_v98)) (W5 m ρ c (Proc.devRef .tc main_v99)) (W5 m ρ c (Proc.devRef .tc main_arg6)) :=
    (W6_arr m ρ c 3).trans (Region1.proj_final (V5 m ρ) c)
  have e4 : W6 (F := Ideal) m ρ c (Proc.devRef .tc main_v100_1) = Cert.Tops.sumArr (D := 128) (W5 m ρ c (Proc.devRef .tc main_v98)) (W5 m ρ c (Proc.devRef .tc main_v99)) (W5 m ρ c (Proc.devRef .tc main_arg6)) :=
    (W6_arr m ρ c 4).trans (Region1.sum_final (V5 m ρ) c)
  have e5 : W6 (F := Ideal) m ρ c (Proc.devRef .tc main_v100_2) = Cert.Tops.sqArr (D := 128) (W5 m ρ c (Proc.devRef .tc main_v98)) (W5 m ρ c (Proc.devRef .tc main_v99)) (W5 m ρ c (Proc.devRef .tc main_arg6)) :=
    (W6_arr m ρ c 5).trans (Region1.sumsq_final (V5 m ρ) c)
  refine (read2_agg (W6 m ρ c)).trans ?_
  rw [e3, e4, e5, W6_keep m ρ c (r := main_v3) (by decide), W6_keep m ρ c (r := main_v26) (by decide),
    W6_keep m ρ c (r := main_v6) (by decide),
    W6_launch m ρ c (r := main_arg19) (by decide), W6_launch m ρ c (r := main_arg20) (by decide),
    W5_launch m ρ c (r := main_arg6) (by decide)]
  all_goals rfl

theorem layer2_w : W7 (F := Ideal) m ρ c (Proc.devRef .tc main_v139) = Cert.SpecK.castW128 (F := Ideal) (m ((c.tc : Thread nD τ).loc main_arg7)) :=
  (read2_w (W6 m ρ c)).trans (congrArg _ (W6_launch m ρ c (r := main_arg7) (by decide)))

theorem layer3_agg :
    W9 (F := Ideal) m ρ c (Proc.devRef .tc main_v178)
      = Cert.SpecK.aggregate128 (F := Ideal) (W3 m ρ c (Proc.devRef .tc main_v3))
          (Cert.Tops.layerK (D := 128) (W7 m ρ c (Proc.devRef .tc main_v138)) (W7 m ρ c (Proc.devRef .tc main_v139)) (m ((c.tc : Thread nD τ).loc main_arg8)) (m ((c.tc : Thread nD τ).loc main_arg21)) (m ((c.tc : Thread nD τ).loc main_arg22)))
          (W3 m ρ c (Proc.devRef .tc main_v26)) (W3 m ρ c (Proc.devRef .tc main_v6)) := by
  have e3 : W8 (F := Ideal) m ρ c (Proc.devRef .tc main_v140_0) = Cert.Tops.projArr (D := 128) (W7 m ρ c (Proc.devRef .tc main_v138)) (W7 m ρ c (Proc.devRef .tc main_v139)) (W7 m ρ c (Proc.devRef .tc main_arg8)) :=
    (W8_arr m ρ c 3).trans (Region2.proj_final (V7 m ρ) c)
  have e4 : W8 (F := Ideal) m ρ c (Proc.devRef .tc main_v140_1) = Cert.Tops.sumArr (D := 128) (W7 m ρ c (Proc.devRef .tc main_v138)) (W7 m ρ c (Proc.devRef .tc main_v139)) (W7 m ρ c (Proc.devRef .tc main_arg8)) :=
    (W8_arr m ρ c 4).trans (Region2.sum_final (V7 m ρ) c)
  have e5 : W8 (F := Ideal) m ρ c (Proc.devRef .tc main_v140_2) = Cert.Tops.sqArr (D := 128) (W7 m ρ c (Proc.devRef .tc main_v138)) (W7 m ρ c (Proc.devRef .tc main_v139)) (W7 m ρ c (Proc.devRef .tc main_arg8)) :=
    (W8_arr m ρ c 5).trans (Region2.sumsq_final (V7 m ρ) c)
  refine (read3_agg (W8 m ρ c)).trans ?_
  rw [e3, e4, e5, W8_keep m ρ c (r := main_v3) (by decide), W8_keep m ρ c (r := main_v26) (by decide),
    W8_keep m ρ c (r := main_v6) (by decide),
    W8_launch m ρ c (r := main_arg21) (by decide), W8_launch m ρ c (r := main_arg22) (by decide),
    W7_launch m ρ c (r := main_arg8) (by decide)]
  all_goals rfl

theorem layer3_w : W9 (F := Ideal) m ρ c (Proc.devRef .tc main_v179) = Cert.SpecK.castW128 (F := Ideal) (m ((c.tc : Thread nD τ).loc main_arg9)) :=
  (read3_w (W8 m ρ c)).trans (congrArg _ (W8_launch m ρ c (r := main_arg9) (by decide)))

theorem out_value :
    W15 (F := Ideal) m ρ c (Proc.devRef .tc main_v245)
      = Cert.SpecK.readout (F := Ideal) (m ((c.tc : Thread nD τ).loc main_arg2))
          (Cert.Tops.layerK (D := 128) (W9 m ρ c (Proc.devRef .tc main_v178)) (W9 m ρ c (Proc.devRef .tc main_v179)) (m ((c.tc : Thread nD τ).loc main_arg10)) (m ((c.tc : Thread nD τ).loc main_arg23)) (m ((c.tc : Thread nD τ).loc main_arg24)))
          (m ((c.tc : Thread nD τ).loc main_arg11)) (m ((c.tc : Thread nD τ).loc main_arg12)) (m ((c.tc : Thread nD τ).loc main_arg25)) (m ((c.tc : Thread nD τ).loc main_arg26)) (m ((c.tc : Thread nD τ).loc main_arg13)) (m ((c.tc : Thread nD τ).loc main_arg14)) := by
  have e3 : W10 (F := Ideal) m ρ c (Proc.devRef .tc main_v180_0) = Cert.Tops.projArr (D := 128) (W9 m ρ c (Proc.devRef .tc main_v178)) (W9 m ρ c (Proc.devRef .tc main_v179)) (W9 m ρ c (Proc.devRef .tc main_arg10)) :=
    (W10_arr m ρ c 3).trans (Region3.proj_final (V9 m ρ) c)
  have e4 : W10 (F := Ideal) m ρ c (Proc.devRef .tc main_v180_1) = Cert.Tops.sumArr (D := 128) (W9 m ρ c (Proc.devRef .tc main_v178)) (W9 m ρ c (Proc.devRef .tc main_v179)) (W9 m ρ c (Proc.devRef .tc main_arg10)) :=
    (W10_arr m ρ c 4).trans (Region3.sum_final (V9 m ρ) c)
  have e5 : W10 (F := Ideal) m ρ c (Proc.devRef .tc main_v180_2) = Cert.Tops.sqArr (D := 128) (W9 m ρ c (Proc.devRef .tc main_v178)) (W9 m ρ c (Proc.devRef .tc main_v179)) (W9 m ρ c (Proc.devRef .tc main_arg10)) :=
    (W10_arr m ρ c 5).trans (Region3.sumsq_final (V9 m ρ) c)
  refine (read4_out (W10 m ρ c)).trans ?_
  rw [e3, e4, e5, W9_launch m ρ c (r := main_arg10) (by decide),
    W10_launch m ρ c (r := main_arg2) (by decide),
    W10_launch m ρ c (r := main_arg23) (by decide),
    W10_launch m ρ c (r := main_arg24) (by decide),
    W10_launch m ρ c (r := main_arg11) (by decide),
    W10_launch m ρ c (r := main_arg12) (by decide),
    W10_launch m ρ c (r := main_arg25) (by decide),
    W10_launch m ρ c (r := main_arg26) (by decide),
    W10_launch m ρ c (r := main_arg13) (by decide),
    W10_launch m ρ c (r := main_arg14) (by decide)]
  all_goals rfl

end Value

abbrev KTopAt (m : (ℓ : Loc nD τ sig) → Buf (Elt Ideal) ℓ) (c : Dev nD) :=
  Cert.Tops.KTop (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

theorem kernel_value (m : (ℓ : Loc nD τ sig) → Buf (Elt Ideal) ℓ) (ρ : Dev nD → PrngReg) (c : Dev nD) :
    Gen.W15 (F := Ideal) m ρ c (Proc.devRef .tc main_v245)
      = KTopAt m c := by
  rw [out_value m ρ c, layer3_agg m ρ c, layer3_w m ρ c, layer2_agg m ρ c, layer2_w m ρ c, layer1_agg m ρ c, layer1_w m ρ c,
    stage0_agg m ρ c, stage0_w m ρ c, stage0_src m ρ c, stage0_dst m ρ c, stage0_nu m ρ c]
  all_goals rfl

end Cert.KernelIdeal.ChainV

end
-- ==== Proof.RefOps.lean ====
import proofs.«402048_j34643206209888_3_alg».proof.Proof.Gen.ReferenceIdeal
import Idealize.ShloMosaic.Lib.StableHlo.Run

/-! The reference program's @main as lists of host operations: one list per window of @main, in the
    program's order, each call replaced by the callee's operations over that call's buffers (a nested call
    likewise); beside each list the references its operations write, in the same order, the fact that every
    operation touches TensorCore references only, and the fact that every operation determines its result. -/

noncomputable section

namespace Cert.ReferenceIdeal.RunH

open Cert.ReferenceIdeal Cert.ReferenceIdeal.Gen Idealize.ShloMosaic Idealize.ShloMosaic.TcCoe Idealize.SL.Sem

variable {F : FTy → Type} [FloatOps F]

/-- The 81 operations of window 0 of @main, calls inlined, in order. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1700000 ![] bcast_S_S1700000 : (⟨S_, .i32⟩ : BufTy).Contents (Elt F) → (⟨S1700000, .i32⟩ : BufTy).Contents (Elt F)),
    StableHlo.binary main_v3 main_v12 main_v13 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v14 (broadcastInDim S1700000 ![] bcast_S_S1700000 : (⟨S_, .i32⟩ : BufTy).Contents (Elt F) → (⟨S1700000, .i32⟩ : BufTy).Contents (Elt F)),
    StableHlo.binary main_v3 main_v14 main_v15 (addi : (⟨S1700000, .i32⟩ : BufTy).Contents (Elt F) → (⟨S1700000, .i32⟩ : BufTy).Contents (Elt F) → (⟨S1700000, .i32⟩ : BufTy).Contents (Elt F)),
    StableHlo.ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v16 main_v17 (broadcastInDim S1700000x1 ![0] bcast_S1700000_S1700000x1_0 : (⟨S1700000, .i32⟩ : BufTy).Contents (Elt F) → (⟨S1700000x1, .i32⟩ : BufTy).Contents (Elt F)),
    StableHlo.binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_2 (constantI S_ 32 0#32),
    StableHlo.unary main_c_2 main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v18 main_v25 main_v26 (mulf : (⟨S1700000, .f32⟩ : BufTy).Contents (Elt F) → (⟨S1700000, .f32⟩ : BufTy).Contents (Elt F) → (⟨S1700000, .f32⟩ : BufTy).Contents (Elt F)),
    StableHlo.unary main_v26 main_v27 (broadcastInDim S1700000x1 ![0] bcast_S1700000_S1700000x1_0 : (⟨S1700000, .f32⟩ : BufTy).Contents (Elt F) → (⟨S1700000x1, .f32⟩ : BufTy).Contents (Elt F)),
    StableHlo.nullary main_cst_4 (constant S_ .f32 0x00000000#32),
    StableHlo.binary main_arg0 main_cst_4 main_v28 ((fun x v => Host.reduceAdd x v reducesTo_S100000x16_S16_d0 h_S_) : (⟨S100000x16, .f32⟩ : BufTy).Contents (Elt F) → (⟨S_, .f32⟩ : BufTy).Contents (Elt F) → (⟨S16, .f32⟩ : BufTy).Contents (Elt F)),
    StableHlo.nullary main_cst_5 (constant S_ .f32 0x47C35000#32),
    StableHlo.unary main_cst_5 main_v29 (broadcastInDim S16 ![] bcast_S_S16 : (⟨S_, .f32⟩ : BufTy).Contents (Elt F) → (⟨S16, .f32⟩ : BufTy).Contents (Elt F)),
    StableHlo.binary main_v28 main_v29 main_v30 (Host.divf : (⟨S16, .f32⟩ : BufTy).Contents (Elt F) → (⟨S16, .f32⟩ : BufTy).Contents (Elt F) → (⟨S16, .f32⟩ : BufTy).Contents (Elt F)),
    StableHlo.nullary main_c_6 (constantI S_ 32 0#32),
    StableHlo.TRef.nullary (.of main_call0_cst : StableHlo.TRef sig ⟨S_, .f32⟩) (constant S_ .f32 0x00000000#32),
    StableHlo.TRef.binary (.of main_arg0 : StableHlo.TRef sig ⟨S100000x16, .f32⟩) (.of main_call0_cst : StableHlo.TRef sig ⟨S_, .f32⟩) (.of main_call0_v0 : StableHlo.TRef sig ⟨S16, .f32⟩) (fun x v => Host.reduceAdd x v reducesTo_S100000x16_S16_d0 h_S_),
    StableHlo.TRef.unary (.of main_call0_v0 : StableHlo.TRef sig ⟨S16, .f32⟩) (.of main_call0_v1 : StableHlo.TRef sig ⟨S1x16, .f32⟩) (broadcastInDim S1x16 ![1] bcast_S16_S1x16_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x16, .f32⟩) (broadcastInDim S1x16 ![] bcast_S_S1x16),
    StableHlo.TRef.binary (.of main_call0_v1 : StableHlo.TRef sig ⟨S1x16, .f32⟩) (.of main_call0_v2 : StableHlo.TRef sig ⟨S1x16, .f32⟩) (.of main_call0_v3 : StableHlo.TRef sig ⟨S1x16, .f32⟩) Host.divf,
    StableHlo.TRef.unary (.of main_call0_v3 : StableHlo.TRef sig ⟨S1x16, .f32⟩) (.of main_call0_v4 : StableHlo.TRef sig ⟨S100000x16, .f32⟩) (broadcastInDim S100000x16 ![0, 1] bcast_S1x16_S100000x16_0_1),
    StableHlo.TRef.binary (.of main_arg0 : StableHlo.TRef sig ⟨S100000x16, .f32⟩) (.of main_call0_v4 : StableHlo.TRef sig ⟨S100000x16, .f32⟩) (.of main_call0_v5 : StableHlo.TRef sig ⟨S100000x16, .f32⟩) subf,
    StableHlo.TRef.binary (.of main_call0_v5 : StableHlo.TRef sig ⟨S100000x16, .f32⟩) (.of main_call0_v5 : StableHlo.TRef sig ⟨S100000x16, .f32⟩) (.of main_call0_v6 : StableHlo.TRef sig ⟨S100000x16, .f32⟩) mulf,
    StableHlo.TRef.unary (.of main_c_6 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x16, .f32⟩) (.of main_call0_cst_2 : StableHlo.TRef sig ⟨S_, .f32⟩) (.of main_call0_v9 : StableHlo.TRef sig ⟨S16, .f32⟩) (fun x v => Host.reduceAdd x v reducesTo_S100000x16_S16_d0 h_S_),
    StableHlo.TRef.unary (.of main_call0_v8 : StableHlo.TRef sig ⟨S_, .f32⟩) (.of main_call0_v10 : StableHlo.TRef sig ⟨S16, .f32⟩) (broadcastInDim S16 ![] bcast_S_S16),
    StableHlo.TRef.binary (.of main_call0_v9 : StableHlo.TRef sig ⟨S16, .f32⟩) (.of main_call0_v10 : StableHlo.TRef sig ⟨S16, .f32⟩) (.of main_call0_v11 : StableHlo.TRef sig ⟨S16, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S16, .f32⟩) (broadcastInDim S16 ![] bcast_S_S16),
    StableHlo.TRef.ternary (.of main_call0_v12 : StableHlo.TRef sig ⟨S_, .i1⟩) (.of main_call0_v11 : StableHlo.TRef sig ⟨S16, .f32⟩) (.of main_call0_call0_v1 : StableHlo.TRef sig ⟨S16, .f32⟩) (.of main_v31 : StableHlo.TRef sig ⟨S16, .f32⟩) (fun p a b => select (broadcastInDim S16 ![] bcast_S_S16 p) a b),
    StableHlo.unary main_v30 main_v32 (broadcastInDim S1x16 ![1] bcast_S16_S1x16_1 : (⟨S16, .f32⟩ : BufTy).Contents (Elt F) → (⟨S1x16, .f32⟩ : BufTy).Contents (Elt F)),
    StableHlo.unary main_v32 main_v33 (broadcastInDim S100000x16 ![0, 1] bcast_S1x16_S100000x16_0_1 : (⟨S1x16, .f32⟩ : BufTy).Contents (Elt F) → (⟨S100000x16, .f32⟩ : BufTy).Contents (Elt F)),
    StableHlo.binary main_arg0 main_v33 main_v34 (subf : (⟨S100000x16, .f32⟩ : BufTy).Contents (Elt F) → (⟨S100000x16, .f32⟩ : BufTy).Contents (Elt F) → (⟨S100000x16, .f32⟩ : BufTy).Contents (Elt F)),
    StableHlo.unary main_arg15 main_v35 (broadcastInDim S1x16 ![1] bcast_S16_S1x16_1 : (⟨S16, .f32⟩ : BufTy).Contents (Elt F) → (⟨S1x16, .f32⟩ : BufTy).Contents (Elt F)),
    StableHlo.unary main_v35 main_v36 (broadcastInDim S100000x16 ![0, 1] bcast_S1x16_S100000x16_0_1 : (⟨S1x16, .f32⟩ : BufTy).Contents (Elt F) → (⟨S100000x16, .f32⟩ : BufTy).Contents (Elt F)),
    StableHlo.binary main_v36 main_v34 main_v37 (mulf : (⟨S100000x16, .f32⟩ : BufTy).Contents (Elt F) → (⟨S100000x16, .f32⟩ : BufTy).Contents (Elt F) → (⟨S100000x16, .f32⟩ : BufTy).Contents (Elt F)),
    StableHlo.nullary main_cst_7 (constant S_ .f32 0x3727C5AC#32),
    StableHlo.unary main_cst_7 main_v38 (broadcastInDim S16 ![] bcast_S_S16 : (⟨S_, .f32⟩ : BufTy).Contents (Elt F) → (⟨S16, .f32⟩ : BufTy).Contents (Elt F)),
    StableHlo.binary main_v31 main_v38 main_v39 (addf : (⟨S16, .f32⟩ : BufTy).Contents (Elt F) → (⟨S16, .f32⟩ : BufTy).Contents (Elt F) → (⟨S16, .f32⟩ : BufTy).Contents (Elt F)),
    StableHlo.unary main_v39 main_v40 (Host.rsqrt : (⟨S16, .f32⟩ : BufTy).Contents (Elt F) → (⟨S16, .f32⟩ : BufTy).Contents (Elt F)),
    StableHlo.unary main_v40 main_v41 (broadcastInDim S1x16 ![1] bcast_S16_S1x16_1 : (⟨S16, .f32⟩ : BufTy).Contents (Elt F) → (⟨S1x16, .f32⟩ : BufTy).Contents (Elt F)),
    StableHlo.unary main_v41 main_v42 (broadcastInDim S100000x16 ![0, 1] bcast_S1x16_S100000x16_0_1 : (⟨S1x16, .f32⟩ : BufTy).Contents (Elt F) → (⟨S100000x16, .f32⟩ : BufTy).Contents (Elt F)),
    StableHlo.binary main_v37 main_v42 main_v43 (mulf : (⟨S100000x16, .f32⟩ : BufTy).Contents (Elt F) → (⟨S100000x16, .f32⟩ : BufTy).Contents (Elt F) → (⟨S100000x16, .f32⟩ : BufTy).Contents (Elt F)),
    StableHlo.unary main_arg16 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S100000x16 ![0, 1] bcast_S1x16_S100000x16_0_1 : (⟨S1x16, .f32⟩ : BufTy).Contents (Elt F) → (⟨S100000x16, .f32⟩ : BufTy).Contents (Elt F)),
    StableHlo.binary main_v43 main_v45 main_v46 (addf : (⟨S100000x16, .f32⟩ : BufTy).Contents (Elt F) → (⟨S100000x16, .f32⟩ : BufTy).Contents (Elt F) → (⟨S100000x16, .f32⟩ : BufTy).Contents (Elt F)),
    StableHlo.binary main_v46 main_arg3 main_v47 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.nullary main_c_8 (constantI S_ 32 0#32),
    StableHlo.unary main_c_8 main_v48 (broadcastInDim S1700000 ![] bcast_S_S1700000 : (⟨S_, .i32⟩ : BufTy).Contents (Elt F) → (⟨S1700000, .i32⟩ : BufTy).Contents (Elt F)) ]
/-- The references those operations write, in the same order. -/
abbrev wr0 : List (Ref sig .tc) :=
  [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_cst_4, main_v28, main_cst_5, main_v29, main_v30, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v31, main_v32, main_v33, main_v34, main_v35, main_v36, main_v37, main_cst_7, main_v38, main_v39, main_v40, main_v41, main_v42, main_v43, main_v44, main_v45, main_v46, main_v47, main_c_8, main_v48]
/-- Each touches TensorCore references only. -/
theorem ops0_sub : (ops0 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub ..⟩
/-- Each determines its result (none allocates a buffer with contents left open). -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 85 operations of window 1 of @main, calls inlined, in order. -/
abbrev ops1 : List (HloOp τ sig (Elt F)) :=
  [ StableHlo.binary main_v3 main_v48 main_v49 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v50 (broadcastInDim S1700000 ![] bcast_S_S1700000 : (⟨S_, .i32⟩ : BufTy).Contents (Elt F) → (⟨S1700000, .i32⟩ : BufTy).Contents (Elt F)),
    StableHlo.binary main_v3 main_v50 main_v51 (addi : (⟨S1700000, .i32⟩ : BufTy).Contents (Elt F) → (⟨S1700000, .i32⟩ : BufTy).Contents (Elt F) → (⟨S1700000, .i32⟩ : BufTy).Contents (Elt F)),
    StableHlo.ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v52 main_v53 (broadcastInDim S1700000x1 ![0] bcast_S1700000_S1700000x1_0 : (⟨S1700000, .i32⟩ : BufTy).Contents (Elt F) → (⟨S1700000x1, .i32⟩ : BufTy).Contents (Elt F)),
    StableHlo.binary main_v47 main_v53 main_v54 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v27 main_v55 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v54 main_v55 main_v56 (mulf : (⟨S1700000x128, .f32⟩ : BufTy).Contents (Elt F) → (⟨S1700000x128, .f32⟩ : BufTy).Contents (Elt F) → (⟨S1700000x128, .f32⟩ : BufTy).Contents (Elt F)),
    StableHlo.nullary main_cst_10 (constant S_ .f32 0x00000000#32),
    StableHlo.unary main_cst_10 main_v57 (broadcastInDim S100000x128 ![] bcast_S_S100000x128 : (⟨S_, .f32⟩ : BufTy).Contents (Elt F) → (⟨S100000x128, .f32⟩ : BufTy).Contents (Elt F)),
    StableHlo.unary main_v6 main_v58 (broadcastInDim S1700000x1 ![0] bcast_S1700000_S1700000x1_0 : (⟨S1700000, .i32⟩ : BufTy).Contents (Elt F) → (⟨S1700000x1, .i32⟩ : BufTy).Contents (Elt F)),
    StableHlo.ternary main_v57 main_v58 main_v56 main_v59 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x128, .f32⟩) (broadcastInDim S100000x128 ![] bcast_S_S100000x128),
    StableHlo.TRef.binary (.of main_v62 : StableHlo.TRef sig ⟨S100000x128, .f32⟩) (.of main_call1_v0 : StableHlo.TRef sig ⟨S100000x128, .f32⟩) (.of main_v63 : StableHlo.TRef sig ⟨S100000x128, .f32⟩) maximumf,
    StableHlo.nullary main_cst_11 (constant S_ .f32 0x00000000#32),
    StableHlo.binary main_v63 main_cst_11 main_v64 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary (.of main_call2_cst : StableHlo.TRef sig ⟨S_, .f32⟩) (constant S_ .f32 0x00000000#32),
    StableHlo.TRef.binary (.of main_v63 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v63 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v67 : StableHlo.TRef sig ⟨S128, .f32⟩) (fun p a b => select (broadcastInDim S128 ![] bcast_S_S128 p) a b),
    StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v69 main_v70 (subf : (⟨S100000x128, .f32⟩ : BufTy).Contents (Elt F) → (⟨S100000x128, .f32⟩ : BufTy).Contents (Elt F) → (⟨S100000x128, .f32⟩ : BufTy).Contents (Elt F)),
    StableHlo.unary main_arg17 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v70 main_v73 (mulf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v74 (broadcastInDim S128 ![] bcast_S_S128 : (⟨S_, .f32⟩ : BufTy).Contents (Elt F) → (⟨S128, .f32⟩ : BufTy).Contents (Elt F)),
    StableHlo.binary main_v67 main_v74 main_v75 (addf : (⟨S128, .f32⟩ : BufTy).Contents (Elt F) → (⟨S128, .f32⟩ : BufTy).Contents (Elt F) → (⟨S128, .f32⟩ : BufTy).Contents (Elt F)),
    StableHlo.unary main_v75 main_v76 (Host.rsqrt : (⟨S128, .f32⟩ : BufTy).Contents (Elt F) → (⟨S128, .f32⟩ : BufTy).Contents (Elt F)),
    StableHlo.unary main_v76 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v78 main_v79 (mulf : (⟨S100000x128, .f32⟩ : BufTy).Contents (Elt F) → (⟨S100000x128, .f32⟩ : BufTy).Contents (Elt F) → (⟨S100000x128, .f32⟩ : BufTy).Contents (Elt F)),
    StableHlo.unary main_arg18 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.binary main_v82 main_arg5 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_15 (constantI S_ 32 0#32),
    StableHlo.unary main_c_15 main_v84 (broadcastInDim S1700000 ![] bcast_S_S1700000 : (⟨S_, .i32⟩ : BufTy).Contents (Elt F) → (⟨S1700000, .i32⟩ : BufTy).Contents (Elt F)),
    StableHlo.binary main_v3 main_v84 main_v85 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v86 (broadcastInDim S1700000 ![] bcast_S_S1700000 : (⟨S_, .i32⟩ : BufTy).Contents (Elt F) → (⟨S1700000, .i32⟩ : BufTy).Contents (Elt F)),
    StableHlo.binary main_v3 main_v86 main_v87 (addi : (⟨S1700000, .i32⟩ : BufTy).Contents (Elt F) → (⟨S1700000, .i32⟩ : BufTy).Contents (Elt F) → (⟨S1700000, .i32⟩ : BufTy).Contents (Elt F)),
    StableHlo.ternary main_v85 main_v87 main_v3 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v88 main_v89 (broadcastInDim S1700000x1 ![0] bcast_S1700000_S1700000x1_0 : (⟨S1700000, .i32⟩ : BufTy).Contents (Elt F) → (⟨S1700000x1, .i32⟩ : BufTy).Contents (Elt F)),
    StableHlo.binary main_v83 main_v89 main_v90 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v27 main_v91 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v90 main_v91 main_v92 (mulf : (⟨S1700000x128, .f32⟩ : BufTy).Contents (Elt F) → (⟨S1700000x128, .f32⟩ : BufTy).Contents (Elt F) → (⟨S1700000x128, .f32⟩ : BufTy).Contents (Elt F)),
    StableHlo.nullary main_cst_17 (constant S_ .f32 0x00000000#32),
    StableHlo.unary main_cst_17 main_v93 (broadcastInDim S100000x128 ![] bcast_S_S100000x128 : (⟨S_, .f32⟩ : BufTy).Contents (Elt F) → (⟨S100000x128, .f32⟩ : BufTy).Contents (Elt F)),
    StableHlo.unary main_v6 main_v94 (broadcastInDim S1700000x1 ![0] bcast_S1700000_S1700000x1_0 : (⟨S1700000, .i32⟩ : BufTy).Contents (Elt F) → (⟨S1700000x1, .i32⟩ : BufTy).Contents (Elt F)),
    StableHlo.ternary main_v93 main_v94 main_v92 main_v95 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg6 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v98 : StableHlo.TRef sig ⟨S100000x128, .f32⟩) (.of main_call3_v0 : StableHlo.TRef sig ⟨S100000x128, .f32⟩) (.of main_v99 : StableHlo.TRef sig ⟨S100000x128, .f32⟩) maximumf ]
/-- The references those operations write, in the same order. -/
abbrev wr1 : List (Ref sig .tc) :=
  [main_v49, main_c_9, main_v50, main_v51, main_v52, main_v53, main_v54, main_v55, main_v56, main_cst_10, main_v57, main_v58, main_v59, main_v60, main_v61, main_v62, main_call1_cst, main_call1_v0, main_v63, main_cst_11, main_v64, main_cst_12, main_v65, main_v66, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v67, main_v68, main_v69, main_v70, main_v71, main_v72, main_v73, main_cst_14, main_v74, main_v75, main_v76, main_v77, main_v78, main_v79, main_v80, main_v81, main_v82, main_v83, main_c_15, main_v84, main_v85, main_c_16, main_v86, main_v87, main_v88, main_v89, main_v90, main_v91, main_v92, main_cst_17, main_v93, main_v94, main_v95, main_v96, main_v97, main_v98, main_call3_cst, main_call3_v0, main_v99]
/-- Each touches TensorCore references only. -/
theorem ops1_sub : (ops1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
/-- Each determines its result (none allocates a buffer with contents left open). -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 104 operations of window 2 of @main, calls inlined, in order. -/
abbrev ops2 : List (HloOp τ sig (Elt F)) :=
  [ StableHlo.nullary main_cst_18 (constant S_ .f32 0x00000000#32),
    StableHlo.binary main_v99 main_cst_18 main_v100 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v101 (broadcastInDim S128 ![] bcast_S_S128 : (⟨S_, .f32⟩ : BufTy).Contents (Elt F) → (⟨S128, .f32⟩ : BufTy).Contents (Elt F)),
    StableHlo.binary main_v100 main_v101 main_v102 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary (.of main_call4_cst : StableHlo.TRef sig ⟨S_, .f32⟩) (constant S_ .f32 0x00000000#32),
    StableHlo.TRef.binary (.of main_v99 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v99 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_20 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v103 : StableHlo.TRef sig ⟨S128, .f32⟩) (fun p a b => select (broadcastInDim S128 ![] bcast_S_S128 p) a b),
    StableHlo.unary main_v102 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v105 main_v106 (subf : (⟨S100000x128, .f32⟩ : BufTy).Contents (Elt F) → (⟨S100000x128, .f32⟩ : BufTy).Contents (Elt F) → (⟨S100000x128, .f32⟩ : BufTy).Contents (Elt F)),
    StableHlo.unary main_arg19 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v108 main_v106 main_v109 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v110 (broadcastInDim S128 ![] bcast_S_S128 : (⟨S_, .f32⟩ : BufTy).Contents (Elt F) → (⟨S128, .f32⟩ : BufTy).Contents (Elt F)),
    StableHlo.binary main_v103 main_v110 main_v111 (addf : (⟨S128, .f32⟩ : BufTy).Contents (Elt F) → (⟨S128, .f32⟩ : BufTy).Contents (Elt F) → (⟨S128, .f32⟩ : BufTy).Contents (Elt F)),
    StableHlo.unary main_v111 main_v112 (Host.rsqrt : (⟨S128, .f32⟩ : BufTy).Contents (Elt F) → (⟨S128, .f32⟩ : BufTy).Contents (Elt F)),
    StableHlo.unary main_v112 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v109 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_arg20 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)),
    StableHlo.binary main_v118 main_arg7 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_22 (constantI S_ 32 0#32),
    StableHlo.unary main_c_22 main_v120 (broadcastInDim S1700000 ![] bcast_S_S1700000 : (⟨S_, .i32⟩ : BufTy).Contents (Elt F) → (⟨S1700000, .i32⟩ : BufTy).Contents (Elt F)),
    StableHlo.binary main_v3 main_v120 main_v121 (cmpi .slt : (⟨S1700000, .i32⟩ : BufTy).Contents (Elt F) → (⟨S1700000, .i32⟩ : BufTy).Contents (Elt F) → (⟨S1700000, .i1⟩ : BufTy).Contents (Elt F)),
    StableHlo.nullary main_c_23 (constantI S_ 32 100000#32),
    StableHlo.unary main_c_23 main_v122 (broadcastInDim S1700000 ![] bcast_S_S1700000 : (⟨S_, .i32⟩ : BufTy).Contents (Elt F) → (⟨S1700000, .i32⟩ : BufTy).Contents (Elt F)),
    StableHlo.binary main_v3 main_v122 main_v123 (addi : (⟨S1700000, .i32⟩ : BufTy).Contents (Elt F) → (⟨S1700000, .i32⟩ : BufTy).Contents (Elt F) → (⟨S1700000, .i32⟩ : BufTy).Contents (Elt F)),
    StableHlo.ternary main_v121 main_v123 main_v3 main_v124 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v124 main_v125 (broadcastInDim S1700000x1 ![0] bcast_S1700000_S1700000x1_0 : (⟨S1700000, .i32⟩ : BufTy).Contents (Elt F) → (⟨S1700000x1, .i32⟩ : BufTy).Contents (Elt F)),
    StableHlo.binary main_v119 main_v125 main_v126 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v27 main_v127 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v126 main_v127 main_v128 (mulf : (⟨S1700000x128, .f32⟩ : BufTy).Contents (Elt F) → (⟨S1700000x128, .f32⟩ : BufTy).Contents (Elt F) → (⟨S1700000x128, .f32⟩ : BufTy).Contents (Elt F)),
    StableHlo.nullary main_cst_24 (constant S_ .f32 0x00000000#32),
    StableHlo.unary main_cst_24 main_v129 (broadcastInDim S100000x128 ![] bcast_S_S100000x128 : (⟨S_, .f32⟩ : BufTy).Contents (Elt F) → (⟨S100000x128, .f32⟩ : BufTy).Contents (Elt F)),
    StableHlo.unary main_v6 main_v130 (broadcastInDim S1700000x1 ![0] bcast_S1700000_S1700000x1_0 : (⟨S1700000, .i32⟩ : BufTy).Contents (Elt F) → (⟨S1700000x1, .i32⟩ : BufTy).Contents (Elt F)),
    StableHlo.ternary main_v129 main_v130 main_v128 main_v131 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg8 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x128, .f32⟩) (broadcastInDim S100000x128 ![] bcast_S_S100000x128),
    StableHlo.TRef.binary (.of main_v134 : StableHlo.TRef sig ⟨S100000x128, .f32⟩) (.of main_call5_v0 : StableHlo.TRef sig ⟨S100000x128, .f32⟩) (.of main_v135 : StableHlo.TRef sig ⟨S100000x128, .f32⟩) maximumf,
    StableHlo.nullary main_cst_25 (constant S_ .f32 0x00000000#32),
    StableHlo.binary main_v135 main_cst_25 main_v136 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_26 (constant S_ .f32 0x47C35000#32),
    StableHlo.unary main_cst_26 main_v137 (broadcastInDim S128 ![] bcast_S_S128 : (⟨S_, .f32⟩ : BufTy).Contents (Elt F) → (⟨S128, .f32⟩ : BufTy).Contents (Elt F)),
    StableHlo.binary main_v136 main_v137 main_v138 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32),
    StableHlo.TRef.nullary (.of main_call6_cst : StableHlo.TRef sig ⟨S_, .f32⟩) (constant S_ .f32 0x00000000#32),
    StableHlo.TRef.binary (.of main_v135 : StableHlo.TRef sig ⟨S100000x128, .f32⟩) (.of main_call6_cst : StableHlo.TRef sig ⟨S_, .f32⟩) (.of main_call6_v0 : StableHlo.TRef sig ⟨S128, .f32⟩) (fun x v => Host.reduceAdd x v reducesTo_S100000x128_S128_d0 h_S_),
    StableHlo.TRef.unary (.of main_call6_v0 : StableHlo.TRef sig ⟨S128, .f32⟩) (.of main_call6_v1 : StableHlo.TRef sig ⟨S1x128, .f32⟩) (broadcastInDim S1x128 ![1] bcast_S128_S1x128_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x128, .f32⟩) (broadcastInDim S1x128 ![] bcast_S_S1x128),
    StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf,
    StableHlo.TRef.unary (.of main_call6_v3 : StableHlo.TRef sig ⟨S1x128, .f32⟩) (.of main_call6_v4 : StableHlo.TRef sig ⟨S100000x128, .f32⟩) (broadcastInDim S100000x128 ![0, 1] bcast_S1x128_S100000x128_0_1),
    StableHlo.TRef.binary (.of main_v135 : StableHlo.TRef sig ⟨S100000x128, .f32⟩) (.of main_call6_v4 : StableHlo.TRef sig ⟨S100000x128, .f32⟩) (.of main_call6_v5 : StableHlo.TRef sig ⟨S100000x128, .f32⟩) subf,
    StableHlo.TRef.binary (.of main_call6_v5 : StableHlo.TRef sig ⟨S100000x128, .f32⟩) (.of main_call6_v5 : StableHlo.TRef sig ⟨S100000x128, .f32⟩) (.of main_call6_v6 : StableHlo.TRef sig ⟨S100000x128, .f32⟩) mulf,
    StableHlo.TRef.unary (.of main_c_27 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x128, .f32⟩) (.of main_call6_cst_2 : StableHlo.TRef sig ⟨S_, .f32⟩) (.of main_call6_v9 : StableHlo.TRef sig ⟨S128, .f32⟩) (fun x v => Host.reduceAdd x v reducesTo_S100000x128_S128_d0 h_S_),
    StableHlo.TRef.unary (.of main_call6_v8 : StableHlo.TRef sig ⟨S_, .f32⟩) (.of main_call6_v10 : StableHlo.TRef sig ⟨S128, .f32⟩) (broadcastInDim S128 ![] bcast_S_S128),
    StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S128, .f32⟩) (broadcastInDim S128 ![] bcast_S_S128),
    StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v139 : StableHlo.TRef sig ⟨S128, .f32⟩) (fun p a b => select (broadcastInDim S128 ![] bcast_S_S128 p) a b),
    StableHlo.unary main_v138 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v141 main_v142 (subf : (⟨S100000x128, .f32⟩ : BufTy).Contents (Elt F) → (⟨S100000x128, .f32⟩ : BufTy).Contents (Elt F) → (⟨S100000x128, .f32⟩ : BufTy).Contents (Elt F)),
    StableHlo.unary main_arg21 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v142 main_v145 (mulf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3727C5AC#32),
    StableHlo.unary main_cst_28 main_v146 (broadcastInDim S128 ![] bcast_S_S128 : (⟨S_, .f32⟩ : BufTy).Contents (Elt F) → (⟨S128, .f32⟩ : BufTy).Contents (Elt F)),
    StableHlo.binary main_v139 main_v146 main_v147 (addf : (⟨S128, .f32⟩ : BufTy).Contents (Elt F) → (⟨S128, .f32⟩ : BufTy).Contents (Elt F) → (⟨S128, .f32⟩ : BufTy).Contents (Elt F)),
    StableHlo.unary main_v147 main_v148 (Host.rsqrt : (⟨S128, .f32⟩ : BufTy).Contents (Elt F) → (⟨S128, .f32⟩ : BufTy).Contents (Elt F)) ]
/-- The references those operations write, in the same order. -/
abbrev wr2 : List (Ref sig .tc) :=
  [main_cst_18, main_v100, main_cst_19, main_v101, main_v102, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v103, main_v104, main_v105, main_v106, main_v107, main_v108, main_v109, main_cst_21, main_v110, main_v111, main_v112, main_v113, main_v114, main_v115, main_v116, main_v117, main_v118, main_v119, main_c_22, main_v120, main_v121, main_c_23, main_v122, main_v123, main_v124, main_v125, main_v126, main_v127, main_v128, main_cst_24, main_v129, main_v130, main_v131, main_v132, main_v133, main_v134, main_call5_cst, main_call5_v0, main_v135, main_cst_25, main_v136, main_cst_26, main_v137, main_v138, main_c_27, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v139, main_v140, main_v141, main_v142, main_v143, main_v144, main_v145, main_cst_28, main_v146, main_v147, main_v148]
/-- Each touches TensorCore references only. -/
theorem ops2_sub : (ops2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩
/-- Each determines its result (none allocates a buffer with contents left open). -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 83 operations of window 3 of @main, calls inlined, in order. -/
abbrev ops3 : List (HloOp τ sig (Elt F)) :=
  [ StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v150 main_v151 (mulf : (⟨S100000x128, .f32⟩ : BufTy).Contents (Elt F) → (⟨S100000x128, .f32⟩ : BufTy).Contents (Elt F) → (⟨S100000x128, .f32⟩ : BufTy).Contents (Elt F)),
    StableHlo.unary main_arg22 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v153 main_v154 (addf : (⟨S100000x128, .f32⟩ : BufTy).Contents (Elt F) → (⟨S100000x128, .f32⟩ : BufTy).Contents (Elt F) → (⟨S100000x128, .f32⟩ : BufTy).Contents (Elt F)),
    StableHlo.binary main_v154 main_arg9 main_v155 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_29 (constantI S_ 32 0#32),
    StableHlo.unary main_c_29 main_v156 (broadcastInDim S1700000 ![] bcast_S_S1700000 : (⟨S_, .i32⟩ : BufTy).Contents (Elt F) → (⟨S1700000, .i32⟩ : BufTy).Contents (Elt F)),
    StableHlo.binary main_v3 main_v156 main_v157 (cmpi .slt : (⟨S1700000, .i32⟩ : BufTy).Contents (Elt F) → (⟨S1700000, .i32⟩ : BufTy).Contents (Elt F) → (⟨S1700000, .i1⟩ : BufTy).Contents (Elt F)),
    StableHlo.nullary main_c_30 (constantI S_ 32 100000#32),
    StableHlo.unary main_c_30 main_v158 (broadcastInDim S1700000 ![] bcast_S_S1700000 : (⟨S_, .i32⟩ : BufTy).Contents (Elt F) → (⟨S1700000, .i32⟩ : BufTy).Contents (Elt F)),
    StableHlo.binary main_v3 main_v158 main_v159 (addi : (⟨S1700000, .i32⟩ : BufTy).Contents (Elt F) → (⟨S1700000, .i32⟩ : BufTy).Contents (Elt F) → (⟨S1700000, .i32⟩ : BufTy).Contents (Elt F)),
    StableHlo.ternary main_v157 main_v159 main_v3 main_v160 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v160 main_v161 (broadcastInDim S1700000x1 ![0] bcast_S1700000_S1700000x1_0 : (⟨S1700000, .i32⟩ : BufTy).Contents (Elt F) → (⟨S1700000x1, .i32⟩ : BufTy).Contents (Elt F)),
    StableHlo.binary main_v155 main_v161 main_v162 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v27 main_v163 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v162 main_v163 main_v164 (mulf : (⟨S1700000x128, .f32⟩ : BufTy).Contents (Elt F) → (⟨S1700000x128, .f32⟩ : BufTy).Contents (Elt F) → (⟨S1700000x128, .f32⟩ : BufTy).Contents (Elt F)),
    StableHlo.nullary main_cst_31 (constant S_ .f32 0x00000000#32),
    StableHlo.unary main_cst_31 main_v165 (broadcastInDim S100000x128 ![] bcast_S_S100000x128 : (⟨S_, .f32⟩ : BufTy).Contents (Elt F) → (⟨S100000x128, .f32⟩ : BufTy).Contents (Elt F)),
    StableHlo.unary main_v6 main_v166 (broadcastInDim S1700000x1 ![0] bcast_S1700000_S1700000x1_0 : (⟨S1700000, .i32⟩ : BufTy).Contents (Elt F) → (⟨S1700000x1, .i32⟩ : BufTy).Contents (Elt F)),
    StableHlo.ternary main_v165 main_v166 main_v164 main_v167 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg10 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v169 main_v170 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x128, .f32⟩) (broadcastInDim S100000x128 ![] bcast_S_S100000x128),
    StableHlo.TRef.binary (.of main_v170 : StableHlo.TRef sig ⟨S100000x128, .f32⟩) (.of main_call7_v0 : StableHlo.TRef sig ⟨S100000x128, .f32⟩) (.of main_v171 : StableHlo.TRef sig ⟨S100000x128, .f32⟩) maximumf,
    StableHlo.nullary main_cst_32 (constant S_ .f32 0x00000000#32),
    StableHlo.binary main_v171 main_cst_32 main_v172 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_33 (constant S_ .f32 0x47C35000#32),
    StableHlo.unary main_cst_33 main_v173 (broadcastInDim S128 ![] bcast_S_S128 : (⟨S_, .f32⟩ : BufTy).Contents (Elt F) → (⟨S128, .f32⟩ : BufTy).Contents (Elt F)),
    StableHlo.binary main_v172 main_v173 main_v174 (Host.divf : (⟨S128, .f32⟩ : BufTy).Contents (Elt F) → (⟨S128, .f32⟩ : BufTy).Contents (Elt F) → (⟨S128, .f32⟩ : BufTy).Contents (Elt F)),
    StableHlo.nullary main_c_34 (constantI S_ 32 0#32),
    StableHlo.TRef.nullary (.of main_call8_cst : StableHlo.TRef sig ⟨S_, .f32⟩) (constant S_ .f32 0x00000000#32),
    StableHlo.TRef.binary (.of main_v171 : StableHlo.TRef sig ⟨S100000x128, .f32⟩) (.of main_call8_cst : StableHlo.TRef sig ⟨S_, .f32⟩) (.of main_call8_v0 : StableHlo.TRef sig ⟨S128, .f32⟩) (fun x v => Host.reduceAdd x v reducesTo_S100000x128_S128_d0 h_S_),
    StableHlo.TRef.unary (.of main_call8_v0 : StableHlo.TRef sig ⟨S128, .f32⟩) (.of main_call8_v1 : StableHlo.TRef sig ⟨S1x128, .f32⟩) (broadcastInDim S1x128 ![1] bcast_S128_S1x128_1),
    StableHlo.TRef.nullary (.of main_call8_cst_0 : StableHlo.TRef sig ⟨S_, .f32⟩) (constant S_ .f32 0x47C35000#32),
    StableHlo.TRef.unary (.of main_call8_cst_0 : StableHlo.TRef sig ⟨S_, .f32⟩) (.of main_call8_v2 : StableHlo.TRef sig ⟨S1x128, .f32⟩) (broadcastInDim S1x128 ![] bcast_S_S1x128),
    StableHlo.TRef.binary (.of main_call8_v1 : StableHlo.TRef sig ⟨S1x128, .f32⟩) (.of main_call8_v2 : StableHlo.TRef sig ⟨S1x128, .f32⟩) (.of main_call8_v3 : StableHlo.TRef sig ⟨S1x128, .f32⟩) Host.divf,
    StableHlo.TRef.unary (.of main_call8_v3 : StableHlo.TRef sig ⟨S1x128, .f32⟩) (.of main_call8_v4 : StableHlo.TRef sig ⟨S100000x128, .f32⟩) (broadcastInDim S100000x128 ![0, 1] bcast_S1x128_S100000x128_0_1),
    StableHlo.TRef.binary (.of main_v171 : StableHlo.TRef sig ⟨S100000x128, .f32⟩) (.of main_call8_v4 : StableHlo.TRef sig ⟨S100000x128, .f32⟩) (.of main_call8_v5 : StableHlo.TRef sig ⟨S100000x128, .f32⟩) subf,
    StableHlo.TRef.binary (.of main_call8_v5 : StableHlo.TRef sig ⟨S100000x128, .f32⟩) (.of main_call8_v5 : StableHlo.TRef sig ⟨S100000x128, .f32⟩) (.of main_call8_v6 : StableHlo.TRef sig ⟨S100000x128, .f32⟩) mulf,
    StableHlo.TRef.unary (.of main_c_34 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47C35000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S100000x128, .f32⟩) (.of main_call8_cst_2 : StableHlo.TRef sig ⟨S_, .f32⟩) (.of main_call8_v9 : StableHlo.TRef sig ⟨S128, .f32⟩) (fun x v => Host.reduceAdd x v reducesTo_S100000x128_S128_d0 h_S_),
    StableHlo.TRef.unary (.of main_call8_v8 : StableHlo.TRef sig ⟨S_, .f32⟩) (.of main_call8_v10 : StableHlo.TRef sig ⟨S128, .f32⟩) (broadcastInDim S128 ![] bcast_S_S128),
    StableHlo.TRef.binary (.of main_call8_v9 : StableHlo.TRef sig ⟨S128, .f32⟩) (.of main_call8_v10 : StableHlo.TRef sig ⟨S128, .f32⟩) (.of main_call8_v11 : StableHlo.TRef sig ⟨S128, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S128, .f32⟩) (broadcastInDim S128 ![] bcast_S_S128),
    StableHlo.TRef.ternary (.of main_call8_v12 : StableHlo.TRef sig ⟨S_, .i1⟩) (.of main_call8_v11 : StableHlo.TRef sig ⟨S128, .f32⟩) (.of main_call8_call0_v1 : StableHlo.TRef sig ⟨S128, .f32⟩) (.of main_v175 : StableHlo.TRef sig ⟨S128, .f32⟩) (fun p a b => select (broadcastInDim S128 ![] bcast_S_S128 p) a b),
    StableHlo.unary main_v174 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v171 main_v177 main_v178 (subf : (⟨S100000x128, .f32⟩ : BufTy).Contents (Elt F) → (⟨S100000x128, .f32⟩ : BufTy).Contents (Elt F) → (⟨S100000x128, .f32⟩ : BufTy).Contents (Elt F)),
    StableHlo.unary main_arg23 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v178 main_v181 (mulf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x3727C5AC#32),
    StableHlo.unary main_cst_35 main_v182 (broadcastInDim S128 ![] bcast_S_S128 : (⟨S_, .f32⟩ : BufTy).Contents (Elt F) → (⟨S128, .f32⟩ : BufTy).Contents (Elt F)),
    StableHlo.binary main_v175 main_v182 main_v183 (addf : (⟨S128, .f32⟩ : BufTy).Contents (Elt F) → (⟨S128, .f32⟩ : BufTy).Contents (Elt F) → (⟨S128, .f32⟩ : BufTy).Contents (Elt F)),
    StableHlo.unary main_v183 main_v184 (Host.rsqrt : (⟨S128, .f32⟩ : BufTy).Contents (Elt F) → (⟨S128, .f32⟩ : BufTy).Contents (Elt F)),
    StableHlo.unary main_v184 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S100000x128 ![0, 1] bcast_S1x128_S100000x128_0_1 : (⟨S1x128, .f32⟩ : BufTy).Contents (Elt F) → (⟨S100000x128, .f32⟩ : BufTy).Contents (Elt F)),
    StableHlo.binary main_v181 main_v186 main_v187 (mulf : (⟨S100000x128, .f32⟩ : BufTy).Contents (Elt F) → (⟨S100000x128, .f32⟩ : BufTy).Contents (Elt F) → (⟨S100000x128, .f32⟩ : BufTy).Contents (Elt F)),
    StableHlo.unary main_arg24 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v187 main_v189 main_v190 (addf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x3F800000#32),
    StableHlo.unary main_cst_36 main_v191 (broadcastInDim S100000 ![] bcast_S_S100000 : (⟨S_, .f32⟩ : BufTy).Contents (Elt F) → (⟨S100000, .f32⟩ : BufTy).Contents (Elt F)),
    StableHlo.nullary main_cst_37 (constant S_ .f32 0x00000000#32),
    StableHlo.unary main_cst_37 main_v192 (broadcastInDim S16 ![] bcast_S_S16 : (⟨S_, .f32⟩ : BufTy).Contents (Elt F) → (⟨S16, .f32⟩ : BufTy).Contents (Elt F)),
    StableHlo.unary main_arg2 main_v193 (broadcastInDim S100000x1 ![0] bcast_S100000_S100000x1_0 : (⟨S100000, .i32⟩ : BufTy).Contents (Elt F) → (⟨S100000x1, .i32⟩ : BufTy).Contents (Elt F)),
    StableHlo.ternary main_v192 main_v193 main_v191 main_v194 ((fun x i u => Host.scatterAdd scatter_S16_S100000x1_S100000_n_0_0_1 x i u) : (⟨S16, .f32⟩ : BufTy).Contents (Elt F) → (⟨S100000x1, .i32⟩ : BufTy).Contents (Elt F) → (⟨S100000, .f32⟩ : BufTy).Contents (Elt F) → (⟨S16, .f32⟩ : BufTy).Contents (Elt F)),
    StableHlo.nullary main_cst_38 (constant S_ .f32 0x3F800000#32),
    StableHlo.unary main_cst_38 main_v195 (broadcastInDim S16 ![] bcast_S_S16 : (⟨S_, .f32⟩ : BufTy).Contents (Elt F) → (⟨S16, .f32⟩ : BufTy).Contents (Elt F)),
    StableHlo.binary main_v194 main_v195 main_v196 (maximumf : (⟨S16, .f32⟩ : BufTy).Contents (Elt F) → (⟨S16, .f32⟩ : BufTy).Contents (Elt F) → (⟨S16, .f32⟩ : BufTy).Contents (Elt F)),
    StableHlo.nullary main_cst_39 (constant S_ .f32 0x00000000#32),
    StableHlo.unary main_cst_39 main_v197 (broadcastInDim S16x128 ![] bcast_S_S16x128 : (⟨S_, .f32⟩ : BufTy).Contents (Elt F) → (⟨S16x128, .f32⟩ : BufTy).Contents (Elt F)) ]
/-- The references those operations write, in the same order. -/
abbrev wr3 : List (Ref sig .tc) :=
  [main_v149, main_v150, main_v151, main_v152, main_v153, main_v154, main_v155, main_c_29, main_v156, main_v157, main_c_30, main_v158, main_v159, main_v160, main_v161, main_v162, main_v163, main_v164, main_cst_31, main_v165, main_v166, main_v167, main_v168, main_v169, main_v170, main_call7_cst, main_call7_v0, main_v171, main_cst_32, main_v172, main_cst_33, main_v173, main_v174, main_c_34, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v175, main_v176, main_v177, main_v178, main_v179, main_v180, main_v181, main_cst_35, main_v182, main_v183, main_v184, main_v185, main_v186, main_v187, main_v188, main_v189, main_v190, main_cst_36, main_v191, main_cst_37, main_v192, main_v193, main_v194, main_cst_38, main_v195, main_v196, main_cst_39, main_v197]
/-- Each touches TensorCore references only. -/
theorem ops3_sub : (ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub ..⟩
/-- Each determines its result (none allocates a buffer with contents left open). -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The 60 operations of window 4 of @main, calls inlined, in order. -/
abbrev ops4 : List (HloOp τ sig (Elt F)) :=
  [ StableHlo.unary main_arg2 main_v198 (broadcastInDim S100000x1 ![0] bcast_S100000_S100000x1_0 : (⟨S100000, .i32⟩ : BufTy).Contents (Elt F) → (⟨S100000x1, .i32⟩ : BufTy).Contents (Elt F)),
    StableHlo.ternary main_v197 main_v198 main_v190 main_v199 ((fun x i u => Host.scatterAdd scatter_S16x128_S100000x1_S100000x128_1_0_0_1 x i u) : (⟨S16x128, .f32⟩ : BufTy).Contents (Elt F) → (⟨S100000x1, .i32⟩ : BufTy).Contents (Elt F) → (⟨S100000x128, .f32⟩ : BufTy).Contents (Elt F) → (⟨S16x128, .f32⟩ : BufTy).Contents (Elt F)),
    StableHlo.unary main_v196 main_v200 (broadcastInDim S16x1 ![0] bcast_S16_S16x1_0 : (⟨S16, .f32⟩ : BufTy).Contents (Elt F) → (⟨S16x1, .f32⟩ : BufTy).Contents (Elt F)),
    StableHlo.unary main_v200 main_v201 (broadcastInDim S16x128 ![0, 1] bcast_S16x1_S16x128_0_1 : (⟨S16x1, .f32⟩ : BufTy).Contents (Elt F) → (⟨S16x128, .f32⟩ : BufTy).Contents (Elt F)),
    StableHlo.binary main_v199 main_v201 main_v202 (Host.divf : (⟨S16x128, .f32⟩ : BufTy).Contents (Elt F) → (⟨S16x128, .f32⟩ : BufTy).Contents (Elt F) → (⟨S16x128, .f32⟩ : BufTy).Contents (Elt F)),
    StableHlo.binary main_v202 main_arg11 main_v203 ((fun l r => Host.dotGeneral dot_S16x128_S128x128_S16x128_1_0_0_1_n_n none l r) : (⟨S16x128, .f32⟩ : BufTy).Contents (Elt F) → (⟨S128x128, .f32⟩ : BufTy).Contents (Elt F) → (⟨S16x128, .f32⟩ : BufTy).Contents (Elt F)),
    StableHlo.unary main_arg12 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S16x128 ![0, 1] bcast_S1x128_S16x128_0_1 : (⟨S1x128, .f32⟩ : BufTy).Contents (Elt F) → (⟨S16x128, .f32⟩ : BufTy).Contents (Elt F)),
    StableHlo.binary main_v203 main_v205 main_v206 (addf : (⟨S16x128, .f32⟩ : BufTy).Contents (Elt F) → (⟨S16x128, .f32⟩ : BufTy).Contents (Elt F) → (⟨S16x128, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S16x128, .f32⟩) (broadcastInDim S16x128 ![] bcast_S_S16x128),
    StableHlo.TRef.binary (.of main_v206 : StableHlo.TRef sig ⟨S16x128, .f32⟩) (.of main_call9_v0 : StableHlo.TRef sig ⟨S16x128, .f32⟩) (.of main_v207 : StableHlo.TRef sig ⟨S16x128, .f32⟩) maximumf,
    StableHlo.nullary main_cst_40 (constant S_ .f32 0x00000000#32),
    StableHlo.binary main_v207 main_cst_40 main_v208 ((fun x v => Host.reduceAdd x v reducesTo_S16x128_S128_d0 h_S_) : (⟨S16x128, .f32⟩ : BufTy).Contents (Elt F) → (⟨S_, .f32⟩ : BufTy).Contents (Elt F) → (⟨S128, .f32⟩ : BufTy).Contents (Elt F)),
    StableHlo.nullary main_cst_41 (constant S_ .f32 0x41800000#32),
    StableHlo.unary main_cst_41 main_v209 (broadcastInDim S128 ![] bcast_S_S128 : (⟨S_, .f32⟩ : BufTy).Contents (Elt F) → (⟨S128, .f32⟩ : BufTy).Contents (Elt F)),
    StableHlo.binary main_v208 main_v209 main_v210 (Host.divf : (⟨S128, .f32⟩ : BufTy).Contents (Elt F) → (⟨S128, .f32⟩ : BufTy).Contents (Elt F) → (⟨S128, .f32⟩ : BufTy).Contents (Elt F)),
    StableHlo.nullary main_c_42 (constantI S_ 32 0#32),
    StableHlo.TRef.nullary (.of main_call10_cst : StableHlo.TRef sig ⟨S_, .f32⟩) (constant S_ .f32 0x00000000#32),
    StableHlo.TRef.binary (.of main_v207 : StableHlo.TRef sig ⟨S16x128, .f32⟩) (.of main_call10_cst : StableHlo.TRef sig ⟨S_, .f32⟩) (.of main_call10_v0 : StableHlo.TRef sig ⟨S128, .f32⟩) (fun x v => Host.reduceAdd x v reducesTo_S16x128_S128_d0 h_S_),
    StableHlo.TRef.unary (.of main_call10_v0 : StableHlo.TRef sig ⟨S128, .f32⟩) (.of main_call10_v1 : StableHlo.TRef sig ⟨S1x128, .f32⟩) (broadcastInDim S1x128 ![1] bcast_S128_S1x128_1),
    StableHlo.TRef.nullary (.of main_call10_cst_0 : StableHlo.TRef sig ⟨S_, .f32⟩) (constant S_ .f32 0x41800000#32),
    StableHlo.TRef.unary (.of main_call10_cst_0 : StableHlo.TRef sig ⟨S_, .f32⟩) (.of main_call10_v2 : StableHlo.TRef sig ⟨S1x128, .f32⟩) (broadcastInDim S1x128 ![] bcast_S_S1x128),
    StableHlo.TRef.binary (.of main_call10_v1 : StableHlo.TRef sig ⟨S1x128, .f32⟩) (.of main_call10_v2 : StableHlo.TRef sig ⟨S1x128, .f32⟩) (.of main_call10_v3 : StableHlo.TRef sig ⟨S1x128, .f32⟩) Host.divf,
    StableHlo.TRef.unary (.of main_call10_v3 : StableHlo.TRef sig ⟨S1x128, .f32⟩) (.of main_call10_v4 : StableHlo.TRef sig ⟨S16x128, .f32⟩) (broadcastInDim S16x128 ![0, 1] bcast_S1x128_S16x128_0_1),
    StableHlo.TRef.binary (.of main_v207 : StableHlo.TRef sig ⟨S16x128, .f32⟩) (.of main_call10_v4 : StableHlo.TRef sig ⟨S16x128, .f32⟩) (.of main_call10_v5 : StableHlo.TRef sig ⟨S16x128, .f32⟩) subf,
    StableHlo.TRef.binary (.of main_call10_v5 : StableHlo.TRef sig ⟨S16x128, .f32⟩) (.of main_call10_v5 : StableHlo.TRef sig ⟨S16x128, .f32⟩) (.of main_call10_v6 : StableHlo.TRef sig ⟨S16x128, .f32⟩) mulf,
    StableHlo.TRef.unary (.of main_c_42 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x41800000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S16x128, .f32⟩) (.of main_call10_cst_2 : StableHlo.TRef sig ⟨S_, .f32⟩) (.of main_call10_v9 : StableHlo.TRef sig ⟨S128, .f32⟩) (fun x v => Host.reduceAdd x v reducesTo_S16x128_S128_d0 h_S_),
    StableHlo.TRef.unary (.of main_call10_v8 : StableHlo.TRef sig ⟨S_, .f32⟩) (.of main_call10_v10 : StableHlo.TRef sig ⟨S128, .f32⟩) (broadcastInDim S128 ![] bcast_S_S128),
    StableHlo.TRef.binary (.of main_call10_v9 : StableHlo.TRef sig ⟨S128, .f32⟩) (.of main_call10_v10 : StableHlo.TRef sig ⟨S128, .f32⟩) (.of main_call10_v11 : StableHlo.TRef sig ⟨S128, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S128, .f32⟩) (broadcastInDim S128 ![] bcast_S_S128),
    StableHlo.TRef.ternary (.of main_call10_v12 : StableHlo.TRef sig ⟨S_, .i1⟩) (.of main_call10_v11 : StableHlo.TRef sig ⟨S128, .f32⟩) (.of main_call10_call0_v1 : StableHlo.TRef sig ⟨S128, .f32⟩) (.of main_v211 : StableHlo.TRef sig ⟨S128, .f32⟩) (fun p a b => select (broadcastInDim S128 ![] bcast_S_S128 p) a b),
    StableHlo.unary main_v210 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S16x128 ![0, 1] bcast_S1x128_S16x128_0_1 : (⟨S1x128, .f32⟩ : BufTy).Contents (Elt F) → (⟨S16x128, .f32⟩ : BufTy).Contents (Elt F)),
    StableHlo.binary main_v207 main_v213 main_v214 (subf : (⟨S16x128, .f32⟩ : BufTy).Contents (Elt F) → (⟨S16x128, .f32⟩ : BufTy).Contents (Elt F) → (⟨S16x128, .f32⟩ : BufTy).Contents (Elt F)),
    StableHlo.unary main_arg25 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S16x128 ![0, 1] bcast_S1x128_S16x128_0_1 : (⟨S1x128, .f32⟩ : BufTy).Contents (Elt F) → (⟨S16x128, .f32⟩ : BufTy).Contents (Elt F)),
    StableHlo.binary main_v216 main_v214 main_v217 (mulf : (⟨S16x128, .f32⟩ : BufTy).Contents (Elt F) → (⟨S16x128, .f32⟩ : BufTy).Contents (Elt F) → (⟨S16x128, .f32⟩ : BufTy).Contents (Elt F)),
    StableHlo.nullary main_cst_43 (constant S_ .f32 0x3727C5AC#32),
    StableHlo.unary main_cst_43 main_v218 (broadcastInDim S128 ![] bcast_S_S128 : (⟨S_, .f32⟩ : BufTy).Contents (Elt F) → (⟨S128, .f32⟩ : BufTy).Contents (Elt F)),
    StableHlo.binary main_v211 main_v218 main_v219 (addf : (⟨S128, .f32⟩ : BufTy).Contents (Elt F) → (⟨S128, .f32⟩ : BufTy).Contents (Elt F) → (⟨S128, .f32⟩ : BufTy).Contents (Elt F)),
    StableHlo.unary main_v219 main_v220 (Host.rsqrt : (⟨S128, .f32⟩ : BufTy).Contents (Elt F) → (⟨S128, .f32⟩ : BufTy).Contents (Elt F)),
    StableHlo.unary main_v220 main_v221 (broadcastInDim S1x128 ![1] bcast_S128_S1x128_1 : (⟨S128, .f32⟩ : BufTy).Contents (Elt F) → (⟨S1x128, .f32⟩ : BufTy).Contents (Elt F)),
    StableHlo.unary main_v221 main_v222 (broadcastInDim S16x128 ![0, 1] bcast_S1x128_S16x128_0_1 : (⟨S1x128, .f32⟩ : BufTy).Contents (Elt F) → (⟨S16x128, .f32⟩ : BufTy).Contents (Elt F)),
    StableHlo.binary main_v217 main_v222 main_v223 (mulf : (⟨S16x128, .f32⟩ : BufTy).Contents (Elt F) → (⟨S16x128, .f32⟩ : BufTy).Contents (Elt F) → (⟨S16x128, .f32⟩ : BufTy).Contents (Elt F)),
    StableHlo.unary main_arg26 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S16x128 ![0, 1] bcast_S1x128_S16x128_0_1 : (⟨S1x128, .f32⟩ : BufTy).Contents (Elt F) → (⟨S16x128, .f32⟩ : BufTy).Contents (Elt F)),
    StableHlo.binary main_v223 main_v225 main_v226 (addf : (⟨S16x128, .f32⟩ : BufTy).Contents (Elt F) → (⟨S16x128, .f32⟩ : BufTy).Contents (Elt F) → (⟨S16x128, .f32⟩ : BufTy).Contents (Elt F)),
    StableHlo.binary main_v226 main_arg13 main_v227 ((fun l r => Host.dotGeneral dot_S16x128_S128x10_S16x10_1_0_0_1_n_n none l r) : (⟨S16x128, .f32⟩ : BufTy).Contents (Elt F) → (⟨S128x10, .f32⟩ : BufTy).Contents (Elt F) → (⟨S16x10, .f32⟩ : BufTy).Contents (Elt F)),
    StableHlo.unary main_arg14 main_v228 (broadcastInDim S1x10 ![1] bcast_S10_S1x10_1 : (⟨S10, .f32⟩ : BufTy).Contents (Elt F) → (⟨S1x10, .f32⟩ : BufTy).Contents (Elt F)),
    StableHlo.unary main_v228 main_v229 (broadcastInDim S16x10 ![0, 1] bcast_S1x10_S16x10_0_1 : (⟨S1x10, .f32⟩ : BufTy).Contents (Elt F) → (⟨S16x10, .f32⟩ : BufTy).Contents (Elt F)),
    StableHlo.binary main_v227 main_v229 main_v230 (addf : (⟨S16x10, .f32⟩ : BufTy).Contents (Elt F) → (⟨S16x10, .f32⟩ : BufTy).Contents (Elt F) → (⟨S16x10, .f32⟩ : BufTy).Contents (Elt F)) ]
/-- The references those operations write, in the same order. -/
abbrev wr4 : List (Ref sig .tc) :=
  [main_v198, main_v199, main_v200, main_v201, main_v202, main_v203, main_v204, main_v205, main_v206, main_call9_cst, main_call9_v0, main_v207, main_cst_40, main_v208, main_cst_41, main_v209, main_v210, main_c_42, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v211, main_v212, main_v213, main_v214, main_v215, main_v216, main_v217, main_cst_43, main_v218, main_v219, main_v220, main_v221, main_v222, main_v223, main_v224, main_v225, main_v226, main_v227, main_v228, main_v229, main_v230]
/-- Each touches TensorCore references only. -/
theorem ops4_sub : (ops4 : List (HloOp τ sig (Elt F))).Forall fun op => op.bufs ⊆ StableHlo.tcRefs τ sig :=
  ⟨StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- Each determines its result (none allocates a buffer with contents left open). -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's 413 operations, in order. -/
abbrev ops : List (HloOp τ sig (Elt F)) := ops0 ++ ops1 ++ ops2 ++ ops3 ++ ops4

end Cert.ReferenceIdeal.RunH

end
-- ==== Proof.RefRun.lean ====
import proofs.«402048_j34643206209888_3_alg».proof.Proof.RefOps
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 8192 in
theorem part0_eq (c : Dev nD) : main_part0 (F := F) c = seq ops0 := by
  simp only [main_part0, fn_var.body, fn_where.body, seq, bind_assoc, pure_bind]
  rfl

set_option maxRecDepth 8192 in
theorem part1_eq (c : Dev nD) : main_part1 (F := F) c = seq ops1 := by
  simp only [main_part1, fn_relu.body, fn_var_0.body, fn_where_1.body, seq, bind_assoc, pure_bind]

set_option maxRecDepth 8192 in
theorem part2_eq (c : Dev nD) : main_part2 (F := F) c = seq ops2 := by
  simp only [main_part2, fn_relu.body, fn_var_0.body, fn_where_1.body, seq, bind_assoc, pure_bind]
  rfl

set_option maxRecDepth 8192 in
theorem part3_eq (c : Dev nD) : main_part3 (F := F) c = seq ops3 := by
  simp only [main_part3, fn_relu.body, fn_var_0.body, fn_where_1.body, seq, bind_assoc, pure_bind]
  rfl

set_option maxRecDepth 8192 in
theorem part4_eq (c : Dev nD) : main_part4 (F := F) c = seq ops4 := by
  simp only [main_part4, fn_relu_2.body, fn_var_3.body, fn_where_1.body, seq, bind_assoc, pure_bind]

theorem main_eq (c : Dev nD) : main (F := F) c = seq ops := by
  simp only [ops, seq_append, bind_assoc, ← part0_eq c, ← part1_eq c, ← part2_eq c, ← part3_eq c, ← part4_eq c]
  rfl

set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨List.forall_append.2 ⟨List.forall_append.2 ⟨List.forall_append.2 ⟨ops0_sub, ops1_sub⟩, ops2_sub⟩, ops3_sub⟩, ops4_sub⟩

theorem ops_fresh : (ops : List (HloOp τ sig (Elt F))).Forall fun op => op.fresh = ∅ :=
  List.forall_append.2 ⟨List.forall_append.2 ⟨List.forall_append.2 ⟨List.forall_append.2 ⟨ops0_fresh, ops1_fresh⟩, ops2_fresh⟩, ops3_fresh⟩, ops4_fresh⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

theorem after_parts (V : Valuation τ sig (Elt F)) :
    after ops V = after ops4 (after ops3 (after ops2 (after ops1 (after ops0 V)))) := by
  simp only [ops, StableHlo.after_append]

set_option maxRecDepth 16384 in
theorem ops0_writes : (ops0 : List (HloOp τ sig (Elt F))).Forall fun op =>
    op.writes ⊆ (wr0.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 16384 in
theorem ops1_writes : (ops1 : List (HloOp τ sig (Elt F))).Forall fun op =>
    op.writes ⊆ (wr1.map (Proc.devRef (τ := τ) .tc)).toFinset := by
  simp only [List.Forall, nullary_writes, unary_writes, binary_writes, ternary_writes,
    Finset.singleton_subset_iff, List.mem_toFinset]
  repeat' apply And.intro
  all_goals exact List.mem_map_of_mem (by decide)

set_option maxRecDepth 16384 in
theorem ops2_writes : (ops2 : List (HloOp τ sig (Elt F))).Forall fun op =>
    op.writes ⊆ (wr2.map (Proc.devRef (τ := τ) .tc)).toFinset := by
  simp only [List.Forall, nullary_writes, unary_writes, binary_writes, ternary_writes,
    Finset.singleton_subset_iff, List.mem_toFinset]
  repeat' apply And.intro
  all_goals exact List.mem_map_of_mem (by decide)

set_option maxRecDepth 16384 in
theorem ops3_writes : (ops3 : List (HloOp τ sig (Elt F))).Forall fun op =>
    op.writes ⊆ (wr3.map (Proc.devRef (τ := τ) .tc)).toFinset := by
  simp only [List.Forall, nullary_writes, unary_writes, binary_writes, ternary_writes,
    Finset.singleton_subset_iff, List.mem_toFinset]
  repeat' apply And.intro
  all_goals exact List.mem_map_of_mem (by decide)

set_option maxRecDepth 16384 in
theorem ops4_writes : (ops4 : List (HloOp τ sig (Elt F))).Forall fun op =>
    op.writes ⊆ (wr4.map (Proc.devRef (τ := τ) .tc)).toFinset := by
  simp only [List.Forall, nullary_writes, unary_writes, binary_writes, ternary_writes,
    Finset.singleton_subset_iff, List.mem_toFinset]
  repeat' apply And.intro
  all_goals exact List.mem_map_of_mem (by decide)

theorem kept (V : Valuation τ sig (Elt F)) {r : Ref sig .tc} (hr : r ∉ wr0 ++ wr1 ++ wr2 ++ wr3 ++ wr4) :
    after ops V (Proc.devRef .tc r) = V (Proc.devRef .tc r) := by
  simp only [List.mem_append, not_or] at hr
  obtain ⟨⟨⟨⟨h0, h1⟩, h2⟩, h3⟩, h4⟩ := hr
  rw [after_parts, after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

theorem mem_kept {m mem : (ℓ : Loc nD τ sig) → Buf (Elt F) ℓ}
    (h : ∀ (c : Dev nD) (b : Ref sig .tc), mem ((c.tc : Thread nD τ).loc b) = after ops (launchContents m c) (b : DevRef τ sig))
    (c : Dev nD) {b : Ref sig .tc} (hb : b ∉ wr0 ++ wr1 ++ wr2 ++ wr3 ++ wr4) :
    mem ((c.tc : Thread nD τ).loc b) = m ((c.tc : Thread nD τ).loc b) :=
  (h c b).trans (kept _ hb)

end Cert.ReferenceIdeal.RunH

end
-- ==== Proof.RefValue.lean ====
import proofs.«402048_j34643206209888_3_alg».proof.Proof.SpecK
import proofs.«402048_j34643206209888_3_alg».proof.Proof.SpecR
import proofs.«402048_j34643206209888_3_alg».proof.Proof.RefRun
import proofs.«402048_j34643206209888_3_alg».proof.Proof.Tops

set_option maxRecDepth 16384

noncomputable section

namespace Cert.ReferenceIdeal.ChainV

open Idealize.ShloMosaic Idealize.ShloMosaic.TcCoe Idealize.ShloMosaic.StableHlo Cert.ReferenceIdeal Cert.ReferenceIdeal.Gen Cert.ReferenceIdeal.RunH

section General

variable {nD : Nat} {τ : Topo} {sig : RefSig} {Val : EltTy → Type}

theorem after_seg (l : List (HloOp τ sig Val)) {a b c : Nat} (h : a + b = c) (V : Valuation τ sig Val) :
    after (l.drop a) V = after (l.drop c) (after ((l.drop a).take b) V) := by
  subst h
  rw [← StableHlo.after_append, ← List.drop_drop, List.take_append_drop]

theorem kept_seg {W : List (Ref sig .tc)} {l : List (HloOp τ sig Val)}
    (hW : l.Forall fun op => op.writes ⊆ (W.map (Proc.devRef (τ := τ) .tc)).toFinset) (a b : Nat)
    (V : Valuation τ sig Val) {r : Ref sig .tc} (hr : r ∉ W) :
    after ((l.drop a).take b) V (Proc.devRef .tc r) = V (Proc.devRef .tc r) :=
  after_of_writes_sub _ V (List.forall_iff_forall_mem.2 fun op h =>
    List.forall_iff_forall_mem.1 hW op (List.mem_of_mem_drop (List.mem_of_mem_take h))) hr

theorem kept_drop {W : List (Ref sig .tc)} {l : List (HloOp τ sig Val)}
    (hW : l.Forall fun op => op.writes ⊆ (W.map (Proc.devRef (τ := τ) .tc)).toFinset) (a : Nat)
    (V : Valuation τ sig Val) {r : Ref sig .tc} (hr : r ∉ W) :
    after (l.drop a) V (Proc.devRef .tc r) = V (Proc.devRef .tc r) :=
  after_of_writes_sub _ V (List.forall_iff_forall_mem.2 fun op h =>
    List.forall_iff_forall_mem.1 hW op (List.mem_of_mem_drop h)) hr

end General

variable {F : FTy → Type} [FloatOps F]

theorem st_src (V : Valuation τ sig (Elt F)) :
    after ((ops0.drop 0).take 78) V (Proc.devRef .tc main_v3)
      = Cert.SpecK.srcWords (V (Proc.devRef .tc main_arg1)) := by
  simp only [List.drop_succ_cons, List.drop_zero, List.take_succ_cons, List.take_zero]
  after_results_simp
  rfl

theorem st_dst (V : Valuation τ sig (Elt F)) :
    after ((ops0.drop 0).take 78) V (Proc.devRef .tc main_v6)
      = Cert.SpecK.dstWords (V (Proc.devRef .tc main_arg1)) := by
  simp only [List.drop_succ_cons, List.drop_zero, List.take_succ_cons, List.take_zero]
  after_results_simp
  rfl

theorem st_nuc (V : Valuation τ sig (Elt F)) :
    after ((ops0.drop 0).take 78) V (Proc.devRef .tc main_v27)
      = Cert.SpecR.normCol (Cert.SpecK.edgeNorm (Cert.SpecK.dstWords (V (Proc.devRef .tc main_arg1))) (Cert.SpecK.srcWords (V (Proc.devRef .tc main_arg1)))) := by
  simp only [List.drop_succ_cons, List.drop_zero, List.take_succ_cons, List.take_zero]
  after_results_simp
  rfl

theorem st_h0 (V : Valuation τ sig (Elt F)) :
    after ((ops0.drop 0).take 78) V (Proc.devRef .tc main_v46)
      = Cert.SpecK.inputNorm (V (Proc.devRef .tc main_arg0)) (V (Proc.devRef .tc main_arg15)) (V (Proc.devRef .tc main_arg16)) := by
  simp only [List.drop_succ_cons, List.drop_zero, List.take_succ_cons, List.take_zero]
  after_results_simp
  rfl

theorem st_conv1 (V : Valuation τ sig (Elt F)) :
    after ((ops1.drop 0).take 16) (after (ops0.drop 78) V) (Proc.devRef .tc main_v62)
      = Cert.SpecR.conv16 (V (Proc.devRef .tc main_v46)) (V (Proc.devRef .tc main_arg3)) (V (Proc.devRef .tc main_v3)) (V (Proc.devRef .tc main_v27)) (V (Proc.devRef .tc main_v6)) (V (Proc.devRef .tc main_arg4)) := by
  simp only [List.drop_succ_cons, List.drop_zero, List.take_succ_cons, List.take_zero]
  after_results_simp
  rfl

theorem st_relu1 (V : Valuation τ sig (Elt F)) :
    after ((ops1.drop 16).take 3) V (Proc.devRef .tc main_v63)
      = Cert.SpecR.relu128 (V (Proc.devRef .tc main_v62)) := by
  simp only [List.drop_succ_cons, List.drop_zero, List.take_succ_cons, List.take_zero]
  after_results_simp
  rfl

theorem st_norm1 (V : Valuation τ sig (Elt F)) :
    after ((ops1.drop 19).take 44) V (Proc.devRef .tc main_v82)
      = Cert.SpecR.normFromData (V (Proc.devRef .tc main_v63)) (V (Proc.devRef .tc main_arg17)) (V (Proc.devRef .tc main_arg18)) := by
  simp only [List.drop_succ_cons, List.drop_zero, List.take_succ_cons, List.take_zero]
  after_results_simp
  rfl

theorem st_conv2 (V : Valuation τ sig (Elt F)) :
    after ((ops1.drop 63).take 19) V (Proc.devRef .tc main_v98)
      = Cert.SpecR.conv128 (V (Proc.devRef .tc main_v82)) (V (Proc.devRef .tc main_arg5)) (V (Proc.devRef .tc main_v3)) (V (Proc.devRef .tc main_v27)) (V (Proc.devRef .tc main_v6)) (V (Proc.devRef .tc main_arg6)) := by
  simp only [List.drop_succ_cons, List.drop_zero, List.take_succ_cons, List.take_zero]
  after_results_simp
  rfl

theorem st_relu2 (V : Valuation τ sig (Elt F)) :
    after (ops1.drop 82) V (Proc.devRef .tc main_v99)
      = Cert.SpecR.relu128 (V (Proc.devRef .tc main_v98)) := by
  simp only [List.drop_succ_cons, List.drop_zero, List.take_succ_cons, List.take_zero]
  after_results_simp
  rfl

theorem st_norm2 (V : Valuation τ sig (Elt F)) :
    after ((ops2.drop 0).take 44) V (Proc.devRef .tc main_v118)
      = Cert.SpecR.normFromData (V (Proc.devRef .tc main_v99)) (V (Proc.devRef .tc main_arg19)) (V (Proc.devRef .tc main_arg20)) := by
  simp only [List.drop_succ_cons, List.drop_zero, List.take_succ_cons, List.take_zero]
  after_results_simp
  rfl

theorem st_conv3 (V : Valuation τ sig (Elt F)) :
    after ((ops2.drop 44).take 19) V (Proc.devRef .tc main_v134)
      = Cert.SpecR.conv128 (V (Proc.devRef .tc main_v118)) (V (Proc.devRef .tc main_arg7)) (V (Proc.devRef .tc main_v3)) (V (Proc.devRef .tc main_v27)) (V (Proc.devRef .tc main_v6)) (V (Proc.devRef .tc main_arg8)) := by
  simp only [List.drop_succ_cons, List.drop_zero, List.take_succ_cons, List.take_zero]
  after_results_simp
  rfl

theorem st_relu3 (V : Valuation τ sig (Elt F)) :
    after ((ops2.drop 63).take 3) V (Proc.devRef .tc main_v135)
      = Cert.SpecR.relu128 (V (Proc.devRef .tc main_v134)) := by
  simp only [List.drop_succ_cons, List.drop_zero, List.take_succ_cons, List.take_zero]
  after_results_simp
  rfl

theorem st_norm3 (V : Valuation τ sig (Elt F)) :
    after ((ops3.drop 0).take 6) (after (ops2.drop 66) V) (Proc.devRef .tc main_v154)
      = Cert.SpecR.normFromData (V (Proc.devRef .tc main_v135)) (V (Proc.devRef .tc main_arg21)) (V (Proc.devRef .tc main_arg22)) := by
  simp only [List.drop_succ_cons, List.drop_zero, List.take_succ_cons, List.take_zero]
  after_results_simp
  rfl

theorem st_conv4 (V : Valuation τ sig (Elt F)) :
    after ((ops3.drop 6).take 19) V (Proc.devRef .tc main_v170)
      = Cert.SpecR.conv128 (V (Proc.devRef .tc main_v154)) (V (Proc.devRef .tc main_arg9)) (V (Proc.devRef .tc main_v3)) (V (Proc.devRef .tc main_v27)) (V (Proc.devRef .tc main_v6)) (V (Proc.devRef .tc main_arg10)) := by
  simp only [List.drop_succ_cons, List.drop_zero, List.take_succ_cons, List.take_zero]
  after_results_simp
  rfl

theorem st_relu4 (V : Valuation τ sig (Elt F)) :
    after ((ops3.drop 25).take 3) V (Proc.devRef .tc main_v171)
      = Cert.SpecR.relu128 (V (Proc.devRef .tc main_v170)) := by
  simp only [List.drop_succ_cons, List.drop_zero, List.take_succ_cons, List.take_zero]
  after_results_simp
  rfl

theorem st_norm4 (V : Valuation τ sig (Elt F)) :
    after ((ops3.drop 28).take 44) V (Proc.devRef .tc main_v190)
      = Cert.SpecR.normFromData (V (Proc.devRef .tc main_v171)) (V (Proc.devRef .tc main_arg23)) (V (Proc.devRef .tc main_arg24)) := by
  simp only [List.drop_succ_cons, List.drop_zero, List.take_succ_cons, List.take_zero]
  after_results_simp
  rfl

theorem st_readout (V : Valuation τ sig (Elt F)) :
    after ops4 (after (ops3.drop 72) V) (Proc.devRef .tc main_v230)
      = Cert.SpecK.readout (V (Proc.devRef .tc main_arg2)) (V (Proc.devRef .tc main_v190)) (V (Proc.devRef .tc main_arg11)) (V (Proc.devRef .tc main_arg12)) (V (Proc.devRef .tc main_arg25)) (V (Proc.devRef .tc main_arg26)) (V (Proc.devRef .tc main_arg13)) (V (Proc.devRef .tc main_arg14)) := by
  simp only [List.drop_succ_cons, List.drop_zero, List.take_succ_cons, List.take_zero]
  after_results_simp
  rfl

theorem win0 (V : Valuation τ sig (Elt F)) :
    after ops0 V = after (ops0.drop 78) (after ((ops0.drop 0).take 78) V) :=
  after_seg ops0 (a := 0) (b := 78) (c := 78) rfl V

theorem win1 (V : Valuation τ sig (Elt F)) :
    after ops1 V = after (ops1.drop 82) (after ((ops1.drop 63).take 19) (after ((ops1.drop 19).take 44)
      (after ((ops1.drop 16).take 3) (after ((ops1.drop 0).take 16) V)))) :=
  (after_seg ops1 (a := 0) (b := 16) (c := 16) rfl V).trans <|
    (after_seg ops1 (a := 16) (b := 3) (c := 19) rfl _).trans <|
    (after_seg ops1 (a := 19) (b := 44) (c := 63) rfl _).trans <|
    after_seg ops1 (a := 63) (b := 19) (c := 82) rfl _

theorem win2 (V : Valuation τ sig (Elt F)) :
    after ops2 V = after (ops2.drop 66) (after ((ops2.drop 63).take 3) (after ((ops2.drop 44).take 19)
      (after ((ops2.drop 0).take 44) V))) :=
  (after_seg ops2 (a := 0) (b := 44) (c := 44) rfl V).trans <|
    (after_seg ops2 (a := 44) (b := 19) (c := 63) rfl _).trans <|
    after_seg ops2 (a := 63) (b := 3) (c := 66) rfl _

theorem win3 (V : Valuation τ sig (Elt F)) :
    after ops3 V = after (ops3.drop 72) (after ((ops3.drop 28).take 44) (after ((ops3.drop 25).take 3)
      (after ((ops3.drop 6).take 19) (after ((ops3.drop 0).take 6) V)))) :=
  (after_seg ops3 (a := 0) (b := 6) (c := 6) rfl V).trans <|
    (after_seg ops3 (a := 6) (b := 19) (c := 25) rfl _).trans <|
    (after_seg ops3 (a := 25) (b := 3) (c := 28) rfl _).trans <|
    after_seg ops3 (a := 28) (b := 44) (c := 72) rfl _

def A0 (V : Valuation τ sig (Elt F)) : Valuation τ sig (Elt F) := after ((ops0.drop 0).take 78) V

def A1 (V : Valuation τ sig (Elt F)) : Valuation τ sig (Elt F) := after ((ops1.drop 0).take 16) (after (ops0.drop 78) (A0 V))

def A2 (V : Valuation τ sig (Elt F)) : Valuation τ sig (Elt F) := after ((ops1.drop 16).take 3) (A1 V)

def A3 (V : Valuation τ sig (Elt F)) : Valuation τ sig (Elt F) := after ((ops1.drop 19).take 44) (A2 V)

def A4 (V : Valuation τ sig (Elt F)) : Valuation τ sig (Elt F) := after ((ops1.drop 63).take 19) (A3 V)

def A5 (V : Valuation τ sig (Elt F)) : Valuation τ sig (Elt F) := after (ops1.drop 82) (A4 V)

def A6 (V : Valuation τ sig (Elt F)) : Valuation τ sig (Elt F) := after ((ops2.drop 0).take 44) (A5 V)

def A7 (V : Valuation τ sig (Elt F)) : Valuation τ sig (Elt F) := after ((ops2.drop 44).take 19) (A6 V)

def A8 (V : Valuation τ sig (Elt F)) : Valuation τ sig (Elt F) := after ((ops2.drop 63).take 3) (A7 V)

def A9 (V : Valuation τ sig (Elt F)) : Valuation τ sig (Elt F) := after ((ops3.drop 0).take 6) (after (ops2.drop 66) (A8 V))

def A10 (V : Valuation τ sig (Elt F)) : Valuation τ sig (Elt F) := after ((ops3.drop 6).take 19) (A9 V)

def A11 (V : Valuation τ sig (Elt F)) : Valuation τ sig (Elt F) := after ((ops3.drop 25).take 3) (A10 V)

def A12 (V : Valuation τ sig (Elt F)) : Valuation τ sig (Elt F) := after ((ops3.drop 28).take 44) (A11 V)

def A13 (V : Valuation τ sig (Elt F)) : Valuation τ sig (Elt F) := after ops4 (after (ops3.drop 72) (A12 V))

theorem after_eq (V : Valuation τ sig (Elt F)) : after ops V = A13 V := by
  rw [after_parts, win0, win1, win2, win3]
  rfl

theorem nin {r : Ref sig .tc} (hr : r ∉ wr0 ++ wr1 ++ wr2 ++ wr3 ++ wr4) :
    r ∉ wr0 ∧ r ∉ wr1 ∧ r ∉ wr2 ∧ r ∉ wr3 ∧ r ∉ wr4 := by
  simp only [List.mem_append, not_or] at hr
  obtain ⟨⟨⟨⟨h0, h1⟩, h2⟩, h3⟩, h4⟩ := hr
  exact ⟨h0, h1, h2, h3, h4⟩

theorem nin2 : main_arg2 ∉ wr0 ++ wr1 ++ wr2 ++ wr3 ++ wr4 := by decide
theorem nin3 : main_arg3 ∉ wr0 ++ wr1 ++ wr2 ++ wr3 ++ wr4 := by decide
theorem nin4 : main_arg4 ∉ wr0 ++ wr1 ++ wr2 ++ wr3 ++ wr4 := by decide
theorem nin5 : main_arg5 ∉ wr0 ++ wr1 ++ wr2 ++ wr3 ++ wr4 := by decide
theorem nin6 : main_arg6 ∉ wr0 ++ wr1 ++ wr2 ++ wr3 ++ wr4 := by decide
theorem nin7 : main_arg7 ∉ wr0 ++ wr1 ++ wr2 ++ wr3 ++ wr4 := by decide
theorem nin8 : main_arg8 ∉ wr0 ++ wr1 ++ wr2 ++ wr3 ++ wr4 := by decide
theorem nin9 : main_arg9 ∉ wr0 ++ wr1 ++ wr2 ++ wr3 ++ wr4 := by decide
theorem nin10 : main_arg10 ∉ wr0 ++ wr1 ++ wr2 ++ wr3 ++ wr4 := by decide
theorem nin11 : main_arg11 ∉ wr0 ++ wr1 ++ wr2 ++ wr3 ++ wr4 := by decide
theorem nin12 : main_arg12 ∉ wr0 ++ wr1 ++ wr2 ++ wr3 ++ wr4 := by decide
theorem nin13 : main_arg13 ∉ wr0 ++ wr1 ++ wr2 ++ wr3 ++ wr4 := by decide
theorem nin14 : main_arg14 ∉ wr0 ++ wr1 ++ wr2 ++ wr3 ++ wr4 := by decide
theorem nin17 : main_arg17 ∉ wr0 ++ wr1 ++ wr2 ++ wr3 ++ wr4 := by decide
theorem nin18 : main_arg18 ∉ wr0 ++ wr1 ++ wr2 ++ wr3 ++ wr4 := by decide
theorem nin19 : main_arg19 ∉ wr0 ++ wr1 ++ wr2 ++ wr3 ++ wr4 := by decide
theorem nin20 : main_arg20 ∉ wr0 ++ wr1 ++ wr2 ++ wr3 ++ wr4 := by decide
theorem nin21 : main_arg21 ∉ wr0 ++ wr1 ++ wr2 ++ wr3 ++ wr4 := by decide
theorem nin22 : main_arg22 ∉ wr0 ++ wr1 ++ wr2 ++ wr3 ++ wr4 := by decide
theorem nin23 : main_arg23 ∉ wr0 ++ wr1 ++ wr2 ++ wr3 ++ wr4 := by decide
theorem nin24 : main_arg24 ∉ wr0 ++ wr1 ++ wr2 ++ wr3 ++ wr4 := by decide
theorem nin25 : main_arg25 ∉ wr0 ++ wr1 ++ wr2 ++ wr3 ++ wr4 := by decide
theorem nin26 : main_arg26 ∉ wr0 ++ wr1 ++ wr2 ++ wr3 ++ wr4 := by decide

theorem tail0_writes : ((ops0.drop 78 : List (HloOp τ sig (Elt F)))).Forall fun op =>
    op.writes ⊆ (([main_v47, main_c_8, main_v48] : List (Ref sig .tc)).map (Proc.devRef (τ := τ) .tc)).toFinset := by
  simp only [List.drop_succ_cons, List.drop_zero, List.Forall, nullary_writes, unary_writes, binary_writes,
    Finset.singleton_subset_iff, List.mem_toFinset]
  repeat' apply And.intro
  all_goals exact List.mem_map_of_mem (by decide)

theorem tail0_kept (V : Valuation τ sig (Elt F)) {r : Ref sig .tc} (hr : r ∉ [main_v47, main_c_8, main_v48]) :
    after (ops0.drop 78) V (Proc.devRef .tc r) = V (Proc.devRef .tc r) :=
  after_of_writes_sub _ V tail0_writes hr

theorem argA0 (V : Valuation τ sig (Elt F)) {r : Ref sig .tc} (hr : r ∉ wr0 ++ wr1 ++ wr2 ++ wr3 ++ wr4) :
    A0 V (Proc.devRef .tc r) = V (Proc.devRef .tc r) :=
  kept_seg ops0_writes 0 78 _ (nin hr).1
theorem argA1 (V : Valuation τ sig (Elt F)) {r : Ref sig .tc} (hr : r ∉ wr0 ++ wr1 ++ wr2 ++ wr3 ++ wr4) :
    A1 V (Proc.devRef .tc r) = V (Proc.devRef .tc r) :=
  (kept_seg ops1_writes 0 16 _ (nin hr).2.1).trans <| (kept_drop ops0_writes 78 _ (nin hr).1).trans <| argA0 V hr
theorem argA2 (V : Valuation τ sig (Elt F)) {r : Ref sig .tc} (hr : r ∉ wr0 ++ wr1 ++ wr2 ++ wr3 ++ wr4) :
    A2 V (Proc.devRef .tc r) = V (Proc.devRef .tc r) :=
  (kept_seg ops1_writes 16 3 _ (nin hr).2.1).trans <| argA1 V hr
theorem argA3 (V : Valuation τ sig (Elt F)) {r : Ref sig .tc} (hr : r ∉ wr0 ++ wr1 ++ wr2 ++ wr3 ++ wr4) :
    A3 V (Proc.devRef .tc r) = V (Proc.devRef .tc r) :=
  (kept_seg ops1_writes 19 44 _ (nin hr).2.1).trans <| argA2 V hr
theorem argA4 (V : Valuation τ sig (Elt F)) {r : Ref sig .tc} (hr : r ∉ wr0 ++ wr1 ++ wr2 ++ wr3 ++ wr4) :
    A4 V (Proc.devRef .tc r) = V (Proc.devRef .tc r) :=
  (kept_seg ops1_writes 63 19 _ (nin hr).2.1).trans <| argA3 V hr
theorem argA5 (V : Valuation τ sig (Elt F)) {r : Ref sig .tc} (hr : r ∉ wr0 ++ wr1 ++ wr2 ++ wr3 ++ wr4) :
    A5 V (Proc.devRef .tc r) = V (Proc.devRef .tc r) :=
  (kept_drop ops1_writes 82 _ (nin hr).2.1).trans <| argA4 V hr
theorem argA6 (V : Valuation τ sig (Elt F)) {r : Ref sig .tc} (hr : r ∉ wr0 ++ wr1 ++ wr2 ++ wr3 ++ wr4) :
    A6 V (Proc.devRef .tc r) = V (Proc.devRef .tc r) :=
  (kept_seg ops2_writes 0 44 _ (nin hr).2.2.1).trans <| argA5 V hr
theorem argA7 (V : Valuation τ sig (Elt F)) {r : Ref sig .tc} (hr : r ∉ wr0 ++ wr1 ++ wr2 ++ wr3 ++ wr4) :
    A7 V (Proc.devRef .tc r) = V (Proc.devRef .tc r) :=
  (kept_seg ops2_writes 44 19 _ (nin hr).2.2.1).trans <| argA6 V hr
theorem argA8 (V : Valuation τ sig (Elt F)) {r : Ref sig .tc} (hr : r ∉ wr0 ++ wr1 ++ wr2 ++ wr3 ++ wr4) :
    A8 V (Proc.devRef .tc r) = V (Proc.devRef .tc r) :=
  (kept_seg ops2_writes 63 3 _ (nin hr).2.2.1).trans <| argA7 V hr
theorem argA9 (V : Valuation τ sig (Elt F)) {r : Ref sig .tc} (hr : r ∉ wr0 ++ wr1 ++ wr2 ++ wr3 ++ wr4) :
    A9 V (Proc.devRef .tc r) = V (Proc.devRef .tc r) :=
  (kept_seg ops3_writes 0 6 _ (nin hr).2.2.2.1).trans <| (kept_drop ops2_writes 66 _ (nin hr).2.2.1).trans <| argA8 V hr
theorem argA10 (V : Valuation τ sig (Elt F)) {r : Ref sig .tc} (hr : r ∉ wr0 ++ wr1 ++ wr2 ++ wr3 ++ wr4) :
    A10 V (Proc.devRef .tc r) = V (Proc.devRef .tc r) :=
  (kept_seg ops3_writes 6 19 _ (nin hr).2.2.2.1).trans <| argA9 V hr
theorem argA11 (V : Valuation τ sig (Elt F)) {r : Ref sig .tc} (hr : r ∉ wr0 ++ wr1 ++ wr2 ++ wr3 ++ wr4) :
    A11 V (Proc.devRef .tc r) = V (Proc.devRef .tc r) :=
  (kept_seg ops3_writes 25 3 _ (nin hr).2.2.2.1).trans <| argA10 V hr
theorem argA12 (V : Valuation τ sig (Elt F)) {r : Ref sig .tc} (hr : r ∉ wr0 ++ wr1 ++ wr2 ++ wr3 ++ wr4) :
    A12 V (Proc.devRef .tc r) = V (Proc.devRef .tc r) :=
  (kept_seg ops3_writes 28 44 _ (nin hr).2.2.2.1).trans <| argA11 V hr

def srcv (V : Valuation τ sig (Elt F)) := Cert.SpecK.srcWords (V (Proc.devRef .tc main_arg1))

def dstv (V : Valuation τ sig (Elt F)) := Cert.SpecK.dstWords (V (Proc.devRef .tc main_arg1))

def nucv (V : Valuation τ sig (Elt F)) := Cert.SpecR.normCol (Cert.SpecK.edgeNorm (dstv V) (srcv V))

def h0v (V : Valuation τ sig (Elt F)) := Cert.SpecK.inputNorm (V (Proc.devRef .tc main_arg0)) (V (Proc.devRef .tc main_arg15)) (V (Proc.devRef .tc main_arg16))

def c1v (V : Valuation τ sig (Elt F)) := Cert.SpecR.conv16 (h0v V) (V (Proc.devRef .tc main_arg3)) (srcv V) (nucv V) (dstv V) (V (Proc.devRef .tc main_arg4))

def r1v (V : Valuation τ sig (Elt F)) := Cert.SpecR.relu128 (c1v V)

def h1v (V : Valuation τ sig (Elt F)) := Cert.SpecR.normFromData (r1v V) (V (Proc.devRef .tc main_arg17)) (V (Proc.devRef .tc main_arg18))

def c2v (V : Valuation τ sig (Elt F)) := Cert.SpecR.conv128 (h1v V) (V (Proc.devRef .tc main_arg5)) (srcv V) (nucv V) (dstv V) (V (Proc.devRef .tc main_arg6))

def r2v (V : Valuation τ sig (Elt F)) := Cert.SpecR.relu128 (c2v V)

def h2v (V : Valuation τ sig (Elt F)) := Cert.SpecR.normFromData (r2v V) (V (Proc.devRef .tc main_arg19)) (V (Proc.devRef .tc main_arg20))

def c3v (V : Valuation τ sig (Elt F)) := Cert.SpecR.conv128 (h2v V) (V (Proc.devRef .tc main_arg7)) (srcv V) (nucv V) (dstv V) (V (Proc.devRef .tc main_arg8))

def r3v (V : Valuation τ sig (Elt F)) := Cert.SpecR.relu128 (c3v V)

def h3v (V : Valuation τ sig (Elt F)) := Cert.SpecR.normFromData (r3v V) (V (Proc.devRef .tc main_arg21)) (V (Proc.devRef .tc main_arg22))

def c4v (V : Valuation τ sig (Elt F)) := Cert.SpecR.conv128 (h3v V) (V (Proc.devRef .tc main_arg9)) (srcv V) (nucv V) (dstv V) (V (Proc.devRef .tc main_arg10))

def r4v (V : Valuation τ sig (Elt F)) := Cert.SpecR.relu128 (c4v V)

def h4v (V : Valuation τ sig (Elt F)) := Cert.SpecR.normFromData (r4v V) (V (Proc.devRef .tc main_arg23)) (V (Proc.devRef .tc main_arg24))

def outv (V : Valuation τ sig (Elt F)) := Cert.SpecK.readout (V (Proc.devRef .tc main_arg2)) (h4v V) (V (Proc.devRef .tc main_arg11)) (V (Proc.devRef .tc main_arg12)) (V (Proc.devRef .tc main_arg25)) (V (Proc.devRef .tc main_arg26)) (V (Proc.devRef .tc main_arg13)) (V (Proc.devRef .tc main_arg14))

theorem src0 (V : Valuation τ sig (Elt F)) : A0 V (Proc.devRef .tc main_v3) = srcv V := st_src V
theorem dst0 (V : Valuation τ sig (Elt F)) : A0 V (Proc.devRef .tc main_v6) = dstv V := st_dst V
theorem nuc0 (V : Valuation τ sig (Elt F)) : A0 V (Proc.devRef .tc main_v27) = nucv V := st_nuc V
theorem src1 (V : Valuation τ sig (Elt F)) : A1 V (Proc.devRef .tc main_v3) = srcv V :=
  (kept_seg ops1_writes 0 16 _ (by decide : main_v3 ∉ wr1)).trans <| (tail0_kept _ (by decide)).trans <| src0 V
theorem dst1 (V : Valuation τ sig (Elt F)) : A1 V (Proc.devRef .tc main_v6) = dstv V :=
  (kept_seg ops1_writes 0 16 _ (by decide : main_v6 ∉ wr1)).trans <| (tail0_kept _ (by decide)).trans <| dst0 V
theorem nuc1 (V : Valuation τ sig (Elt F)) : A1 V (Proc.devRef .tc main_v27) = nucv V :=
  (kept_seg ops1_writes 0 16 _ (by decide : main_v27 ∉ wr1)).trans <| (tail0_kept _ (by decide)).trans <| nuc0 V
theorem src2 (V : Valuation τ sig (Elt F)) : A2 V (Proc.devRef .tc main_v3) = srcv V :=
  (kept_seg ops1_writes 16 3 _ (by decide : main_v3 ∉ wr1)).trans <| src1 V
theorem dst2 (V : Valuation τ sig (Elt F)) : A2 V (Proc.devRef .tc main_v6) = dstv V :=
  (kept_seg ops1_writes 16 3 _ (by decide : main_v6 ∉ wr1)).trans <| dst1 V
theorem nuc2 (V : Valuation τ sig (Elt F)) : A2 V (Proc.devRef .tc main_v27) = nucv V :=
  (kept_seg ops1_writes 16 3 _ (by decide : main_v27 ∉ wr1)).trans <| nuc1 V
theorem src3 (V : Valuation τ sig (Elt F)) : A3 V (Proc.devRef .tc main_v3) = srcv V :=
  (kept_seg ops1_writes 19 44 _ (by decide : main_v3 ∉ wr1)).trans <| src2 V
theorem dst3 (V : Valuation τ sig (Elt F)) : A3 V (Proc.devRef .tc main_v6) = dstv V :=
  (kept_seg ops1_writes 19 44 _ (by decide : main_v6 ∉ wr1)).trans <| dst2 V
theorem nuc3 (V : Valuation τ sig (Elt F)) : A3 V (Proc.devRef .tc main_v27) = nucv V :=
  (kept_seg ops1_writes 19 44 _ (by decide : main_v27 ∉ wr1)).trans <| nuc2 V
theorem src4 (V : Valuation τ sig (Elt F)) : A4 V (Proc.devRef .tc main_v3) = srcv V :=
  (kept_seg ops1_writes 63 19 _ (by decide : main_v3 ∉ wr1)).trans <| src3 V
theorem dst4 (V : Valuation τ sig (Elt F)) : A4 V (Proc.devRef .tc main_v6) = dstv V :=
  (kept_seg ops1_writes 63 19 _ (by decide : main_v6 ∉ wr1)).trans <| dst3 V
theorem nuc4 (V : Valuation τ sig (Elt F)) : A4 V (Proc.devRef .tc main_v27) = nucv V :=
  (kept_seg ops1_writes 63 19 _ (by decide : main_v27 ∉ wr1)).trans <| nuc3 V
theorem src5 (V : Valuation τ sig (Elt F)) : A5 V (Proc.devRef .tc main_v3) = srcv V :=
  (kept_drop ops1_writes 82 _ (by decide : main_v3 ∉ wr1)).trans <| src4 V
theorem dst5 (V : Valuation τ sig (Elt F)) : A5 V (Proc.devRef .tc main_v6) = dstv V :=
  (kept_drop ops1_writes 82 _ (by decide : main_v6 ∉ wr1)).trans <| dst4 V
theorem nuc5 (V : Valuation τ sig (Elt F)) : A5 V (Proc.devRef .tc main_v27) = nucv V :=
  (kept_drop ops1_writes 82 _ (by decide : main_v27 ∉ wr1)).trans <| nuc4 V
theorem src6 (V : Valuation τ sig (Elt F)) : A6 V (Proc.devRef .tc main_v3) = srcv V :=
  (kept_seg ops2_writes 0 44 _ (by decide : main_v3 ∉ wr2)).trans <| src5 V
theorem dst6 (V : Valuation τ sig (Elt F)) : A6 V (Proc.devRef .tc main_v6) = dstv V :=
  (kept_seg ops2_writes 0 44 _ (by decide : main_v6 ∉ wr2)).trans <| dst5 V
theorem nuc6 (V : Valuation τ sig (Elt F)) : A6 V (Proc.devRef .tc main_v27) = nucv V :=
  (kept_seg ops2_writes 0 44 _ (by decide : main_v27 ∉ wr2)).trans <| nuc5 V
theorem src7 (V : Valuation τ sig (Elt F)) : A7 V (Proc.devRef .tc main_v3) = srcv V :=
  (kept_seg ops2_writes 44 19 _ (by decide : main_v3 ∉ wr2)).trans <| src6 V
theorem dst7 (V : Valuation τ sig (Elt F)) : A7 V (Proc.devRef .tc main_v6) = dstv V :=
  (kept_seg ops2_writes 44 19 _ (by decide : main_v6 ∉ wr2)).trans <| dst6 V
theorem nuc7 (V : Valuation τ sig (Elt F)) : A7 V (Proc.devRef .tc main_v27) = nucv V :=
  (kept_seg ops2_writes 44 19 _ (by decide : main_v27 ∉ wr2)).trans <| nuc6 V
theorem src8 (V : Valuation τ sig (Elt F)) : A8 V (Proc.devRef .tc main_v3) = srcv V :=
  (kept_seg ops2_writes 63 3 _ (by decide : main_v3 ∉ wr2)).trans <| src7 V
theorem dst8 (V : Valuation τ sig (Elt F)) : A8 V (Proc.devRef .tc main_v6) = dstv V :=
  (kept_seg ops2_writes 63 3 _ (by decide : main_v6 ∉ wr2)).trans <| dst7 V
theorem nuc8 (V : Valuation τ sig (Elt F)) : A8 V (Proc.devRef .tc main_v27) = nucv V :=
  (kept_seg ops2_writes 63 3 _ (by decide : main_v27 ∉ wr2)).trans <| nuc7 V
theorem src9 (V : Valuation τ sig (Elt F)) : A9 V (Proc.devRef .tc main_v3) = srcv V :=
  (kept_seg ops3_writes 0 6 _ (by decide : main_v3 ∉ wr3)).trans <| (kept_drop ops2_writes 66 _ (by decide : main_v3 ∉ wr2)).trans <| src8 V
theorem dst9 (V : Valuation τ sig (Elt F)) : A9 V (Proc.devRef .tc main_v6) = dstv V :=
  (kept_seg ops3_writes 0 6 _ (by decide : main_v6 ∉ wr3)).trans <| (kept_drop ops2_writes 66 _ (by decide : main_v6 ∉ wr2)).trans <| dst8 V
theorem nuc9 (V : Valuation τ sig (Elt F)) : A9 V (Proc.devRef .tc main_v27) = nucv V :=
  (kept_seg ops3_writes 0 6 _ (by decide : main_v27 ∉ wr3)).trans <| (kept_drop ops2_writes 66 _ (by decide : main_v27 ∉ wr2)).trans <| nuc8 V

theorem o0 (V : Valuation τ sig (Elt F)) : A0 V (Proc.devRef .tc main_v46) = h0v V := st_h0 V
theorem o1 (V : Valuation τ sig (Elt F)) : A1 V (Proc.devRef .tc main_v62) = c1v V := by
  rw [A1, st_conv1, o0, src0, nuc0, dst0, argA0 V (r := main_arg3) nin3, argA0 V (r := main_arg4) nin4]
  rfl
theorem o2 (V : Valuation τ sig (Elt F)) : A2 V (Proc.devRef .tc main_v63) = r1v V := by
  rw [A2, st_relu1, o1]
  rfl
theorem o3 (V : Valuation τ sig (Elt F)) : A3 V (Proc.devRef .tc main_v82) = h1v V := by
  rw [A3, st_norm1, o2, argA2 V (r := main_arg17) nin17, argA2 V (r := main_arg18) nin18]
  rfl
theorem o4 (V : Valuation τ sig (Elt F)) : A4 V (Proc.devRef .tc main_v98) = c2v V := by
  rw [A4, st_conv2, o3, src3, nuc3, dst3, argA3 V (r := main_arg5) nin5, argA3 V (r := main_arg6) nin6]
  rfl
theorem o5 (V : Valuation τ sig (Elt F)) : A5 V (Proc.devRef .tc main_v99) = r2v V := by
  rw [A5, st_relu2, o4]
  rfl
theorem o6 (V : Valuation τ sig (Elt F)) : A6 V (Proc.devRef .tc main_v118) = h2v V := by
  rw [A6, st_norm2, o5, argA5 V (r := main_arg19) nin19, argA5 V (r := main_arg20) nin20]
  rfl
theorem o7 (V : Valuation τ sig (Elt F)) : A7 V (Proc.devRef .tc main_v134) = c3v V := by
  rw [A7, st_conv3, o6, src6, nuc6, dst6, argA6 V (r := main_arg7) nin7, argA6 V (r := main_arg8) nin8]
  rfl
theorem o8 (V : Valuation τ sig (Elt F)) : A8 V (Proc.devRef .tc main_v135) = r3v V := by
  rw [A8, st_relu3, o7]
  rfl
theorem o9 (V : Valuation τ sig (Elt F)) : A9 V (Proc.devRef .tc main_v154) = h3v V := by
  rw [A9, st_norm3, o8, argA8 V (r := main_arg21) nin21, argA8 V (r := main_arg22) nin22]
  rfl
theorem o10 (V : Valuation τ sig (Elt F)) : A10 V (Proc.devRef .tc main_v170) = c4v V := by
  rw [A10, st_conv4, o9, src9, nuc9, dst9, argA9 V (r := main_arg9) nin9, argA9 V (r := main_arg10) nin10]
  rfl
theorem o11 (V : Valuation τ sig (Elt F)) : A11 V (Proc.devRef .tc main_v171) = r4v V := by
  rw [A11, st_relu4, o10]
  rfl
theorem o12 (V : Valuation τ sig (Elt F)) : A12 V (Proc.devRef .tc main_v190) = h4v V := by
  rw [A12, st_norm4, o11, argA11 V (r := main_arg23) nin23, argA11 V (r := main_arg24) nin24]
  rfl
theorem o13 (V : Valuation τ sig (Elt F)) : A13 V (Proc.devRef .tc main_v230) = outv V := by
  rw [A13, st_readout, o12, argA12 V (r := main_arg2) nin2, argA12 V (r := main_arg11) nin11, argA12 V (r := main_arg12) nin12, argA12 V (r := main_arg25) nin25, argA12 V (r := main_arg26) nin26, argA12 V (r := main_arg13) nin13, argA12 V (r := main_arg14) nin14]
  rfl

theorem ref_value (V : Valuation τ sig (Elt Ideal)) :
    after (ops (F := Ideal)) V (Proc.devRef .tc main_v230)
      = Cert.Tops.RTop (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  rw [after_eq, o13]
  rfl

end Cert.ReferenceIdeal.ChainV

end
-- ==== Proof.FiniteArgs.lean ====
import proofs.«402048_j34643206209888_3_alg».proof.Defs
import proofs.«402048_j34643206209888_3_alg».proof.Proof.Gen.Pre_finite_inputs
import proofs.«402048_j34643206209888_3_alg».proof.Proof.RealArr
import Idealize.ShloMosaic.Lib.ReduceAll
import Idealize.ShloMosaic.Lib.ValueIdx
import Idealize.ShloMosaic.Lib.StableHlo.Predicate

noncomputable section

namespace Cert.FiniteArgs

open Idealize.ShloMosaic Idealize.SL.Sem Idealize.ShloMosaic.ValueIdx Cert.RealArr

instance : Subsingleton (⟨0, ![]⟩ : Shape).Idx := ⟨fun a b => funext fun d => d.elim0⟩

theorem inf_eq : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem conj_real {S : Shape} {axes : List (Fin S.rank)} (x : FVec Ideal S .f32)
    (hb : (⟨0, ![]⟩ : Shape).BroadcastsInDim S (![] : Fin 0 → Fin S.rank))
    (hr : S.ReducesTo axes ⟨0, ![]⟩) (h0 : 0 < (⟨0, ![]⟩ : Shape).numel) (init : IVec ⟨0, ![]⟩ 1)
    (h : Host.reduce IntOp.andi
          (cmpf .olt (Host.absf x) (broadcastInDim S ![] hb (constant (F := Ideal) ⟨0, ![]⟩ .f32 0x7F800000#32)))
          init hr h0 ix0 = 1#1) : IsReal x := by
  intro i
  have e := Host.reduce_andi_all _ init hr h0 ix0 h i
  apply real_of_abs_lt_top
  have e2 : Ideal.cmp .olt (max (x i) (-(x i))) (Ideal.ofBits .f32 0x7F800000#32) = 1#1 := e
  rw [inf_eq] at e2
  simpa [Ideal.cmp, StableHlo.Predicate.ofBool_eq_one_iff] using e2

theorem andi_split {s : Shape} (x y : IVec s 1) (i : s.Idx) (h : andi x y i = 1#1) : x i = 1#1 ∧ y i = 1#1 :=
  IntOp.andi_eq_one.1 h

theorem fn_real [Cert.Pre_finite_inputs.Facts] (a0 : FVec Ideal Cert.Pre_finite_inputs.S100000x16 .f32) (a1 : IVec Cert.Pre_finite_inputs.S2x1600000 32) (a2 : IVec Cert.Pre_finite_inputs.S100000 32) (a3 : FVec Ideal Cert.Pre_finite_inputs.S16x128 .f32) (a4 : FVec Ideal Cert.Pre_finite_inputs.S128 .f32) (a5 : FVec Ideal Cert.Pre_finite_inputs.S128x128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128x128 .f32) (a12 : FVec Ideal Cert.Pre_finite_inputs.S128 .f32) (a13 : FVec Ideal Cert.Pre_finite_inputs.S128x10 .f32) (a14 : FVec Ideal Cert.Pre_finite_inputs.S10 .f32) (a15 : FVec Ideal Cert.Pre_finite_inputs.S16 .f32) (a16 : FVec Ideal Cert.Pre_finite_inputs.S16 .f32) (a17 : FVec Ideal Cert.Pre_finite_inputs.S128 .f32) (a18 : FVec Ideal Cert.Pre_finite_inputs.S128 .f32) (a19 : FVec Ideal Cert.Pre_finite_inputs.S128 .f32) (a20 : FVec Ideal Cert.Pre_finite_inputs.S128 .f32) (a21 : FVec Ideal Cert.Pre_finite_inputs.S128 .f32) (a22 : FVec Ideal Cert.Pre_finite_inputs.S128 .f32) (a23 : FVec Ideal Cert.Pre_finite_inputs.S128 .f32) (a24 : FVec Ideal Cert.Pre_finite_inputs.S128 .f32) (a25 : FVec Ideal Cert.Pre_finite_inputs.S128 .f32) (a26 : FVec Ideal Cert.Pre_finite_inputs.S128 .f32)
    (h : Cert.Pre_finite_inputs.fn (F := Ideal) a0 a1 a2 a3 a4 a5 a6 a7 a8 a9 a10 a11 a12 a13 a14 a15 a16 a17 a18 a19 a20 a21 a22 a23 a24 a25 a26 = (fun _ => 1#1)) :
    IsReal a0 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ IsReal a21 ∧ IsReal a22 ∧ IsReal a23 ∧ IsReal a24 ∧ IsReal a25 ∧ IsReal a26 := by
  have h' := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7] at h'
  obtain ⟨h', c26⟩ := andi_split _ _ _ h'
  obtain ⟨h', c25⟩ := andi_split _ _ _ h'
  obtain ⟨h', c24⟩ := andi_split _ _ _ h'
  obtain ⟨h', c23⟩ := andi_split _ _ _ h'
  obtain ⟨h', c22⟩ := andi_split _ _ _ h'
  obtain ⟨h', c21⟩ := andi_split _ _ _ h'
  obtain ⟨h', c20⟩ := andi_split _ _ _ h'
  obtain ⟨h', c19⟩ := andi_split _ _ _ h'
  obtain ⟨h', c18⟩ := andi_split _ _ _ h'
  obtain ⟨h', c17⟩ := andi_split _ _ _ h'
  obtain ⟨h', c16⟩ := andi_split _ _ _ h'
  obtain ⟨h', c15⟩ := andi_split _ _ _ h'
  obtain ⟨h', c14⟩ := andi_split _ _ _ h'
  obtain ⟨h', c13⟩ := andi_split _ _ _ h'
  obtain ⟨h', c12⟩ := andi_split _ _ _ h'
  obtain ⟨h', c11⟩ := andi_split _ _ _ h'
  obtain ⟨h', c10⟩ := andi_split _ _ _ h'
  obtain ⟨h', c9⟩ := andi_split _ _ _ h'
  obtain ⟨h', c8⟩ := andi_split _ _ _ h'
  obtain ⟨h', c7⟩ := andi_split _ _ _ h'
  obtain ⟨h', c6⟩ := andi_split _ _ _ h'
  obtain ⟨h', c5⟩ := andi_split _ _ _ h'
  obtain ⟨h', c4⟩ := andi_split _ _ _ h'
  obtain ⟨c0, c3⟩ := andi_split _ _ _ h'
  exact ⟨conj_real _ _ _ _ _ c0, conj_real _ _ _ _ _ c3, conj_real _ _ _ _ _ c4, conj_real _ _ _ _ _ c5, conj_real _ _ _ _ _ c6, conj_real _ _ _ _ _ c7, conj_real _ _ _ _ _ c8, conj_real _ _ _ _ _ c9, conj_real _ _ _ _ _ c10, conj_real _ _ _ _ _ c11, conj_real _ _ _ _ _ c12, conj_real _ _ _ _ _ c13, conj_real _ _ _ _ _ c14, conj_real _ _ _ _ _ c15, conj_real _ _ _ _ _ c16, conj_real _ _ _ _ _ c17, conj_real _ _ _ _ _ c18, conj_real _ _ _ _ _ c19, conj_real _ _ _ _ _ c20, conj_real _ _ _ _ _ c21, conj_real _ _ _ _ _ c22, conj_real _ _ _ _ _ c23, conj_real _ _ _ _ _ c24, conj_real _ _ _ _ _ c25, conj_real _ _ _ _ _ c26⟩

theorem args_real [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    IsReal (S := Cert.Pre_finite_inputs.S100000x16) (m ((c.tc : Thread Cert.KernelIdeal.nD Cert.KernelIdeal.τ).loc Cert.KernelIdeal.main_arg0)) ∧
    IsReal (S := Cert.Pre_finite_inputs.S16x128) (m ((c.tc : Thread Cert.KernelIdeal.nD Cert.KernelIdeal.τ).loc Cert.KernelIdeal.main_arg3)) ∧
    IsReal (S := Cert.Pre_finite_inputs.S128) (m ((c.tc : Thread Cert.KernelIdeal.nD Cert.KernelIdeal.τ).loc Cert.KernelIdeal.main_arg4)) ∧
    IsReal (S := Cert.Pre_finite_inputs.S128x128) (m ((c.tc : Thread Cert.KernelIdeal.nD Cert.KernelIdeal.τ).loc Cert.KernelIdeal.main_arg5)) ∧
    IsReal (S := Cert.Pre_finite_inputs.S128) (m ((c.tc : Thread Cert.KernelIdeal.nD Cert.KernelIdeal.τ).loc Cert.KernelIdeal.main_arg6)) ∧
    IsReal (S := Cert.Pre_finite_inputs.S128x128) (m ((c.tc : Thread Cert.KernelIdeal.nD Cert.KernelIdeal.τ).loc Cert.KernelIdeal.main_arg7)) ∧
    IsReal (S := Cert.Pre_finite_inputs.S128) (m ((c.tc : Thread Cert.KernelIdeal.nD Cert.KernelIdeal.τ).loc Cert.KernelIdeal.main_arg8)) ∧
    IsReal (S := Cert.Pre_finite_inputs.S128x128) (m ((c.tc : Thread Cert.KernelIdeal.nD Cert.KernelIdeal.τ).loc Cert.KernelIdeal.main_arg9)) ∧
    IsReal (S := Cert.Pre_finite_inputs.S128) (m ((c.tc : Thread Cert.KernelIdeal.nD Cert.KernelIdeal.τ).loc Cert.KernelIdeal.main_arg10)) ∧
    IsReal (S := Cert.Pre_finite_inputs.S128x128) (m ((c.tc : Thread Cert.KernelIdeal.nD Cert.KernelIdeal.τ).loc Cert.KernelIdeal.main_arg11)) ∧
    IsReal (S := Cert.Pre_finite_inputs.S128) (m ((c.tc : Thread Cert.KernelIdeal.nD Cert.KernelIdeal.τ).loc Cert.KernelIdeal.main_arg12)) ∧
    IsReal (S := Cert.Pre_finite_inputs.S128x10) (m ((c.tc : Thread Cert.KernelIdeal.nD Cert.KernelIdeal.τ).loc Cert.KernelIdeal.main_arg13)) ∧
    IsReal (S := Cert.Pre_finite_inputs.S10) (m ((c.tc : Thread Cert.KernelIdeal.nD Cert.KernelIdeal.τ).loc Cert.KernelIdeal.main_arg14)) ∧
    IsReal (S := Cert.Pre_finite_inputs.S16) (m ((c.tc : Thread Cert.KernelIdeal.nD Cert.KernelIdeal.τ).loc Cert.KernelIdeal.main_arg15)) ∧
    IsReal (S := Cert.Pre_finite_inputs.S16) (m ((c.tc : Thread Cert.KernelIdeal.nD Cert.KernelIdeal.τ).loc Cert.KernelIdeal.main_arg16)) ∧
    IsReal (S := Cert.Pre_finite_inputs.S128) (m ((c.tc : Thread Cert.KernelIdeal.nD Cert.KernelIdeal.τ).loc Cert.KernelIdeal.main_arg17)) ∧
    IsReal (S := Cert.Pre_finite_inputs.S128) (m ((c.tc : Thread Cert.KernelIdeal.nD Cert.KernelIdeal.τ).loc Cert.KernelIdeal.main_arg18)) ∧
    IsReal (S := Cert.Pre_finite_inputs.S128) (m ((c.tc : Thread Cert.KernelIdeal.nD Cert.KernelIdeal.τ).loc Cert.KernelIdeal.main_arg19)) ∧
    IsReal (S := Cert.Pre_finite_inputs.S128) (m ((c.tc : Thread Cert.KernelIdeal.nD Cert.KernelIdeal.τ).loc Cert.KernelIdeal.main_arg20)) ∧
    IsReal (S := Cert.Pre_finite_inputs.S128) (m ((c.tc : Thread Cert.KernelIdeal.nD Cert.KernelIdeal.τ).loc Cert.KernelIdeal.main_arg21)) ∧
    IsReal (S := Cert.Pre_finite_inputs.S128) (m ((c.tc : Thread Cert.KernelIdeal.nD Cert.KernelIdeal.τ).loc Cert.KernelIdeal.main_arg22)) ∧
    IsReal (S := Cert.Pre_finite_inputs.S128) (m ((c.tc : Thread Cert.KernelIdeal.nD Cert.KernelIdeal.τ).loc Cert.KernelIdeal.main_arg23)) ∧
    IsReal (S := Cert.Pre_finite_inputs.S128) (m ((c.tc : Thread Cert.KernelIdeal.nD Cert.KernelIdeal.τ).loc Cert.KernelIdeal.main_arg24)) ∧
    IsReal (S := Cert.Pre_finite_inputs.S128) (m ((c.tc : Thread Cert.KernelIdeal.nD Cert.KernelIdeal.τ).loc Cert.KernelIdeal.main_arg25)) ∧
    IsReal (S := Cert.Pre_finite_inputs.S128) (m ((c.tc : Thread Cert.KernelIdeal.nD Cert.KernelIdeal.τ).loc Cert.KernelIdeal.main_arg26)) :=
  fn_real _ _ _ _ _ _ _ _ _ _ _ _ _ _ _ _ _ _ _ _ _ _ _ _ _ _ _ (h c)

end Cert.FiniteArgs

end
-- ==== Proof.GlueDefs.lean ====
import proofs.«402048_j34643206209888_3_alg».proof.Proof.SpecK
import Idealize.ShloMosaic.Lib.ValueIdx

noncomputable section

namespace Cert.Glue

open Idealize.ShloMosaic Idealize.ShloMosaic.ValueIdx Cert.KernelIdeal

def srcRow (w : (⟨S1700000, .i32⟩ : BufTy).Contents (Elt Ideal)) (e : Fin 1700000) : Fin 100000 :=
  ⟨min ((Cert.SpecK.wrapCol (F := Ideal) w (ix2 e 0)).toInt.toNat) (100000 - 1), by omega⟩

def lands (w : (⟨S1700000, .i32⟩ : BufTy).Contents (Elt Ideal)) (e : Fin 1700000) (i : Fin 100000) : Prop :=
  (w (ix1 e)).toInt = (i.val : Int)

instance (w : (⟨S1700000, .i32⟩ : BufTy).Contents (Elt Ideal)) (e : Fin 1700000) (i : Fin 100000) :
    Decidable (lands w e i) := by unfold lands; infer_instance

end Cert.Glue

end
-- ==== Proof.LibLayerLaw.lean ====
import Mathlib.Data.EReal.Inv
import Mathlib.Algebra.BigOperators.Group.Finset.Basic
import Mathlib.Algebra.BigOperators.Ring.Finset
import Mathlib.Algebra.Order.BigOperators.Group.Finset
import Mathlib.Tactic.Ring
import Mathlib.Tactic.FieldSimp
import Mathlib.Tactic.Positivity
import Idealize.ShloMosaic.PureOps.Ideal

noncomputable section

namespace Cert.LayerLaw

open Idealize.ShloMosaic

variable {n E D H : Nat}

section Real

variable (h : Fin n → Fin D → ℝ) (ν : Fin E → ℝ) (W : Fin D → Fin H → ℝ) (b : Fin H → ℝ)
  (src : Fin E → Fin n) (lands : Fin E → Fin n → Prop) [∀ e i, Decidable (lands e i)]

theorem real_agg_proj_swap (i : Fin n) (j : Fin H) :
    (∑ k, (∑ e ∈ Finset.univ.filter (fun e => lands e i), h (src e) k * ν e) * W k j)
      = ∑ e ∈ Finset.univ.filter (fun e => lands e i), (∑ k, h (src e) k * W k j) * ν e := by
  simp_rw [Finset.sum_mul]
  rw [Finset.sum_comm]
  exact Finset.sum_congr rfl fun e _ => Finset.sum_congr rfl fun k _ => by ring

theorem real_var_identity (x : Fin n → ℝ) (hn : 0 < n) :
    (∑ i, x i * x i) / (n : ℝ) - ((∑ i, x i) / (n : ℝ)) * ((∑ i, x i) / (n : ℝ))
      = (∑ i, (x i - (∑ i, x i) / (n : ℝ)) * (x i - (∑ i, x i) / (n : ℝ))) / (n : ℝ) := by
  have hn' : (n : ℝ) ≠ 0 := Nat.cast_ne_zero.mpr hn.ne'
  generalize hm : (∑ i, x i) / (n : ℝ) = m
  have hs : ∑ i, x i = (n : ℝ) * m := by rw [← hm]; field_simp
  have hexp : ∑ i, (x i - m) * (x i - m) = (∑ i, x i * x i) - 2 * m * (∑ i, x i) + (n : ℝ) * (m * m) := by
    have : ∀ i, (x i - m) * (x i - m) = x i * x i - 2 * m * x i + m * m := fun i => by ring
    simp_rw [this, Finset.sum_add_distrib, Finset.sum_sub_distrib, ← Finset.mul_sum, Finset.sum_const,
      Finset.card_univ, Fintype.card_fin, nsmul_eq_mul]
    ring
  rw [hexp, hs]
  field_simp
  ring

theorem real_var_nonneg (x : Fin n → ℝ) (m : ℝ) : 0 ≤ (∑ i, (x i - m) * (x i - m)) / (n : ℝ) :=
  div_nonneg (Finset.sum_nonneg fun i _ => mul_self_nonneg _) (Nat.cast_nonneg n)

theorem real_var_eq (x : Fin n → ℝ) (hn : 0 < n) :
    max ((∑ i, x i * x i) / (n : ℝ) - ((∑ i, x i) / (n : ℝ)) * ((∑ i, x i) / (n : ℝ))) 0
      = (∑ i, (x i - (∑ i, x i) / (n : ℝ)) * (x i - (∑ i, x i) / (n : ℝ))) / (n : ℝ) := by
  rw [real_var_identity x hn]
  exact max_eq_left (real_var_nonneg x _)

end Real

section Ext

theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem coe_max (x y : ℝ) : ((max x y : ℝ) : EReal) = max (x : EReal) (y : EReal) :=
  EReal.coe_strictMono.monotone.map_max

theorem idealDiv_coe (x : EReal) {r : ℝ} (hr : r ≠ 0) : Ideal.div x (r : EReal) = x / (r : EReal) := by
  rw [Ideal.div, if_neg (by exact_mod_cast hr), div_eq_mul_inv]

variable (hc : Fin n → Fin D → EReal) (νc : Fin E → EReal) (Wc : Fin D → Fin H → EReal)
  (bc : Fin H → EReal) (src : Fin E → Fin n) (lands : Fin E → Fin n → Prop)
  [∀ e i, Decidable (lands e i)] (A : Fin n → Fin D → EReal) (T : Fin n → Fin H → EReal)

theorem proj_inner_real (hh : ∀ i k, ∃ r : ℝ, hc i k = (r : EReal)) (hν : ∀ e, ∃ r : ℝ, νc e = (r : EReal))
    (hW : ∀ k j, ∃ r : ℝ, Wc k j = (r : EReal))
    (hA : ∀ i k, A i k = ∑ e ∈ Finset.univ.filter (fun e => lands e i), hc (src e) k * νc e)
    (hT : ∀ i j, T i j = ∑ k, hc i k * Wc k j) (i : Fin n) (j : Fin H) :
    ∃ r : ℝ, (∑ k, A i k * Wc k j) = (r : EReal)
      ∧ (∑ e ∈ Finset.univ.filter (fun e => lands e i), T (src e) j * νc e) = (r : EReal) := by
  choose h hh using hh
  choose ν hν using hν
  choose W hW using hW
  refine ⟨∑ k, (∑ e ∈ Finset.univ.filter (fun e => lands e i), h (src e) k * ν e) * W k j, ?_, ?_⟩
  · simp only [coe_sum, EReal.coe_mul, hA, hh, hν, hW]
  · rw [real_agg_proj_swap]
    simp only [coe_sum, EReal.coe_mul, hT, hh, hν, hW]

theorem proj_real (hh : ∀ i k, ∃ r : ℝ, hc i k = (r : EReal)) (hν : ∀ e, ∃ r : ℝ, νc e = (r : EReal))
    (hW : ∀ k j, ∃ r : ℝ, Wc k j = (r : EReal)) (hb : ∀ j, ∃ r : ℝ, bc j = (r : EReal))
    (hA : ∀ i k, A i k = ∑ e ∈ Finset.univ.filter (fun e => lands e i), hc (src e) k * νc e)
    (hT : ∀ i j, T i j = ∑ k, hc i k * Wc k j) (i : Fin n) (j : Fin H) :
    ∃ r : ℝ, 0 ≤ r ∧ max ((∑ k, A i k * Wc k j) + bc j) 0 = (r : EReal)
      ∧ max ((∑ e ∈ Finset.univ.filter (fun e => lands e i), T (src e) j * νc e) + bc j) 0 = (r : EReal) := by
  obtain ⟨r, h1, h2⟩ := proj_inner_real hc νc Wc src lands A T hh hν hW hA hT i j
  obtain ⟨β, hβ⟩ := hb j
  refine ⟨max (r + β) 0, le_max_right _ _, ?_, ?_⟩
  · rw [h1, hβ, coe_max, EReal.coe_add, EReal.coe_zero]
  · rw [h2, hβ, coe_max, EReal.coe_add, EReal.coe_zero]

theorem mean_var_real (x : Fin n → EReal) (hx : ∀ i, ∃ r : ℝ, x i = (r : EReal)) (hn : 0 < n) (N : EReal)
    (hN : N = ((n : ℝ) : EReal)) :
    ∃ v : ℝ, 0 ≤ v
      ∧ max ((∑ i, x i * x i) / N - ((∑ i, x i) / N) * ((∑ i, x i) / N)) 0 = (v : EReal)
      ∧ (∑ i, (x i - (∑ i, x i) / N) * (x i - (∑ i, x i) / N)) / N = (v : EReal) := by
  choose y hy using hx
  refine ⟨(∑ i, (y i - (∑ i, y i) / (n : ℝ)) * (y i - (∑ i, y i) / (n : ℝ))) / (n : ℝ),
    real_var_nonneg y _, ?_, ?_⟩
  · rw [← real_var_eq y hn]
    simp only [coe_max, coe_sum, EReal.coe_sub, EReal.coe_div, EReal.coe_mul, EReal.coe_zero, hy, hN]
  · simp only [coe_sum, EReal.coe_sub, EReal.coe_div, EReal.coe_mul, hy, hN]

theorem mean_var_eq (o : Fin n → Fin H → EReal) (ho : ∀ i j, ∃ r : ℝ, o i j = (r : EReal)) (hn : 0 < n)
    (N : EReal) (hN : N = ((n : ℝ) : EReal)) (j : Fin H) :
    max ((∑ i, o i j * o i j) / N - ((∑ i, o i j) / N) * ((∑ i, o i j) / N)) 0
      = (∑ i, (o i j - (∑ i, o i j) / N) * (o i j - (∑ i, o i j) / N)) / N := by
  obtain ⟨v, -, h1, h2⟩ := mean_var_real (fun i => o i j) (fun i => ho i j) hn N hN
  exact h1.trans h2.symm

theorem mean_var_eq_idealDiv (o : Fin n → Fin H → EReal) (ho : ∀ i j, ∃ r : ℝ, o i j = (r : EReal))
    (hn : 0 < n) (N : EReal) (hN : N = ((n : ℝ) : EReal)) (j : Fin H) :
    max (Ideal.div (∑ i, o i j * o i j) N - (Ideal.div (∑ i, o i j) N) * (Ideal.div (∑ i, o i j) N)) 0
      = Ideal.div (∑ i, (o i j - Ideal.div (∑ i, o i j) N) * (o i j - Ideal.div (∑ i, o i j) N)) N := by
  have hn' : (n : ℝ) ≠ 0 := Nat.cast_ne_zero.mpr hn.ne'
  subst hN
  simp only [idealDiv_coe _ hn']
  exact mean_var_eq o ho hn _ rfl j

end Ext

end Cert.LayerLaw

end
-- ==== Proof.LayerGlue.lean ====
import proofs.«402048_j34643206209888_3_alg».proof.Proof.Tops
import proofs.«402048_j34643206209888_3_alg».proof.Proof.GlueDefs
import proofs.«402048_j34643206209888_3_alg».proof.Proof.RealArr
import proofs.«402048_j34643206209888_3_alg».proof.Proof.LibLayerLaw

noncomputable section

namespace Cert.Glue

open Idealize.ShloMosaic Idealize.ShloMosaic.ValueIdx Cert.RealArr
open Cert.KernelIdeal (S100000x16 S2x1600000 S100000 S16x128 S128 S128x128 S128x10 S10 S16 S16x10 S100000x128 S1x128 S1700000 S1700000x1)

abbrev Arr (S : Shape) : Type := (⟨S, .f32⟩ : BufTy).Contents (Elt Ideal)
abbrev Words (S : Shape) : Type := (⟨S, .i32⟩ : BufTy).Contents (Elt Ideal)

structure Formulas : Prop where
  aggregate128_apply : ∀ (src : Words S1700000) (h : Arr S100000x128) (nu : Arr S1700000) (dst : Words S1700000)
      (i : Fin 100000) (k : Fin 128),
    Cert.SpecK.aggregate128 (F := Ideal) src h nu dst (ix2 i k)
      = (0 : EReal) + ∑ e ∈ Finset.univ.filter (fun e => lands dst e i), h (ix2 (srcRow src e) k) * nu (ix1 e)
  aggregate16_apply : ∀ (src : Words S1700000) (h : Arr S100000x16) (nu : Arr S1700000) (dst : Words S1700000)
      (i : Fin 100000) (k : Fin 16),
    Cert.SpecK.aggregate16 (F := Ideal) src h nu dst (ix2 i k)
      = (0 : EReal) + ∑ e ∈ Finset.univ.filter (fun e => lands dst e i), h (ix2 (srcRow src e) k) * nu (ix1 e)
  castW128_eq : ∀ (W : Arr S128x128), Cert.SpecK.castW128 (F := Ideal) W = W
  castW16_eq : ∀ (W : Arr S16x128), Cert.SpecK.castW16 (F := Ideal) W = W
  normFromSums_apply : ∀ (s q : Arr S1x128) (p : Arr S100000x128) (g be : Arr S128) (i : Fin 100000) (j : Fin 128),
    Cert.SpecK.normFromSums (F := Ideal) s q p g be (ix2 i j)
      = g (ix1 j) * (p (ix2 i j) - Ideal.div (s (ix2 0 j)) ((100000 : ℝ) : EReal))
          * Ideal.rsqrt (max (Ideal.div (q (ix2 0 j)) ((100000 : ℝ) : EReal)
              - Ideal.div (s (ix2 0 j)) ((100000 : ℝ) : EReal) * Ideal.div (s (ix2 0 j)) ((100000 : ℝ) : EReal)) 0
            + Ideal.ofBits .f32 0x3727C5AC#32)
        + be (ix1 j)
  normCol_apply : ∀ (nu : Arr S1700000) (e : Fin 1700000), Cert.SpecR.normCol (F := Ideal) nu (ix2 e 0) = nu (ix1 e)
  conv128_apply : ∀ (h : Arr S100000x128) (W : Arr S128x128) (src : Words S1700000) (nuc : Arr S1700000x1)
      (dst : Words S1700000) (b : Arr S128) (i : Fin 100000) (j : Fin 128),
    Cert.SpecR.conv128 (F := Ideal) h W src nuc dst b (ix2 i j)
      = ((0 : EReal) + ∑ e ∈ Finset.univ.filter (fun e => lands dst e i),
            (∑ k : Fin 128, h (ix2 (srcRow src e) k) * W (ix2 k j)) * nuc (ix2 e 0)) + b (ix1 j)
  conv16_apply : ∀ (h : Arr S100000x16) (W : Arr S16x128) (src : Words S1700000) (nuc : Arr S1700000x1)
      (dst : Words S1700000) (b : Arr S128) (i : Fin 100000) (j : Fin 128),
    Cert.SpecR.conv16 (F := Ideal) h W src nuc dst b (ix2 i j)
      = ((0 : EReal) + ∑ e ∈ Finset.univ.filter (fun e => lands dst e i),
            (∑ k : Fin 16, h (ix2 (srcRow src e) k) * W (ix2 k j)) * nuc (ix2 e 0)) + b (ix1 j)
  relu128_apply : ∀ (x : Arr S100000x128) (i : Fin 100000) (j : Fin 128),
    Cert.SpecR.relu128 (F := Ideal) x (ix2 i j) = max (x (ix2 i j)) 0
  normFromData_apply : ∀ (r : Arr S100000x128) (g be : Arr S128) (i : Fin 100000) (j : Fin 128),
    Cert.SpecR.normFromData (F := Ideal) r g be (ix2 i j)
      = g (ix1 j)
          * (r (ix2 i j) - Ideal.div ((0 : EReal) + ∑ i', r (ix2 i' j)) ((100000 : ℝ) : EReal))
          * Ideal.rsqrt
              (Ideal.div ((0 : EReal) + ∑ i',
                  (r (ix2 i' j) - Ideal.div ((0 : EReal) + ∑ i', r (ix2 i' j)) ((100000 : ℝ) : EReal))
                    * (r (ix2 i' j) - Ideal.div ((0 : EReal) + ∑ i', r (ix2 i' j)) ((100000 : ℝ) : EReal)))
                  ((100000 : ℝ) : EReal)
                + Ideal.ofBits .f32 0x3727C5AC#32)
        + be (ix1 j)
  edgeNorm_real : ∀ (ei : Words S2x1600000),
    IsReal (Cert.SpecK.edgeNorm (F := Ideal) (Cert.SpecK.dstWords (F := Ideal) ei) (Cert.SpecK.srcWords (F := Ideal) ei))
  inputNorm_real : ∀ (x : Arr S100000x16) (g b : Arr S16), IsReal x → IsReal g → IsReal b →
    IsReal (Cert.SpecK.inputNorm (F := Ideal) x g b)
  normFromData_real : ∀ (r : Arr S100000x128) (g b : Arr S128), IsReal r → IsReal g → IsReal b →
    IsReal (Cert.SpecR.normFromData (F := Ideal) r g b)

theorem rows_cast : ((100000 : ℝ) : EReal) = (((100000 : ℕ) : ℝ) : EReal) := by norm_num

theorem proj_glue {D : Nat} (A h : (⟨2, ![100000, D]⟩ : Shape).Idx → EReal)
    (W : (⟨2, ![D, 128]⟩ : Shape).Idx → EReal) (b : Arr S128) (nu : Arr S1700000) (src dst : Words S1700000)
    (hA : ∀ (i : Fin 100000) (k : Fin D), A (ix2 i k)
      = ∑ e ∈ Finset.univ.filter (fun e => lands dst e i), h (ix2 (srcRow src e) k) * nu (ix1 e))
    (hh : IsReal h) (hnu : IsReal nu) (hW : IsReal W) (hb : IsReal b) (c : Arr S100000x128)
    (hc : ∀ (i : Fin 100000) (j : Fin 128), c (ix2 i j)
      = max ((∑ e ∈ Finset.univ.filter (fun e => lands dst e i),
          (∑ k : Fin D, h (ix2 (srcRow src e) k) * W (ix2 k j)) * nu (ix1 e)) + b (ix1 j)) 0) :
    Cert.Tops.projArr A W b = c ∧ IsReal c := by
  have hP : ∀ (i : Fin 100000) (j : Fin 128), ∃ r : ℝ,
      projAt (N := 100000) (D := D) (H := 128) A W b i j = (r : EReal) ∧ c (ix2 i j) = (r : EReal) := by
    intro i j
    obtain ⟨r, -, h1, h2⟩ := Cert.LayerLaw.proj_real (n := 100000) (E := 1700000) (D := D) (H := 128)
      (fun i k => h (ix2 i k)) (fun e => nu (ix1 e)) (fun k j => W (ix2 k j)) (fun j => b (ix1 j))
      (srcRow src) (lands dst) (fun i k => A (ix2 i k)) (fun i j => ∑ k, h (ix2 i k) * W (ix2 k j))
      (fun i k => hh _) (fun e => hnu _) (fun k j => hW _) (fun j => hb _) hA (fun _ _ => rfl) i j
    exact ⟨r, h1, (hc i j).trans h2⟩
  constructor
  · funext y
    obtain ⟨i, j, rfl⟩ : ∃ i j, y = ix2 i j := ⟨y 0, y 1, eq_ix2 y⟩
    obtain ⟨r, h1, h2⟩ := hP i j
    show projAt (N := 100000) (D := D) (H := 128) A W b i j = c (ix2 i j)
    rw [h1, h2]
  · intro y
    obtain ⟨i, j, rfl⟩ : ∃ i j, y = ix2 i j := ⟨y 0, y 1, eq_ix2 y⟩
    obtain ⟨r, -, h2⟩ := hP i j
    exact ⟨r, h2⟩

theorem sumArr_apply {D : Nat} (A : (⟨2, ![100000, D]⟩ : Shape).Idx → EReal)
    (W : (⟨2, ![D, 128]⟩ : Shape).Idx → EReal) (b : Arr S128) (j : Fin 128) :
    Cert.Tops.sumArr A W b (ix2 0 j) = ∑ i : Fin 100000, Cert.Tops.projArr A W b (ix2 i j) := by
  unfold Cert.Tops.sumArr Cert.Tops.projArr
  rfl

theorem sqArr_apply {D : Nat} (A : (⟨2, ![100000, D]⟩ : Shape).Idx → EReal)
    (W : (⟨2, ![D, 128]⟩ : Shape).Idx → EReal) (b : Arr S128) (j : Fin 128) :
    Cert.Tops.sqArr A W b (ix2 0 j)
      = ∑ i : Fin 100000, Cert.Tops.projArr A W b (ix2 i j) * Cert.Tops.projArr A W b (ix2 i j) := by
  unfold Cert.Tops.sqArr Cert.Tops.projArr
  rfl

section

variable (Fm : Formulas)
include Fm

theorem norm_eq (r : Arr S100000x128) (hr : IsReal r) (s q : Arr S1x128)
    (hs : ∀ j : Fin 128, s (ix2 0 j) = ∑ i : Fin 100000, r (ix2 i j))
    (hq : ∀ j : Fin 128, q (ix2 0 j) = ∑ i : Fin 100000, r (ix2 i j) * r (ix2 i j)) (g be : Arr S128) :
    Cert.SpecK.normFromSums (F := Ideal) s q r g be = Cert.SpecR.normFromData (F := Ideal) r g be := by
  funext y
  obtain ⟨i, j, rfl⟩ : ∃ i j, y = ix2 i j := ⟨y 0, y 1, eq_ix2 y⟩
  have hv := Cert.LayerLaw.mean_var_eq_idealDiv (n := 100000) (H := 128) (fun i j => r (ix2 i j))
    (fun i j => hr (ix2 i j)) (by norm_num) ((100000 : ℝ) : EReal) rows_cast j
  rw [Fm.normFromSums_apply, Fm.normFromData_apply, hs, hq]
  simp only [zero_add]
  rw [hv]

theorem layer_eq128 (src dst : Words S1700000) (nu : Arr S1700000) (h : Arr S100000x128) (W : Arr S128x128)
    (b g be : Arr S128) (hh : IsReal h) (hnu : IsReal nu) (hW : IsReal W) (hb : IsReal b) (hg : IsReal g)
    (hbe : IsReal be) :
    Cert.Tops.layerK (D := 128) (Cert.SpecK.aggregate128 (F := Ideal) src h nu dst)
        (Cert.SpecK.castW128 (F := Ideal) W) b g be
      = Cert.SpecR.normFromData (F := Ideal) (Cert.SpecR.relu128 (F := Ideal)
          (Cert.SpecR.conv128 (F := Ideal) h W src (Cert.SpecR.normCol (F := Ideal) nu) dst b)) g be
    ∧ IsReal (Cert.SpecR.normFromData (F := Ideal) (Cert.SpecR.relu128 (F := Ideal)
          (Cert.SpecR.conv128 (F := Ideal) h W src (Cert.SpecR.normCol (F := Ideal) nu) dst b)) g be) := by
  obtain ⟨hp, hr⟩ := proj_glue (D := 128) (Cert.SpecK.aggregate128 (F := Ideal) src h nu dst) h W b nu src dst
    (fun i k => by rw [Fm.aggregate128_apply, zero_add]) hh hnu hW hb
    (Cert.SpecR.relu128 (F := Ideal)
      (Cert.SpecR.conv128 (F := Ideal) h W src (Cert.SpecR.normCol (F := Ideal) nu) dst b))
    (fun i j => by rw [Fm.relu128_apply, Fm.conv128_apply, zero_add]; simp only [Fm.normCol_apply])
  refine ⟨?_, Fm.normFromData_real _ _ _ hr hg hbe⟩
  unfold Cert.Tops.layerK
  rw [Fm.castW128_eq, norm_eq Fm _ (hp ▸ hr) _ _ (sumArr_apply _ _ _) (sqArr_apply _ _ _) g be, hp]

theorem layer_eq16 (src dst : Words S1700000) (nu : Arr S1700000) (h : Arr S100000x16) (W : Arr S16x128)
    (b g be : Arr S128) (hh : IsReal h) (hnu : IsReal nu) (hW : IsReal W) (hb : IsReal b) (hg : IsReal g)
    (hbe : IsReal be) :
    Cert.Tops.layerK (D := 16) (Cert.SpecK.aggregate16 (F := Ideal) src h nu dst)
        (Cert.SpecK.castW16 (F := Ideal) W) b g be
      = Cert.SpecR.normFromData (F := Ideal) (Cert.SpecR.relu128 (F := Ideal)
          (Cert.SpecR.conv16 (F := Ideal) h W src (Cert.SpecR.normCol (F := Ideal) nu) dst b)) g be
    ∧ IsReal (Cert.SpecR.normFromData (F := Ideal) (Cert.SpecR.relu128 (F := Ideal)
          (Cert.SpecR.conv16 (F := Ideal) h W src (Cert.SpecR.normCol (F := Ideal) nu) dst b)) g be) := by
  obtain ⟨hp, hr⟩ := proj_glue (D := 16) (Cert.SpecK.aggregate16 (F := Ideal) src h nu dst) h W b nu src dst
    (fun i k => by rw [Fm.aggregate16_apply, zero_add]) hh hnu hW hb
    (Cert.SpecR.relu128 (F := Ideal)
      (Cert.SpecR.conv16 (F := Ideal) h W src (Cert.SpecR.normCol (F := Ideal) nu) dst b))
    (fun i j => by rw [Fm.relu128_apply, Fm.conv16_apply, zero_add]; simp only [Fm.normCol_apply])
  refine ⟨?_, Fm.normFromData_real _ _ _ hr hg hbe⟩
  unfold Cert.Tops.layerK
  rw [Fm.castW16_eq, norm_eq Fm _ (hp ▸ hr) _ _ (sumArr_apply _ _ _) (sqArr_apply _ _ _) g be, hp]

theorem tops_eq
    (a0 : Arr S100000x16) (a1 : Words S2x1600000) (a2 : Words S100000) (a3 : Arr S16x128)
    (a4 : Arr S128) (a5 : Arr S128x128) (a6 : Arr S128) (a7 : Arr S128x128)
    (a8 : Arr S128) (a9 : Arr S128x128) (a10 : Arr S128) (a11 : Arr S128x128)
    (a12 : Arr S128) (a13 : Arr S128x10) (a14 : Arr S10) (a15 : Arr S16)
    (a16 : Arr S16) (a17 : Arr S128) (a18 : Arr S128) (a19 : Arr S128)
    (a20 : Arr S128) (a21 : Arr S128) (a22 : Arr S128) (a23 : Arr S128)
    (a24 : Arr S128) (a25 : Arr S128) (a26 : Arr S128)
    (h0 : IsReal a0) (h3 : IsReal a3) (h4 : IsReal a4) (h5 : IsReal a5) (h6 : IsReal a6) (h7 : IsReal a7)
    (h8 : IsReal a8) (h9 : IsReal a9) (h10 : IsReal a10) (h11 : IsReal a11) (h12 : IsReal a12) (h13 : IsReal a13)
    (h14 : IsReal a14) (h15 : IsReal a15) (h16 : IsReal a16) (h17 : IsReal a17) (h18 : IsReal a18) (h19 : IsReal a19)
    (h20 : IsReal a20) (h21 : IsReal a21) (h22 : IsReal a22) (h23 : IsReal a23) (h24 : IsReal a24) (h25 : IsReal a25)
    (h26 : IsReal a26) :
    Cert.Tops.KTop a0 a1 a2 a3 a4 a5 a6 a7 a8 a9 a10 a11 a12 a13 a14 a15 a16 a17 a18 a19 a20 a21 a22 a23 a24 a25 a26
      = Cert.Tops.RTop a0 a1 a2 a3 a4 a5 a6 a7 a8 a9 a10 a11 a12 a13 a14 a15 a16 a17 a18 a19 a20 a21 a22 a23 a24 a25 a26 := by
  have hnu := Fm.edgeNorm_real a1
  have hx := Fm.inputNorm_real a0 a15 a16 h0 h15 h16
  obtain ⟨e1, r1⟩ := layer_eq16 Fm (Cert.SpecK.srcWords (F := Ideal) a1) (Cert.SpecK.dstWords (F := Ideal) a1)
    _ _ a3 a4 a17 a18 hx hnu h3 h4 h17 h18
  obtain ⟨e2, r2⟩ := layer_eq128 Fm (Cert.SpecK.srcWords (F := Ideal) a1) (Cert.SpecK.dstWords (F := Ideal) a1)
    _ _ a5 a6 a19 a20 r1 hnu h5 h6 h19 h20
  obtain ⟨e3, r3⟩ := layer_eq128 Fm (Cert.SpecK.srcWords (F := Ideal) a1) (Cert.SpecK.dstWords (F := Ideal) a1)
    _ _ a7 a8 a21 a22 r2 hnu h7 h8 h21 h22
  obtain ⟨e4, r4⟩ := layer_eq128 Fm (Cert.SpecK.srcWords (F := Ideal) a1) (Cert.SpecK.dstWords (F := Ideal) a1)
    _ _ a9 a10 a23 a24 r3 hnu h9 h10 h23 h24
  unfold Cert.Tops.KTop Cert.Tops.RTop
  simp only []
  rw [e1, e2, e3, e4]

end

end Cert.Glue

end
-- ==== Proof.LibIndexRead.lean ====
import Idealize.ShloMosaic.PureOps.Ideal
import Idealize.ShloMosaic.Lib.ValueIdx

noncomputable section

namespace Cert.Sage.IndexRead

open Idealize.ShloMosaic Idealize.ShloMosaic.ValueIdx

private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem vec_window (j : (⟨1, ![E]⟩ : Shape).Idx) : d.window j 0 = 0 := by
  obtain ⟨uw, iw, sd, iv, wf⟩ := d
  simp only at h1 h2 h3 h4
  subst h1 h2 h3 h4
  rfl

private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1

  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

private theorem rows_window0 (j : (⟨2, ![E, D]⟩ : Shape).Idx) : d.window j 0 = 0 := by
  obtain ⟨uw, iw, sd, iv, wf⟩ := d
  simp only at h1 h2 h3 h4
  subst h1 h2 h3 h4
  rfl

private theorem rows_window1 (j : (⟨2, ![E, D]⟩ : Shape).Idx) : d.window j 1 = (j 1).val := by
  obtain ⟨uw, iw, sd, iv, wf⟩ := d
  simp only at h1 h2 h3 h4
  subst h1 h2 h3 h4
  rfl

private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1

  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

private theorem gather_batch (j : (⟨2, ![E, D]⟩ : Shape).Idx) (a : Fin 2) : d.batchCoord j a = 0 :=
  d.batchCoord_eq_zero j a (by rw [h3]; exact List.not_mem_nil)

private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

theorem gather_rows_clamp {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (hN : 0 < N) :
    Host.gather d x idx (ix2 e q) = x (ix2 ⟨min (idx (ix2 e 0)).toInt.toNat (N - 1), by omega⟩ q) := by

  have f0 : d.start (ix2 e q) idx 0 + d.batchCoord (ix2 e q) 0 + d.offCoord (ix2 e q) 0
      = min (idx (ix2 e 0)).toInt.toNat (N - 1) := by
    rw [gather_start0 d h1 h2 h3 h4 h5 h6 h7, gather_batch d h1 h2 h3 h4 h5 h6 h7, gather_off0 d h1 h2 h3 h4 h5 h6 h7]
    rfl

  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.LibRealOps.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«402048_j34643206209888_3_alg».proof.Proof.RealArr
import proofs.«402048_j34643206209888_3_alg».proof.Proof.LibIndexRead

noncomputable section

namespace Cert.RealOps

open Idealize.ShloMosaic Idealize.ShloMosaic.ValueIdx Cert.RealArr Cert.Sage.IndexRead

theorem reduceAdd_rows {N D : Nat} {φ : FTy} (h : (⟨2, ![N, D]⟩ : Shape).ReducesTo [0] ⟨1, ![D]⟩)
    (hu : 0 < (⟨0, ![]⟩ : Shape).numel) (x : FVec Ideal ⟨2, ![N, D]⟩ φ) (v : (⟨0, ![]⟩ : Shape).Idx → Ideal φ)
    (j : Fin D) :
    Host.reduceAdd (F := Ideal) x v h hu (ix1 j) = v ix0 + ∑ i : Fin N, x (ix2 i j) := by
  have hR : (⟨2, ![N, D]⟩ : Shape).Reduces [0] ⟨1, ![D]⟩ := ⟨h.1, Nat.one_pos, h.2⟩
  unfold Host.reduceAdd
  rw [Ideal.hostReduceAdd_def, Ideal.hostReduceAdd_single h hR, congrArg v (eq_ix0 (Shape.Idx.first hu))]
  congr 1
  refine Finset.sum_congr rfl fun i _ => congrArg x ?_
  funext c
  match c with
  | ⟨0, _⟩ => exact Fin.ext rfl
  | ⟨1, _⟩ => exact Fin.ext rfl

theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  obtain ⟨lc, rc, ln, rn, lb, rb, wf⟩ := d
  simp only at h1 h2 h3 h4 h5 h6
  subst h1 h2 h3 h4 h5 h6
  unfold Host.dotGeneral
  rw [Ideal.dotGeneral_apply]
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

theorem broadcastInDim_scalar {α : Type} (t : Shape) (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  congrArg v (eq_ix0 _)

theorem broadcastInDim_vec_row {α : Type} {D : Nat}
    (h : (⟨1, ![D]⟩ : Shape).BroadcastsInDim ⟨2, ![1, D]⟩ (![1] : Fin 1 → Fin (⟨2, ![1, D]⟩ : Shape).rank))
    (x : (⟨1, ![D]⟩ : Shape).Idx → α) (u : Fin 1) (j : Fin D) :
    broadcastInDim ⟨2, ![1, D]⟩ ![1] h x (ix2 u j) = x (ix1 j) := by
  refine broadcastInDim_apply _ h x _ _ fun a => ?_
  match a with
  | ⟨0, _⟩ =>
    show j.val = if D = 1 then 0 else j.val
    split
    · have := j.isLt; omega
    · rfl

theorem broadcastInDim_row_rows {α : Type} {N D : Nat}
    (h : (⟨2, ![1, D]⟩ : Shape).BroadcastsInDim ⟨2, ![N, D]⟩ (![0, 1] : Fin 2 → Fin (⟨2, ![N, D]⟩ : Shape).rank))
    (x : (⟨2, ![1, D]⟩ : Shape).Idx → α) (i : Fin N) (j : Fin D) :
    broadcastInDim ⟨2, ![N, D]⟩ ![0, 1] h x (ix2 i j) = x (ix2 0 j) := by
  refine broadcastInDim_apply _ h x _ _ fun a => ?_
  match a with
  | ⟨0, _⟩ => rfl
  | ⟨1, _⟩ =>
    show j.val = if D = 1 then 0 else j.val
    split
    · have := j.isLt; omega
    · rfl

theorem broadcastInDim_vec_col {α : Type} {E : Nat}
    (h : (⟨1, ![E]⟩ : Shape).BroadcastsInDim ⟨2, ![E, 1]⟩ (![0] : Fin 1 → Fin (⟨2, ![E, 1]⟩ : Shape).rank))
    (x : (⟨1, ![E]⟩ : Shape).Idx → α) (e : Fin E) (u : Fin 1) :
    broadcastInDim ⟨2, ![E, 1]⟩ ![0] h x (ix2 e u) = x (ix1 e) := by
  refine broadcastInDim_apply _ h x _ _ fun a => ?_
  match a with
  | ⟨0, _⟩ =>
    show e.val = if E = 1 then 0 else e.val
    split
    · have := e.isLt; omega
    · rfl

theorem broadcastInDim_col_cols {α : Type} {E D : Nat}
    (h : (⟨2, ![E, 1]⟩ : Shape).BroadcastsInDim ⟨2, ![E, D]⟩ (![0, 1] : Fin 2 → Fin (⟨2, ![E, D]⟩ : Shape).rank))
    (x : (⟨2, ![E, 1]⟩ : Shape).Idx → α) (e : Fin E) (q : Fin D) :
    broadcastInDim ⟨2, ![E, D]⟩ ![0, 1] h x (ix2 e q) = x (ix2 e 0) := by
  refine broadcastInDim_apply _ h x _ _ fun a => ?_
  match a with
  | ⟨0, _⟩ =>
    show e.val = if E = 1 then 0 else e.val
    split
    · have := e.isLt; omega
    · rfl
  | ⟨1, _⟩ => rfl

theorem hostDivf_apply {S : Shape} {φ : FTy} (a b : FVec Ideal S φ) (i : S.Idx) :
    Host.divf a b i = Ideal.div (a i) (b i) := rfl

theorem hostRsqrt_apply {S : Shape} {φ : FTy} (a : FVec Ideal S φ) (i : S.Idx) :
    Host.rsqrt a i = Ideal.rsqrt (a i) := rfl

theorem hostScatterAdd_eq {S si su : Shape} {w : Nat} {φ : FTy} (d : ScatterDims S si su) (x : FVec Ideal S φ)
    (idx : IVec si w) (upd : FVec Ideal su φ) :
    Host.scatterAdd d x idx upd = Ideal.hostScatterAdd d x idx upd := rfl

theorem sitofp_real_apply {S : Shape} {φ : FTy} {w : Nat} (x : IVec S w) (i : S.Idx) :
    (sitofp φ x : FVec Ideal S φ) i = (((x i).toInt : ℝ) : EReal) := rfl

theorem div_coe_coe (r s : ℝ) (hs : s ≠ 0) : Ideal.div (r : EReal) (s : EReal) = ((r / s : ℝ) : EReal) := by
  rw [Ideal.div_coe hs, ← EReal.coe_mul, mul_one_div]

theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

theorem cmp_ogt_eq_one_iff (x y : EReal) : Ideal.cmp .ogt x y = 1#1 ↔ y < x := by
  unfold Ideal.cmp
  by_cases h : y < x
  · simp [h]
  · simp [h]

theorem cmpf_ogt_apply {S : Shape} {φ : FTy} (a b : FVec Ideal S φ) (i : S.Idx) :
    cmpf .ogt a b i = Ideal.cmp .ogt (a i) (b i) := rfl

theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem coe_mul (x y : ℝ) : ((x * y : ℝ) : EReal) = (x : EReal) * (y : EReal) := EReal.coe_mul x y

theorem coe_max (x y : ℝ) : ((max x y : ℝ) : EReal) = max (x : EReal) (y : EReal) :=
  EReal.coe_strictMono.monotone.map_max

theorem exists_real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih fun i hi => hf i (Finset.mem_insert_of_mem hi)
    exact ⟨r + t, by rw [Finset.sum_insert ha, hr, ht, EReal.coe_add]⟩

section Elementwise
variable {S : Shape} {φ : FTy}

theorem isReal_addf {a b : FVec Ideal S φ} (ha : IsReal a) (hb : IsReal b) : IsReal (addf a b) := fun i => by
  obtain ⟨r, hr⟩ := ha i
  obtain ⟨t, ht⟩ := hb i
  exact ⟨r + t, by rw [addf_apply, hr, ht, EReal.coe_add]⟩

theorem isReal_subf {a b : FVec Ideal S φ} (ha : IsReal a) (hb : IsReal b) : IsReal (subf a b) := fun i => by
  obtain ⟨r, hr⟩ := ha i
  obtain ⟨t, ht⟩ := hb i
  exact ⟨r - t, by rw [subf_apply, hr, ht, EReal.coe_sub]⟩

theorem isReal_mulf {a b : FVec Ideal S φ} (ha : IsReal a) (hb : IsReal b) : IsReal (mulf a b) := fun i => by
  obtain ⟨r, hr⟩ := ha i
  obtain ⟨t, ht⟩ := hb i
  exact ⟨r * t, by rw [mulf_apply, hr, ht, EReal.coe_mul]⟩

theorem isReal_hostDivf {a b : FVec Ideal S φ} (ha : IsReal a) (hb : ∀ i, ∃ t : ℝ, t ≠ 0 ∧ b i = (t : EReal)) :
    IsReal (Host.divf a b) := fun i => by
  obtain ⟨r, hr⟩ := ha i
  obtain ⟨t, ht0, ht⟩ := hb i
  exact ⟨r / t, by rw [hostDivf_apply, hr, ht, div_coe_coe r t ht0]⟩

theorem isReal_hostRsqrt {a : FVec Ideal S φ} (ha : ∀ i, ∃ r : ℝ, 0 < r ∧ a i = (r : EReal)) :
    IsReal (Host.rsqrt a) := fun i => by
  obtain ⟨r, hr0, hr⟩ := ha i
  exact ⟨(Real.sqrt r)⁻¹, by rw [hostRsqrt_apply, hr, rsqrt_coe_pos r hr0]⟩

theorem constant_real (w : BitVec φ.bits) (r : ℝ) (hw : Ideal.ofBits φ w = (r : EReal)) :
    IsReal (constant (F := Ideal) S φ w) := fun _ => ⟨r, hw⟩

end Elementwise

section Reindexing
variable {α : Type} {s t : Shape}

theorem broadcastInDim_mem (dims : Fin s.rank → Fin t.rank) (h : s.BroadcastsInDim t dims) (x : s.Idx → α) (j : t.Idx) :
    ∃ k, broadcastInDim t dims h x j = x k := ⟨_, rfl⟩

theorem isReal_broadcastInDim (dims : Fin s.rank → Fin t.rank) (h : s.BroadcastsInDim t dims) {x : s.Idx → EReal}
    (hx : IsReal x) : IsReal (broadcastInDim t dims h x) := fun _ => hx _

theorem isReal_gather {si : Shape} {w : Nat} (d : GatherDims s si t) {x : s.Idx → EReal} (idx : IVec si w)
    (hx : IsReal x) : IsReal (Host.gather d x idx) := fun _ => hx _

end Reindexing

section Sums
variable {φ : FTy}

theorem isReal_reduceAdd {s t u : Shape} {axes : List (Fin s.rank)} {x : FVec Ideal s φ} {v : u.Idx → Ideal φ}
    (h : s.ReducesTo axes t) (hu : 0 < u.numel) (hx : IsReal x) (hv : IsReal v) :
    IsReal (Host.reduceAdd (F := Ideal) x v h hu) := fun j => by
  obtain ⟨r, hr⟩ := hv (Shape.Idx.first hu)
  obtain ⟨q, hq⟩ := exists_real_sum (Finset.univ.filter fun i => h.drop i = j) x fun i _ => hx i
  exact ⟨r + q, by unfold Host.reduceAdd; rw [Ideal.hostReduceAdd_def]; unfold Ideal.hostReduceAdd; rw [hr, hq, EReal.coe_add]⟩

end Sums

theorem ofBits_f32_zero : Ideal.ofBits .f32 0x00000000#32 = ((0 : ℝ) : EReal) := by
  rw [Ideal.ofBits_zero_f32, EReal.coe_zero]

theorem ofBits_f32_one : Ideal.ofBits .f32 0x3F800000#32 = ((1 : ℝ) : EReal) := by
  simp [Ideal.ofBits, Ideal.ieee, -EReal.coe_mul]
  norm_num

theorem ofBits_f32_100000 : Ideal.ofBits .f32 0x47C35000#32 = ((100000 : ℝ) : EReal) := by
  simp [Ideal.ofBits, Ideal.ieee, -EReal.coe_mul]
  norm_num

theorem ofBits_f32_eps : Ideal.ofBits .f32 0x3727C5AC#32 = ((10995116 / 2 ^ 40 : ℝ) : EReal) := by
  simp [Ideal.ofBits, Ideal.ieee, -EReal.coe_mul]
  norm_num

theorem ofBits_f32_eps_pos : ∃ r : ℝ, 0 < r ∧ Ideal.ofBits .f32 0x3727C5AC#32 = (r : EReal) :=
  ⟨10995116 / 2 ^ 40, by norm_num, ofBits_f32_eps⟩

end Cert.RealOps

end
-- ==== Proof.KernelFormulas.lean ====
import proofs.«402048_j34643206209888_3_alg».proof.Proof.SpecK
import proofs.«402048_j34643206209888_3_alg».proof.Proof.GlueDefs
import proofs.«402048_j34643206209888_3_alg».proof.Proof.LibIndexRead
import proofs.«402048_j34643206209888_3_alg».proof.Proof.LibRealOps
import Idealize.ShloMosaic.PureOps.Ideal
import Idealize.ShloMosaic.Lib.ValueIdx
import Idealize.ShloMosaic.Lib.ValueLayout

noncomputable section

namespace Cert.Glue

open Idealize.ShloMosaic Idealize.ShloMosaic.ValueIdx Cert.KernelIdeal Cert.KernelIdeal.Gen

section Generic
variable {N E D : Nat}

theorem aggregate_apply (hN : 0 < N)
    (dg : GatherDims ⟨2, ![N, D]⟩ ⟨2, ![E, 1]⟩ ⟨2, ![E, D]⟩)
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, D])
    (ds : ScatterDims ⟨2, ![N, D]⟩ ⟨2, ![E, 1]⟩ ⟨2, ![E, D]⟩)
    (s1 : ds.updateWindowDims = [1]) (s2 : ds.insertedWindowDims = [0]) (s3 : ds.scatterDimsToOperandDims = [0])
    (s4 : ds.indexVectorDim = 1)
    (bz : (⟨0, ![]⟩ : Shape).BroadcastsInDim ⟨2, ![N, D]⟩ (![] : Fin 0 → Fin (⟨2, ![N, D]⟩ : Shape).rank))
    (bc : (⟨1, ![E]⟩ : Shape).BroadcastsInDim ⟨2, ![E, 1]⟩ (![0] : Fin 1 → Fin (⟨2, ![E, 1]⟩ : Shape).rank))
    (bcc : (⟨2, ![E, 1]⟩ : Shape).BroadcastsInDim ⟨2, ![E, D]⟩ (![0, 1] : Fin 2 → Fin (⟨2, ![E, D]⟩ : Shape).rank))
    (col : IVec ⟨2, ![E, 1]⟩ 32) (h : FVec Ideal ⟨2, ![N, D]⟩ .f32) (nu : FVec Ideal ⟨1, ![E]⟩ .f32)
    (dst : IVec ⟨1, ![E]⟩ 32) (i : Fin N) (k : Fin D) :
    Host.scatterAdd ds
        (broadcastInDim ⟨2, ![N, D]⟩ ![] bz (constant (F := Ideal) ⟨0, ![]⟩ .f32 0x00000000#32))
        (broadcastInDim ⟨2, ![E, 1]⟩ ![0] bc dst)
        (mulf (Host.gather dg h col)
          (broadcastInDim ⟨2, ![E, D]⟩ ![0, 1] bcc (broadcastInDim ⟨2, ![E, 1]⟩ ![0] bc nu))) (ix2 i k)
      = (0 : EReal) + ∑ e ∈ Finset.univ.filter (fun e : Fin E => (dst (ix1 e)).toInt = (i.val : Int)),
          h (ix2 ⟨min (col (ix2 e 0)).toInt.toNat (N - 1), by omega⟩ k) * nu (ix1 e) := by
  rw [Cert.RealOps.hostScatterAdd_eq, Cert.Sage.IndexRead.scatterAdd_rows ds s1 s2 s3 s4]
  congr 1
  · rw [Cert.RealOps.broadcastInDim_scalar, constant_apply, Ideal.ofBits_zero_f32]
  · rw [Finset.filter_congr (q := fun e : Fin E => (dst (ix1 e)).toInt = (i.val : Int))
      (fun e _ => by rw [Cert.RealOps.broadcastInDim_vec_col])]
    refine Finset.sum_congr rfl fun e _ => ?_
    rw [mulf_apply, Cert.RealOps.broadcastInDim_col_cols, Cert.RealOps.broadcastInDim_vec_col,
      Cert.Sage.IndexRead.gather_rows_clamp dg g1 g2 g3 g4 g5 g6 g7 h col e k hN]

end Generic

theorem aggregate128_apply (src : (⟨S1700000, .i32⟩ : BufTy).Contents (Elt Ideal))
    (h : (⟨S100000x128, .f32⟩ : BufTy).Contents (Elt Ideal))
    (nu : (⟨S1700000, .f32⟩ : BufTy).Contents (Elt Ideal))
    (dst : (⟨S1700000, .i32⟩ : BufTy).Contents (Elt Ideal)) (i : Fin 100000) (k : Fin 128) :
    Cert.SpecK.aggregate128 (F := Ideal) src h nu dst (ix2 i k)
      = (0 : EReal) + ∑ e ∈ Finset.univ.filter (fun e => lands dst e i), h (ix2 (srcRow src e) k) * nu (ix1 e) :=
  aggregate_apply (by norm_num) gather_S100000x128_S1700000x1_S1700000x128_1_0_n_n_0_1_1128 rfl rfl rfl rfl rfl rfl rfl
    scatter_S100000x128_S1700000x1_S1700000x128_1_0_0_1 rfl rfl rfl rfl bcast_S_S100000x128
    bcast_S1700000_S1700000x1_0 bcast_S1700000x1_S1700000x128_0_1 (Cert.SpecK.wrapCol (F := Ideal) src) h nu dst i k

theorem aggregate16_apply (src : (⟨S1700000, .i32⟩ : BufTy).Contents (Elt Ideal))
    (h : (⟨S100000x16, .f32⟩ : BufTy).Contents (Elt Ideal))
    (nu : (⟨S1700000, .f32⟩ : BufTy).Contents (Elt Ideal))
    (dst : (⟨S1700000, .i32⟩ : BufTy).Contents (Elt Ideal)) (i : Fin 100000) (k : Fin 16) :
    Cert.SpecK.aggregate16 (F := Ideal) src h nu dst (ix2 i k)
      = (0 : EReal) + ∑ e ∈ Finset.univ.filter (fun e => lands dst e i), h (ix2 (srcRow src e) k) * nu (ix1 e) :=
  aggregate_apply (by norm_num) gather_S100000x16_S1700000x1_S1700000x16_1_0_n_n_0_1_116 rfl rfl rfl rfl rfl rfl rfl
    scatter_S100000x16_S1700000x1_S1700000x16_1_0_0_1 rfl rfl rfl rfl bcast_S_S100000x16
    bcast_S1700000_S1700000x1_0 bcast_S1700000x1_S1700000x16_0_1 (Cert.SpecK.wrapCol (F := Ideal) src) h nu dst i k

theorem castW128_eq (W : (⟨S128x128, .f32⟩ : BufTy).Contents (Elt Ideal)) :
    Cert.SpecK.castW128 (F := Ideal) W = W := rfl

theorem castW16_eq (W : (⟨S16x128, .f32⟩ : BufTy).Contents (Elt Ideal)) :
    Cert.SpecK.castW16 (F := Ideal) W = W := rfl

section GenericNorm
variable {N D : Nat}

theorem norm_from_sums_apply (cnt zero eps : BitVec (FTy.bits .f32))
    (sc : (⟨2, ![1, D]⟩ : Shape).ShapeCasts ⟨1, ![D]⟩)
    (bs : (⟨0, ![]⟩ : Shape).BroadcastsInDim ⟨1, ![D]⟩ (![] : Fin 0 → Fin (⟨1, ![D]⟩ : Shape).rank))
    (br : (⟨1, ![D]⟩ : Shape).BroadcastsInDim ⟨2, ![1, D]⟩ (![1] : Fin 1 → Fin (⟨2, ![1, D]⟩ : Shape).rank))
    (brr : (⟨2, ![1, D]⟩ : Shape).BroadcastsInDim ⟨2, ![N, D]⟩ (![0, 1] : Fin 2 → Fin (⟨2, ![N, D]⟩ : Shape).rank))
    (s q : FVec Ideal ⟨2, ![1, D]⟩ .f32) (p : FVec Ideal ⟨2, ![N, D]⟩ .f32) (g be : FVec Ideal ⟨1, ![D]⟩ .f32)
    (i : Fin N) (j : Fin D) :
    addf
      (mulf
        (mulf (broadcastInDim ⟨2, ![N, D]⟩ ![0, 1] brr (broadcastInDim ⟨2, ![1, D]⟩ ![1] br g))
          (subf p (broadcastInDim ⟨2, ![N, D]⟩ ![0, 1] brr (broadcastInDim ⟨2, ![1, D]⟩ ![1] br
            (Host.divf (shapeCast ⟨1, ![D]⟩ s sc)
              (broadcastInDim ⟨1, ![D]⟩ ![] bs (constant (F := Ideal) ⟨0, ![]⟩ .f32 cnt)))))))
        (broadcastInDim ⟨2, ![N, D]⟩ ![0, 1] brr (broadcastInDim ⟨2, ![1, D]⟩ ![1] br
          (Host.rsqrt
            (addf
              (maximumf
                (subf
                  (Host.divf (shapeCast ⟨1, ![D]⟩ q sc)
                    (broadcastInDim ⟨1, ![D]⟩ ![] bs (constant (F := Ideal) ⟨0, ![]⟩ .f32 cnt)))
                  (mulf
                    (Host.divf (shapeCast ⟨1, ![D]⟩ s sc)
                      (broadcastInDim ⟨1, ![D]⟩ ![] bs (constant (F := Ideal) ⟨0, ![]⟩ .f32 cnt)))
                    (Host.divf (shapeCast ⟨1, ![D]⟩ s sc)
                      (broadcastInDim ⟨1, ![D]⟩ ![] bs (constant (F := Ideal) ⟨0, ![]⟩ .f32 cnt)))))
                (broadcastInDim ⟨1, ![D]⟩ ![] bs (constant (F := Ideal) ⟨0, ![]⟩ .f32 zero)))
              (broadcastInDim ⟨1, ![D]⟩ ![] bs (constant (F := Ideal) ⟨0, ![]⟩ .f32 eps)))))))
      (broadcastInDim ⟨2, ![N, D]⟩ ![0, 1] brr (broadcastInDim ⟨2, ![1, D]⟩ ![1] br be)) (ix2 i j)
    = g (ix1 j) * (p (ix2 i j) - Ideal.div (s (ix2 0 j)) (Ideal.ofBits .f32 cnt))
        * Ideal.rsqrt (max (Ideal.div (q (ix2 0 j)) (Ideal.ofBits .f32 cnt)
            - Ideal.div (s (ix2 0 j)) (Ideal.ofBits .f32 cnt) * Ideal.div (s (ix2 0 j)) (Ideal.ofBits .f32 cnt))
            (Ideal.ofBits .f32 zero) + Ideal.ofBits .f32 eps)
      + be (ix1 j) := by
  rw [addf_apply, mulf_apply, mulf_apply, subf_apply]
  repeat rw [Cert.RealOps.broadcastInDim_row_rows]
  repeat rw [Cert.RealOps.broadcastInDim_vec_row]
  rw [Cert.RealOps.hostRsqrt_apply, addf_apply, maximumf_apply, subf_apply, mulf_apply]
  repeat rw [Cert.RealOps.hostDivf_apply]
  repeat rw [Cert.RealOps.broadcastInDim_scalar]
  repeat rw [constant_apply]
  repeat rw [shapeCast_1a_a_apply]

end GenericNorm

theorem normFromSums_apply (s q : (⟨S1x128, .f32⟩ : BufTy).Contents (Elt Ideal))
    (p : (⟨S100000x128, .f32⟩ : BufTy).Contents (Elt Ideal))
    (g be : (⟨S128, .f32⟩ : BufTy).Contents (Elt Ideal)) (i : Fin 100000) (j : Fin 128) :
    Cert.SpecK.normFromSums (F := Ideal) s q p g be (ix2 i j)
      = g (ix1 j) * (p (ix2 i j) - Ideal.div (s (ix2 0 j)) ((100000 : ℝ) : EReal))
          * Ideal.rsqrt (max (Ideal.div (q (ix2 0 j)) ((100000 : ℝ) : EReal)
              - Ideal.div (s (ix2 0 j)) ((100000 : ℝ) : EReal) * Ideal.div (s (ix2 0 j)) ((100000 : ℝ) : EReal)) 0
              + Ideal.ofBits .f32 0x3727C5AC#32)
        + be (ix1 j) := by
  rw [← Cert.RealOps.ofBits_f32_100000, ← Ideal.ofBits_zero_f32]
  exact norm_from_sums_apply 0x47C35000#32 0x00000000#32 0x3727C5AC#32 shapeCasts_S1x128_S128 bcast_S_S128
    bcast_S128_S1x128_1 bcast_S1x128_S100000x128_0_1 s q p g be i j

end Cert.Glue

end
-- ==== Proof.RefFormulas.lean ====
import proofs.«402048_j34643206209888_3_alg».proof.Proof.SpecR
import proofs.«402048_j34643206209888_3_alg».proof.Proof.GlueDefs
import proofs.«402048_j34643206209888_3_alg».proof.Proof.LibRealOps
import proofs.«402048_j34643206209888_3_alg».proof.Proof.LibIndexRead

noncomputable section

namespace Cert.Glue

open Idealize.ShloMosaic Idealize.ShloMosaic.ValueIdx Cert.RealArr Cert.Sage.IndexRead Cert.RealOps

theorem normCol_apply (nu : (⟨1, ![1700000]⟩ : Shape).Idx → EReal) (e : Fin 1700000) :
    Cert.SpecR.normCol (F := Ideal) nu (ix2 e 0) = nu (ix1 e) := by
  unfold Cert.SpecR.normCol
  exact broadcastInDim_vec_col _ nu e 0

theorem conv128_apply (h : (⟨2, ![100000, 128]⟩ : Shape).Idx → EReal) (W : (⟨2, ![128, 128]⟩ : Shape).Idx → EReal)
    (src : (⟨1, ![1700000]⟩ : Shape).Idx → BitVec 32) (nuc : (⟨2, ![1700000, 1]⟩ : Shape).Idx → EReal)
    (dst : (⟨1, ![1700000]⟩ : Shape).Idx → BitVec 32) (b : (⟨1, ![128]⟩ : Shape).Idx → EReal)
    (i : Fin 100000) (j : Fin 128) :
    Cert.SpecR.conv128 (F := Ideal) h W src nuc dst b (ix2 i j)
      = ((0 : EReal) + ∑ e ∈ Finset.univ.filter (fun e => lands dst e i),
          (∑ k : Fin 128, h (ix2 (srcRow src e) k) * W (ix2 k j)) * nuc (ix2 e 0)) + b (ix1 j) := by
  unfold Cert.SpecR.conv128
  dsimp only
  rw [addf_apply, hostScatterAdd_eq, scatterAdd_rows _ rfl rfl rfl rfl]
  rw [broadcastInDim_row_rows, broadcastInDim_vec_row, broadcastInDim_scalar, constant_apply, Ideal.ofBits_zero_f32]
  refine congrArg (· + b (ix1 j)) (congrArg ((0 : EReal) + ·) ?_)
  refine Finset.sum_congr ?_ fun e _ => ?_
  · ext e
    simp only [Finset.mem_filter, Finset.mem_univ, true_and]
    rw [broadcastInDim_vec_col]
    rfl
  · rw [mulf_apply, broadcastInDim_col_cols, gather_rows_clamp _ rfl rfl rfl rfl rfl rfl rfl _ _ e j (by norm_num),
      dotGeneral_rows _ rfl rfl rfl rfl rfl rfl]
    rfl

theorem conv16_apply (h : (⟨2, ![100000, 16]⟩ : Shape).Idx → EReal) (W : (⟨2, ![16, 128]⟩ : Shape).Idx → EReal)
    (src : (⟨1, ![1700000]⟩ : Shape).Idx → BitVec 32) (nuc : (⟨2, ![1700000, 1]⟩ : Shape).Idx → EReal)
    (dst : (⟨1, ![1700000]⟩ : Shape).Idx → BitVec 32) (b : (⟨1, ![128]⟩ : Shape).Idx → EReal)
    (i : Fin 100000) (j : Fin 128) :
    Cert.SpecR.conv16 (F := Ideal) h W src nuc dst b (ix2 i j)
      = ((0 : EReal) + ∑ e ∈ Finset.univ.filter (fun e => lands dst e i),
          (∑ k : Fin 16, h (ix2 (srcRow src e) k) * W (ix2 k j)) * nuc (ix2 e 0)) + b (ix1 j) := by
  unfold Cert.SpecR.conv16
  dsimp only
  rw [addf_apply, hostScatterAdd_eq, scatterAdd_rows _ rfl rfl rfl rfl]
  rw [broadcastInDim_row_rows, broadcastInDim_vec_row, broadcastInDim_scalar, constant_apply, Ideal.ofBits_zero_f32]
  refine congrArg (· + b (ix1 j)) (congrArg ((0 : EReal) + ·) ?_)
  refine Finset.sum_congr ?_ fun e _ => ?_
  · ext e
    simp only [Finset.mem_filter, Finset.mem_univ, true_and]
    rw [broadcastInDim_vec_col]
    rfl
  · rw [mulf_apply, broadcastInDim_col_cols, gather_rows_clamp _ rfl rfl rfl rfl rfl rfl rfl _ _ e j (by norm_num),
      dotGeneral_rows _ rfl rfl rfl rfl rfl rfl]
    rfl

theorem relu128_apply (x : (⟨2, ![100000, 128]⟩ : Shape).Idx → EReal) (i : Fin 100000) (j : Fin 128) :
    Cert.SpecR.relu128 (F := Ideal) x (ix2 i j) = max (x (ix2 i j)) 0 := by
  unfold Cert.SpecR.relu128
  dsimp only
  rw [maximumf_apply, broadcastInDim_scalar, constant_apply, Ideal.ofBits_zero_f32]

def meanM (r : (⟨2, ![100000, 128]⟩ : Shape).Idx → EReal) (j : Fin 128) : EReal :=
  Ideal.div ((0 : EReal) + ∑ i' : Fin 100000, r (ix2 i' j)) ((100000 : ℝ) : EReal)

def varM (r : (⟨2, ![100000, 128]⟩ : Shape).Idx → EReal) (j : Fin 128) : EReal :=
  Ideal.div ((0 : EReal) + ∑ i' : Fin 100000, (r (ix2 i' j) - meanM r j) * (r (ix2 i' j) - meanM r j))
    ((100000 : ℝ) : EReal)

private theorem mean_vec_apply (r : (⟨2, ![100000, 128]⟩ : Shape).Idx → EReal) (j : Fin 128)
    (h : (⟨2, ![100000, 128]⟩ : Shape).ReducesTo [0] ⟨1, ![128]⟩) (hu : 0 < (⟨0, ![]⟩ : Shape).numel)
    (hb : (⟨0, ![]⟩ : Shape).BroadcastsInDim ⟨1, ![128]⟩ ![]) :
    Host.divf (Host.reduceAdd (F := Ideal) (φ := .f32) r (constant (F := Ideal) ⟨0, ![]⟩ .f32 0x00000000#32) h hu)
      (broadcastInDim ⟨1, ![128]⟩ ![] hb (constant (F := Ideal) ⟨0, ![]⟩ .f32 0x47C35000#32)) (ix1 j) = meanM r j := by
  rw [hostDivf_apply, reduceAdd_rows, broadcastInDim_scalar, constant_apply, constant_apply, Ideal.ofBits_zero_f32,
    ofBits_f32_100000]
  rfl

private theorem mean_row_apply (r : (⟨2, ![100000, 128]⟩ : Shape).Idx → EReal) (j : Fin 128)
    (h : (⟨2, ![100000, 128]⟩ : Shape).ReducesTo [0] ⟨1, ![128]⟩) (hu : 0 < (⟨0, ![]⟩ : Shape).numel)
    (hb1 : (⟨1, ![128]⟩ : Shape).BroadcastsInDim ⟨2, ![1, 128]⟩ (![1] : Fin 1 → Fin (⟨2, ![1, 128]⟩ : Shape).rank))
    (hb2 : (⟨0, ![]⟩ : Shape).BroadcastsInDim ⟨2, ![1, 128]⟩ ![]) :
    Host.divf
      (broadcastInDim ⟨2, ![1, 128]⟩ ![1] hb1
        (Host.reduceAdd (F := Ideal) (φ := .f32) r (constant (F := Ideal) ⟨0, ![]⟩ .f32 0x00000000#32) h hu))
      (broadcastInDim ⟨2, ![1, 128]⟩ ![] hb2 (constant (F := Ideal) ⟨0, ![]⟩ .f32 0x47C35000#32)) (ix2 0 j)
      = meanM r j := by
  rw [hostDivf_apply, broadcastInDim_vec_row, reduceAdd_rows, broadcastInDim_scalar, constant_apply, constant_apply,
    Ideal.ofBits_zero_f32, ofBits_f32_100000]
  rfl

private theorem divisor_apply :
    subf (constant (F := Ideal) ⟨0, ![]⟩ .f32 0x47C35000#32) (sitofp .f32 (constantI ⟨0, ![]⟩ 32 0#32)) ix0
      = ((100000 : ℝ) : EReal) := by
  rw [subf_apply, constant_apply, ofBits_f32_100000, sitofp_real_apply]
  show ((100000 : ℝ) : EReal) - ((((0#32 : BitVec 32).toInt : ℤ) : ℝ) : EReal) = _
  rw [BitVec.toInt_zero, Int.cast_zero, EReal.coe_zero, sub_zero]

private theorem guard_apply (hb : (⟨0, ![]⟩ : Shape).BroadcastsInDim ⟨1, ![128]⟩ ![])
    (a b : (⟨1, ![128]⟩ : Shape).Idx → EReal) (j : (⟨1, ![128]⟩ : Shape).Idx) :
    select (broadcastInDim ⟨1, ![128]⟩ ![] hb
      (cmpf .ogt (subf (constant (F := Ideal) ⟨0, ![]⟩ .f32 0x47C35000#32) (sitofp .f32 (constantI ⟨0, ![]⟩ 32 0#32)))
        (constant (F := Ideal) ⟨0, ![]⟩ .f32 0x00000000#32))) a b j = a j := by
  rw [select_apply, broadcastInDim_scalar, cmpf_ogt_apply, divisor_apply, constant_apply, Ideal.ofBits_zero_f32,
    (cmp_ogt_eq_one_iff _ _).mpr (EReal.coe_pos.mpr (by norm_num))]
  rfl

theorem normFromData_apply (r : (⟨2, ![100000, 128]⟩ : Shape).Idx → EReal) (g be : (⟨1, ![128]⟩ : Shape).Idx → EReal)
    (i : Fin 100000) (j : Fin 128) :
    Cert.SpecR.normFromData (F := Ideal) r g be (ix2 i j)
      = g (ix1 j) * (r (ix2 i j) - meanM r j) * Ideal.rsqrt (varM r j + Ideal.ofBits .f32 0x3727C5AC#32) + be (ix1 j) := by
  unfold Cert.SpecR.normFromData
  dsimp only
  rw [addf_apply, mulf_apply, mulf_apply, subf_apply]
  rw [broadcastInDim_row_rows, broadcastInDim_vec_row, broadcastInDim_row_rows, broadcastInDim_vec_row,
    broadcastInDim_row_rows, broadcastInDim_vec_row, broadcastInDim_row_rows, broadcastInDim_vec_row]
  refine congrArg (· + be (ix1 j)) ?_
  refine congrArg₂ (· * ·) (congrArg (g (ix1 j) * ·) (congrArg (r (ix2 i j) - ·) (mean_vec_apply r j _ _ _))) ?_
  rw [hostRsqrt_apply, addf_apply]
  refine congrArg Ideal.rsqrt (congrArg₂ (· + ·) ?_ ?_)
  ·
    rw [guard_apply, hostDivf_apply, reduceAdd_rows, broadcastInDim_scalar, divisor_apply, constant_apply,
      Ideal.ofBits_zero_f32]
    unfold varM
    refine congrArg (fun s => Ideal.div ((0 : EReal) + s) ((100000 : ℝ) : EReal)) ?_
    refine Finset.sum_congr rfl fun i' _ => ?_
    rw [mulf_apply, subf_apply, broadcastInDim_row_rows, mean_row_apply]
  ·
    rw [broadcastInDim_scalar, constant_apply]

end Cert.Glue
end
-- ==== Proof.EdgeNormReal.lean ====
import Mathlib.Analysis.Real.Sqrt
import Mathlib.Data.EReal.Basic
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«402048_j34643206209888_3_alg».proof.Proof.SpecK
import proofs.«402048_j34643206209888_3_alg».proof.Proof.RealArr
import proofs.«402048_j34643206209888_3_alg».proof.Proof.LibIndexRead
import proofs.«402048_j34643206209888_3_alg».proof.Proof.LibRealOps

noncomputable section

namespace Cert.Glue

open Idealize.ShloMosaic Idealize.ShloMosaic.ValueIdx Cert.KernelIdeal Cert.KernelIdeal.Gen Cert.RealArr Cert.RealOps

theorem dstWords_selfLoop (ei : (⟨S2x1600000, .i32⟩ : BufTy).Contents (Elt Ideal)) (p : Fin 100000) :
    Cert.SpecK.dstWords (F := Ideal) ei (ix1 (⟨1600000 + p.val, by have := p.isLt; omega⟩ : Fin 1700000))
      = BitVec.ofNat 32 p.val := by
  unfold Cert.SpecK.dstWords
  dsimp only
  show _ = iotaInDim S100000 32 0 (ix1 p)
  refine concatenate_apply_piece (0 : Fin S1700000.rank) _ _ _ 1 ?_ S100000 (iotaInDim S100000 32 0) ?_ rfl 1600000 ?_ (ix1 p) ?_ ?_
  · exact Nat.lt_succ_self 1
  · rfl
  · rfl
  · intro b hb
    exact absurd (Subsingleton.elim _ _) hb
  · rfl

theorem toInt_ofNat_node (p : Fin 100000) : (BitVec.ofNat 32 p.val).toInt = (p.val : Int) := by
  have hp := p.isLt
  rw [BitVec.toInt_eq_toNat_of_lt (by rw [BitVec.toNat_ofNat]; omega), BitVec.toNat_ofNat]
  omega

theorem deg_pos (dst : (⟨S1700000, .i32⟩ : BufTy).Contents (Elt Ideal))
    (hself : ∀ p : Fin 100000, ∃ e : Fin 1700000, dst (ix1 e) = BitVec.ofNat 32 p.val) (i : S100000.Idx) :
    ∃ r : ℝ, 0 < r ∧
      Host.scatterAdd (F := Ideal) (φ := .f32) scatter_S100000_S1700000x1_S1700000_n_0_0_1
        (broadcastInDim S100000 ![] bcast_S_S100000 (constant (F := Ideal) S_ .f32 0x00000000#32))
        (broadcastInDim S1700000x1 ![0] bcast_S1700000_S1700000x1_0 dst)
        (broadcastInDim S1700000 ![] bcast_S_S1700000 (constant (F := Ideal) S_ .f32 0x3F800000#32)) i = (r : EReal) := by
  rw [eq_ix1 i, hostScatterAdd_eq]
  erw [Cert.Sage.IndexRead.scatterAdd_vec scatter_S100000_S1700000x1_S1700000_n_0_0_1 rfl rfl rfl rfl]
  obtain ⟨e0, he0⟩ := hself (i 0)
  refine ⟨((Finset.univ.filter (fun e : Fin 1700000 =>
      (broadcastInDim S1700000x1 ![0] bcast_S1700000_S1700000x1_0 dst (ix2 e 0)).toInt = ((i 0).val : Int))).card : ℝ), ?_, ?_⟩
  · refine Nat.cast_pos.mpr (Finset.card_pos.mpr ⟨e0, Finset.mem_filter.mpr ⟨Finset.mem_univ _, ?_⟩⟩)
    rw [broadcastInDim_vec_col, he0]
    exact toInt_ofNat_node (i 0)
  · rw [broadcastInDim_scalar, constant_apply, ofBits_f32_zero]
    rw [Finset.sum_congr rfl (fun e _ => by rw [broadcastInDim_scalar, constant_apply, ofBits_f32_one]), ← coe_finset_sum,
      Finset.sum_const, nsmul_eq_mul, mul_one, ← EReal.coe_add, zero_add]

theorem edgeNorm_real (ei : (⟨S2x1600000, .i32⟩ : BufTy).Contents (Elt Ideal)) :
    IsReal (Cert.SpecK.edgeNorm (F := Ideal) (Cert.SpecK.dstWords (F := Ideal) ei) (Cert.SpecK.srcWords (F := Ideal) ei)) := by
  have hinv := isReal_hostRsqrt (deg_pos (Cert.SpecK.dstWords (F := Ideal) ei) fun p => ⟨_, dstWords_selfLoop ei p⟩)
  unfold Cert.SpecK.edgeNorm
  dsimp only
  exact isReal_mulf (isReal_gather _ _ hinv) (isReal_gather _ _ hinv)

end Cert.Glue

end
-- ==== Proof.InputNormReal.lean ====
import proofs.«402048_j34643206209888_3_alg».proof.Proof.RealArr
import proofs.«402048_j34643206209888_3_alg».proof.Proof.LibRealOps
import proofs.«402048_j34643206209888_3_alg».proof.Proof.SpecK
import proofs.«402048_j34643206209888_3_alg».proof.Proof.SpecR

noncomputable section

namespace Cert.Glue

open Idealize.ShloMosaic Idealize.ShloMosaic.ValueIdx Cert.RealArr Cert.RealOps

def IsNonneg {S : Shape} (v : S.Idx → EReal) : Prop := ∀ i, ∃ r : ℝ, 0 ≤ r ∧ v i = (r : EReal)

def IsPos {S : Shape} (v : S.Idx → EReal) : Prop := ∀ i, ∃ r : ℝ, 0 < r ∧ v i = (r : EReal)

theorem exists_nonneg_sum {ι : Type*} (s : Finset ι) (f : ι → EReal)
    (hf : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    obtain ⟨r, hr0, hr⟩ := hf a (Finset.mem_insert_self a s)
    obtain ⟨t, ht0, ht⟩ := ih fun i hi => hf i (Finset.mem_insert_of_mem hi)
    exact ⟨r + t, add_nonneg hr0 ht0, by rw [Finset.sum_insert ha, hr, ht, EReal.coe_add]⟩

section Generic

variable {s r t u : Shape}

theorem nonneg_sq {d : FVec Ideal s .f32} (hd : IsReal d) : IsNonneg (mulf d d) := fun i => by
  obtain ⟨a, ha⟩ := hd i
  exact ⟨a * a, mul_self_nonneg a, by rw [mulf_apply, ha, EReal.coe_mul]⟩

theorem nonneg_reduceAdd {axes : List (Fin s.rank)} {x : FVec Ideal s .f32} {v : u.Idx → Ideal .f32}
    (h : s.ReducesTo axes t) (hu : 0 < u.numel) (hx : IsNonneg x) (hv : IsNonneg v) :
    IsNonneg (Host.reduceAdd (F := Ideal) x v h hu) := fun j => by
  obtain ⟨a, ha0, ha⟩ := hv (Shape.Idx.first hu)
  obtain ⟨q, hq0, hq⟩ := exists_nonneg_sum (Finset.univ.filter fun i => h.drop i = j) x fun i _ => hx i
  exact ⟨a + q, add_nonneg ha0 hq0, by
    unfold Host.reduceAdd; rw [Ideal.hostReduceAdd_def]; unfold Ideal.hostReduceAdd; rw [ha, hq, EReal.coe_add]⟩

theorem nonneg_hostDivf {a b : FVec Ideal t .f32} (ha : IsNonneg a) (hb : IsPos b) : IsNonneg (Host.divf a b) :=
  fun i => by
    obtain ⟨p, hp0, hp⟩ := ha i
    obtain ⟨q, hq0, hq⟩ := hb i
    exact ⟨p / q, div_nonneg hp0 hq0.le, by rw [hostDivf_apply, hp, hq, div_coe_coe p q hq0.ne']⟩

theorem nonneg_zero : IsNonneg (constant (F := Ideal) u .f32 0x00000000#32) :=
  fun _ => ⟨0, le_refl 0, ofBits_f32_zero⟩

theorem isReal_zero : IsReal (constant (F := Ideal) u .f32 0x00000000#32) :=
  constant_real _ 0 ofBits_f32_zero

theorem count_apply (k : u.Idx) :
    subf (constant (F := Ideal) u .f32 0x47C35000#32) (sitofp .f32 (constantI u 32 0#32)) k
      = ((100000 : ℝ) : EReal) := by
  rw [subf_apply, constant_apply, sitofp_real_apply, constantI_apply, ofBits_f32_100000]
  simp

theorem count_ne_zero (dims : Fin u.rank → Fin t.rank) (hb : u.BroadcastsInDim t dims) :
    ∀ i, ∃ c : ℝ, c ≠ 0 ∧ broadcastInDim t dims hb (constant (F := Ideal) u .f32 0x47C35000#32) i = (c : EReal) :=
  fun _ => ⟨100000, by norm_num, ofBits_f32_100000⟩

theorem count_pos (dims : Fin u.rank → Fin t.rank) (hb : u.BroadcastsInDim t dims) :
    IsPos (broadcastInDim t dims hb
      (subf (constant (F := Ideal) u .f32 0x47C35000#32) (sitofp .f32 (constantI u 32 0#32)))) :=
  fun _ => ⟨100000, by norm_num, count_apply _⟩

theorem guard_apply (dims : Fin u.rank → Fin t.rank) (hb : u.BroadcastsInDim t dims) (i : t.Idx) :
    broadcastInDim t dims hb
      (cmpf .ogt (subf (constant (F := Ideal) u .f32 0x47C35000#32) (sitofp .f32 (constantI u 32 0#32)))
        (constant (F := Ideal) u .f32 0x00000000#32)) i = 1#1 := by
  obtain ⟨k, hk⟩ := broadcastInDim_mem dims hb
    (cmpf .ogt (subf (constant (F := Ideal) u .f32 0x47C35000#32) (sitofp .f32 (constantI u 32 0#32)))
      (constant (F := Ideal) u .f32 0x00000000#32)) i
  rw [hk, cmpf_ogt_apply, count_apply, constant_apply, ofBits_f32_zero, cmp_ogt_eq_one_iff]
  exact EReal.coe_lt_coe_iff.mpr (by norm_num)

theorem isReal_mean {axes : List (Fin s.rank)} (h : s.ReducesTo axes t) (hu : 0 < u.numel)
    (dims : Fin u.rank → Fin t.rank) (hb : u.BroadcastsInDim t dims) {x : FVec Ideal s .f32} (hx : IsReal x) :
    IsReal (Host.divf (Host.reduceAdd (F := Ideal) x (constant u .f32 0x00000000#32) h hu)
      (broadcastInDim t dims hb (constant (F := Ideal) u .f32 0x47C35000#32))) :=
  isReal_hostDivf (isReal_reduceAdd h hu hx isReal_zero) (count_ne_zero dims hb)

theorem isReal_dev {axes : List (Fin s.rank)} (h : s.ReducesTo axes t) (hu : 0 < u.numel)
    (d₁ : Fin t.rank → Fin r.rank) (b₁ : t.BroadcastsInDim r d₁)
    (d₂ : Fin u.rank → Fin r.rank) (b₂ : u.BroadcastsInDim r d₂)
    (d₃ : Fin r.rank → Fin s.rank) (b₃ : r.BroadcastsInDim s d₃) {x : FVec Ideal s .f32} (hx : IsReal x) :
    IsReal (subf x (broadcastInDim s d₃ b₃
      (Host.divf (broadcastInDim r d₁ b₁ (Host.reduceAdd (F := Ideal) x (constant u .f32 0x00000000#32) h hu))
        (broadcastInDim r d₂ b₂ (constant (F := Ideal) u .f32 0x47C35000#32))))) :=
  isReal_subf hx (isReal_broadcastInDim d₃ b₃
    (isReal_hostDivf (isReal_broadcastInDim d₁ b₁ (isReal_reduceAdd h hu hx isReal_zero)) (count_ne_zero d₂ b₂)))

theorem pos_var_add_eps {axes : List (Fin s.rank)} (h : s.ReducesTo axes t) (hu : 0 < u.numel)
    (dims : Fin u.rank → Fin t.rank) (hb : u.BroadcastsInDim t dims) {d : FVec Ideal s .f32} (hd : IsReal d)
    (els : FVec Ideal t .f32) :
    IsPos (addf
      (select
        (broadcastInDim t dims hb
          (cmpf .ogt (subf (constant (F := Ideal) u .f32 0x47C35000#32) (sitofp .f32 (constantI u 32 0#32)))
            (constant (F := Ideal) u .f32 0x00000000#32)))
        (Host.divf (Host.reduceAdd (F := Ideal) (mulf d d) (constant u .f32 0x00000000#32) h hu)
          (broadcastInDim t dims hb
            (subf (constant (F := Ideal) u .f32 0x47C35000#32) (sitofp .f32 (constantI u 32 0#32)))))
        els)
      (broadcastInDim t dims hb (constant (F := Ideal) u .f32 0x3727C5AC#32))) := fun i => by
  obtain ⟨v, hv0, hv⟩ :=
    nonneg_hostDivf (nonneg_reduceAdd h hu (nonneg_sq hd) (nonneg_zero (u := u))) (count_pos dims hb) i
  obtain ⟨e, he0, he⟩ := ofBits_f32_eps_pos
  refine ⟨v + e, add_pos_of_nonneg_of_pos hv0 he0, ?_⟩
  rw [addf_apply, select_apply, guard_apply dims hb i]
  unfold Scalar.select
  rw [if_pos (by decide : (1#1 : BitVec 1) = 1), hv, EReal.coe_add]
  exact congrArg _ he

theorem batchNorm_real {axes : List (Fin s.rank)} (h : s.ReducesTo axes t) (hu : 0 < u.numel)
    (d₀ : Fin u.rank → Fin t.rank) (b₀ : u.BroadcastsInDim t d₀)
    (d₁ : Fin t.rank → Fin r.rank) (b₁ : t.BroadcastsInDim r d₁)
    (d₂ : Fin u.rank → Fin r.rank) (b₂ : u.BroadcastsInDim r d₂)
    (d₃ : Fin r.rank → Fin s.rank) (b₃ : r.BroadcastsInDim s d₃)
    {x : FVec Ideal s .f32} {g b : FVec Ideal t .f32} (els : FVec Ideal t .f32)
    (hx : IsReal x) (hg : IsReal g) (hbv : IsReal b) :
    IsReal (addf
      (mulf
        (mulf (broadcastInDim s d₃ b₃ (broadcastInDim r d₁ b₁ g))
          (subf x (broadcastInDim s d₃ b₃ (broadcastInDim r d₁ b₁
            (Host.divf (Host.reduceAdd (F := Ideal) x (constant u .f32 0x00000000#32) h hu)
              (broadcastInDim t d₀ b₀ (constant (F := Ideal) u .f32 0x47C35000#32)))))))
        (broadcastInDim s d₃ b₃ (broadcastInDim r d₁ b₁ (Host.rsqrt (addf
          (select
            (broadcastInDim t d₀ b₀
              (cmpf .ogt (subf (constant (F := Ideal) u .f32 0x47C35000#32) (sitofp .f32 (constantI u 32 0#32)))
                (constant (F := Ideal) u .f32 0x00000000#32)))
            (Host.divf
              (Host.reduceAdd (F := Ideal)
                (mulf
                  (subf x (broadcastInDim s d₃ b₃
                    (Host.divf
                      (broadcastInDim r d₁ b₁
                        (Host.reduceAdd (F := Ideal) x (constant u .f32 0x00000000#32) h hu))
                      (broadcastInDim r d₂ b₂ (constant (F := Ideal) u .f32 0x47C35000#32)))))
                  (subf x (broadcastInDim s d₃ b₃
                    (Host.divf
                      (broadcastInDim r d₁ b₁
                        (Host.reduceAdd (F := Ideal) x (constant u .f32 0x00000000#32) h hu))
                      (broadcastInDim r d₂ b₂ (constant (F := Ideal) u .f32 0x47C35000#32))))))
                (constant u .f32 0x00000000#32) h hu)
              (broadcastInDim t d₀ b₀
                (subf (constant (F := Ideal) u .f32 0x47C35000#32) (sitofp .f32 (constantI u 32 0#32)))))
            els)
          (broadcastInDim t d₀ b₀ (constant (F := Ideal) u .f32 0x3727C5AC#32)))))))
      (broadcastInDim s d₃ b₃ (broadcastInDim r d₁ b₁ b))) :=
  isReal_addf
    (isReal_mulf
      (isReal_mulf (isReal_broadcastInDim d₃ b₃ (isReal_broadcastInDim d₁ b₁ hg))
        (isReal_subf hx (isReal_broadcastInDim d₃ b₃ (isReal_broadcastInDim d₁ b₁ (isReal_mean h hu d₀ b₀ hx)))))
      (isReal_broadcastInDim d₃ b₃ (isReal_broadcastInDim d₁ b₁
        (isReal_hostRsqrt (pos_var_add_eps h hu d₀ b₀ (isReal_dev h hu d₁ b₁ d₂ b₂ d₃ b₃ hx) els)))))
    (isReal_broadcastInDim d₃ b₃ (isReal_broadcastInDim d₁ b₁ hbv))

end Generic

theorem inputNorm_real (x : (⟨Cert.KernelIdeal.S100000x16, .f32⟩ : BufTy).Contents (Elt Ideal))
    (g b : (⟨Cert.KernelIdeal.S16, .f32⟩ : BufTy).Contents (Elt Ideal))
    (hx : IsReal x) (hg : IsReal g) (hb : IsReal b) : IsReal (Cert.SpecK.inputNorm (F := Ideal) x g b) := by
  unfold Cert.SpecK.inputNorm
  exact batchNorm_real _ _ _ _ _ _ _ _ _ _ _ hx hg hb

theorem normFromData_real (r : (⟨Cert.ReferenceIdeal.S100000x128, .f32⟩ : BufTy).Contents (Elt Ideal))
    (g b : (⟨Cert.ReferenceIdeal.S128, .f32⟩ : BufTy).Contents (Elt Ideal))
    (hr : IsReal r) (hg : IsReal g) (hb : IsReal b) : IsReal (Cert.SpecR.normFromData (F := Ideal) r g b) := by
  unfold Cert.SpecR.normFromData
  exact batchNorm_real _ _ _ _ _ _ _ _ _ _ _ hr hg hb

end Cert.Glue

end
-- ==== Proof.lean ====
/-
  A graph convolution network's forward pass against its jnp reference, over the extended reals. The kernel
  program aggregates along the edges before it projects and takes its batch statistics from column sums of
  relu(A W + b) and of its square; the reference projects first and takes mean and variance of the data. Over
  finite reals the two are one function of the 27 arguments.
-/
import proofs.«402048_j34643206209888_3_alg».proof.Defs
import proofs.«402048_j34643206209888_3_alg».proof.Proof.Gen.Kernel
import proofs.«402048_j34643206209888_3_alg».proof.Proof.Gen.Kernel.Frame
import proofs.«402048_j34643206209888_3_alg».proof.Proof.Gen.KernelIdeal
import proofs.«402048_j34643206209888_3_alg».proof.Proof.Gen.KernelIdeal.Frame
import proofs.«402048_j34643206209888_3_alg».proof.Proof.Gen.ReferenceIdeal
import proofs.«402048_j34643206209888_3_alg».proof.Proof.Gen.Pre_finite_inputs
import proofs.«402048_j34643206209888_3_alg».proof.Proof.KernelRun
import proofs.«402048_j34643206209888_3_alg».proof.Proof.KernelValue
import proofs.«402048_j34643206209888_3_alg».proof.Proof.RefRun
import proofs.«402048_j34643206209888_3_alg».proof.Proof.RefValue
import proofs.«402048_j34643206209888_3_alg».proof.Proof.FiniteArgs
import proofs.«402048_j34643206209888_3_alg».proof.Proof.LayerGlue
import proofs.«402048_j34643206209888_3_alg».proof.Proof.KernelFormulas
import proofs.«402048_j34643206209888_3_alg».proof.Proof.RefFormulas
import proofs.«402048_j34643206209888_3_alg».proof.Proof.EdgeNormReal
import proofs.«402048_j34643206209888_3_alg».proof.Proof.InputNormReal
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.ChainV (KTopAt)

theorem frame_kernel : Cert.frame_Kernel := fun m ρ _ => Cert.Kernel.Gen.frame m ρ

theorem frame_kernelIdeal : Cert.frame_KernelIdeal := fun m ρ _ => Cert.KernelIdeal.Gen.frame m ρ

-- No operation of the reference writes an argument.
theorem frame_referenceIdeal : Cert.frame_ReferenceIdeal := fun m ρ _ =>
  (θ_run Cert.ReferenceIdeal.defs _ _).mono (fun _ h c => by
    repeat' apply And.intro
    all_goals exact Cert.ReferenceIdeal.RunH.mem_kept h c (by decide))
    (Cert.ReferenceIdeal.RunH.run_main m ρ)

theorem formulas : Cert.Glue.Formulas :=
  ⟨Cert.Glue.aggregate128_apply, Cert.Glue.aggregate16_apply, Cert.Glue.castW128_eq, Cert.Glue.castW16_eq, Cert.Glue.normFromSums_apply,
   Cert.Glue.normCol_apply, Cert.Glue.conv128_apply, Cert.Glue.conv16_apply, Cert.Glue.relu128_apply, Cert.Glue.normFromData_apply,
   Cert.Glue.edgeNorm_real, Cert.Glue.inputNorm_real, Cert.Glue.normFromData_real⟩

-- Both runs end at one function of the arguments: the kernel's chain of stretches and calls, and the reference's
-- line of operations rewritten along the agreement and joined by the layer law on real-valued arguments.
theorem algebraic : Cert.algebraic_KernelIdeal_ReferenceIdeal := fun m ρ m' ρ' hpre hagree =>
  ⟨fun c => KTopAt m c,
   (θ_run (Cert.KernelIdeal.defs (F := Ideal)) _ _).mono
    (fun r h c => ⟨(h c).1.trans (Cert.KernelIdeal.ChainV.kernel_value m ρ c), (h c).2⟩)
    (Cert.KernelIdeal.RunV.run_result (F := Ideal) m ρ),
   (θ_run (Cert.ReferenceIdeal.defs (F := Ideal)) _ _).mono (fun r h c => by
    obtain ⟨e0, e1, e2, e3, e4, e5, e6, e7, e8, e9, e10, e11, e12, e13, e14, e15, e16, e17, e18, e19, e20, e21, e22, e23, e24, e25, e26⟩ := hagree c
    obtain ⟨r0, r3, r4, r5, r6, r7, r8, r9, r10, r11, r12, r13, r14, r15, r16, r17, r18, r19, r20, r21, r22, r23, r24, r25, r26⟩ := Cert.FiniteArgs.args_real m hpre c
    refine ⟨(h c Cert.ReferenceIdeal.main_v230).trans ((Cert.ReferenceIdeal.ChainV.ref_value _).trans ?_), ?_⟩
    · refine Eq.trans ?_ (Cert.Glue.tops_eq formulas _ _ _ _ _ _ _ _ _ _ _ _ _ _ _ _ _ _ _ _ _ _ _ _ _ _ _ r0 r3 r4 r5 r6 r7 r8 r9 r10 r11 r12 r13 r14 r15 r16 r17 r18 r19 r20 r21 r22 r23 r24 r25 r26).symm
      congr 1
    · repeat' apply And.intro
      all_goals exact Cert.ReferenceIdeal.RunH.mem_kept h c (by decide))
    (Cert.ReferenceIdeal.RunH.run_main (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
